-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v178) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_v255) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1023x1025 : Shape := ⟨2, ![1023, 1025]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1023x1025 : S_.BroadcastsInDim S1023x1025 (![] : Fin 0 → Fin S1023x1025.rank)
  reducesTo_S1023x1025_S_d0_1 : S1023x1025.ReducesTo [0, 1] S_
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S16384x1024 .f32) (main_arg1 : FVec F S1023x1025 .f32) (main_arg2 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1023x1025 .f32 := Host.absf main_arg1
  let main_cst_0 : FVec F S_ .f32 := constant S_ .f32 0x7F800000#32
  let main_v5 : FVec F S1023x1025 .f32 := broadcastInDim S1023x1025 ![] bcast_S_S1023x1025 main_cst_0
  let main_v6 : IVec S1023x1025 1 := cmpf .olt main_v4 main_v5
  let main_c_1 : IVec S_ 1 := constantI S_ 1 1#1
  let main_v7 : IVec S_ 1 := (fun x v => Host.reduce IntOp.andi x v reducesTo_S1023x1025_S_d0_1 h_S_) main_v6 main_c_1
  let main_v8 : IVec S_ 1 := andi main_v3 main_v7
  let main_v9 : FVec F S1000x1024 .f32 := Host.absf main_arg2
  let main_cst_2 : FVec F S_ .f32 := constant S_ .f32 0x7F800000#32
  let main_v10 : FVec F S1000x1024 .f32 := broadcastInDim S1000x1024 ![] bcast_S_S1000x1024 main_cst_2
  let main_v11 : IVec S1000x1024 1 := cmpf .olt main_v9 main_v10
  let main_c_3 : IVec S_ 1 := constantI S_ 1 1#1
  let main_v12 : IVec S_ 1 := (fun x v => Host.reduce IntOp.andi x v reducesTo_S1000x1024_S_d0_1 h_S_) main_v11 main_c_3
  let main_v13 : IVec S_ 1 := andi main_v8 main_v12
  main_v13
-- ==== Kernel.lean ====
abbrev S16384x1024 : Shape := ⟨2, ![16384, 1024]⟩
abbrev S1023x1025 : Shape := ⟨2, ![1023, 1025]⟩
abbrev S1000x1024 : Shape := ⟨2, ![1000, 1024]⟩
abbrev S1 : Shape := ⟨1, ![1]⟩
abbrev S2 : Shape := ⟨1, ![2]⟩
abbrev S4 : Shape := ⟨1, ![4]⟩
abbrev S8 : Shape := ⟨1, ![8]⟩
abbrev S16 : Shape := ⟨1, ![16]⟩
abbrev S32 : Shape := ⟨1, ![32]⟩
abbrev S64 : Shape := ⟨1, ![64]⟩
abbrev S128 : Shape := ⟨1, ![128]⟩
abbrev S256 : Shape := ⟨1, ![256]⟩
abbrev S512 : Shape := ⟨1, ![512]⟩
abbrev S1024 : Shape := ⟨1, ![1024]⟩
abbrev S1x1025 : Shape := ⟨2, ![1, 1025]⟩
abbrev S_ : Shape := ⟨0, ![]⟩
abbrev S1x1 : Shape := ⟨2, ![1, 1]⟩
abbrev S2x1025 : Shape := ⟨2, ![2, 1025]⟩
abbrev S2x1 : Shape := ⟨2, ![2, 1]⟩
abbrev S4x1025 : Shape := ⟨2, ![4, 1025]⟩
abbrev S4x1 : Shape := ⟨2, ![4, 1]⟩
abbrev S8x1025 : Shape := ⟨2, ![8, 1025]⟩
abbrev S8x1 : Shape := ⟨2, ![8, 1]⟩
abbrev S16x1025 : Shape := ⟨2, ![16, 1025]⟩
abbrev S16x1 : Shape := ⟨2, ![16, 1]⟩
abbrev S32x1025 : Shape := ⟨2, ![32, 1025]⟩
abbrev S32x1 : Shape := ⟨2, ![32, 1]⟩
abbrev S64x1025 : Shape := ⟨2, ![64, 1025]⟩
abbrev S64x1 : Shape := ⟨2, ![64, 1]⟩
abbrev S128x1025 : Shape := ⟨2, ![128, 1025]⟩
abbrev S128x1 : Shape := ⟨2, ![128, 1]⟩
abbrev S256x1025 : Shape := ⟨2, ![256, 1025]⟩
abbrev S256x1 : Shape := ⟨2, ![256, 1]⟩
abbrev S512x1025 : Shape := ⟨2, ![512, 1025]⟩
abbrev S512x1 : Shape := ⟨2, ![512, 1]⟩
abbrev S1024x1025 : Shape := ⟨2, ![1024, 1025]⟩
abbrev S1024x1024 : Shape := ⟨2, ![1024, 1024]⟩
abbrev S1024x1 : Shape := ⟨2, ![1024, 1]⟩
abbrev S1x1024 : Shape := ⟨2, ![1, 1024]⟩
abbrev S1024x1000 : Shape := ⟨2, ![1024, 1000]⟩
abbrev S16384x1000 : Shape := ⟨2, ![16384, 1000]⟩
abbrev S256x2046 : Shape := ⟨2, ![256, 2046]⟩
abbrev S512x1024 : Shape := ⟨2, ![512, 1024]⟩
abbrev S512x1000 : Shape := ⟨2, ![512, 1000]⟩
abbrev S8x2046 : Shape := ⟨2, ![8, 2046]⟩
abbrev S512x2 : Shape := ⟨2, ![512, 2]⟩
abbrev S1x2 : Shape := ⟨2, ![1, 2]⟩
abbrev S512x4 : Shape := ⟨2, ![512, 4]⟩
abbrev S4x2 : Shape := ⟨2, ![4, 2]⟩
abbrev S1x4 : Shape := ⟨2, ![1, 4]⟩
abbrev S512x8 : Shape := ⟨2, ![512, 8]⟩
abbrev S8x4 : Shape := ⟨2, ![8, 4]⟩
abbrev S1x8 : Shape := ⟨2, ![1, 8]⟩
abbrev S512x16 : Shape := ⟨2, ![512, 16]⟩
abbrev S16x8 : Shape := ⟨2, ![16, 8]⟩
abbrev S1x16 : Shape := ⟨2, ![1, 16]⟩
abbrev S512x32 : Shape := ⟨2, ![512, 32]⟩
abbrev S32x16 : Shape := ⟨2, ![32, 16]⟩
abbrev S1x32 : Shape := ⟨2, ![1, 32]⟩
abbrev S512x64 : Shape := ⟨2, ![512, 64]⟩
abbrev S64x32 : Shape := ⟨2, ![64, 32]⟩
abbrev S1x64 : Shape := ⟨2, ![1, 64]⟩
abbrev S512x128 : Shape := ⟨2, ![512, 128]⟩
abbrev S128x64 : Shape := ⟨2, ![128, 64]⟩
abbrev S1x128 : Shape := ⟨2, ![1, 128]⟩
abbrev S512x256 : Shape := ⟨2, ![512, 256]⟩
abbrev S256x128 : Shape := ⟨2, ![256, 128]⟩
abbrev S1x256 : Shape := ⟨2, ![1, 256]⟩
abbrev S512x512 : Shape := ⟨2, ![512, 512]⟩
abbrev S1x512 : Shape := ⟨2, ![1, 512]⟩
abbrev S1024x512 : Shape := ⟨2, ![1024, 512]⟩
abbrev S1x2046 : Shape := ⟨2, ![1, 2046]⟩
abbrev S32x8x2046 : Shape := ⟨3, ![32, 8, 2046]⟩
abbrev S32x1x2046 : Shape := ⟨3, ![32, 1, 2046]⟩
abbrev S32x2046 : Shape := ⟨2, ![32, 2046]⟩
abbrev S2046 : Shape := ⟨1, ![2046]⟩

abbrev nBuf : Space → Nat
  | .hbm => 481
  | .vmem => 13
  | .smem => 0
  | _ => 0

abbrev hbmTy0_0 (i : Nat) : BufTy := match i % 128 with
  | 0 => ⟨S16384x1024, .f32⟩
  | 1 => ⟨S1023x1025, .f32⟩
  | 2 => ⟨S1000x1024, .f32⟩
  | 3 => ⟨S1, .i32⟩
  | 4 => ⟨S2, .i32⟩
  | 5 => ⟨S4, .i32⟩
  | 6 => ⟨S8, .i32⟩
  | 7 => ⟨S16, .i32⟩
  | 8 => ⟨S32, .i32⟩
  | 9 => ⟨S64, .i32⟩
  | 10 => ⟨S128, .i32⟩
  | 11 => ⟨S256, .i32⟩
  | 12 => ⟨S512, .i32⟩
  | 13 => ⟨S1024, .i32⟩
  | 14 => ⟨S1x1025, .f32⟩
  | 15 => ⟨S_, .i32⟩
  | 16 => ⟨S1, .i32⟩
  | 17 => ⟨S1, .i1⟩
  | 18 => ⟨S_, .i32⟩
  | 19 => ⟨S1, .i32⟩
  | 20 => ⟨S1, .i32⟩
  | 21 => ⟨S1, .i32⟩
  | 22 => ⟨S1x1, .i32⟩
  | 23 => ⟨S1, .i32⟩
  | 24 => ⟨S_, .i32⟩
  | 25 => ⟨S1x1, .i32⟩
  | 26 => ⟨S1x1, .i1⟩
  | 27 => ⟨S1x1, .i32⟩
  | 28 => ⟨S1x1, .i1⟩
  | 29 => ⟨S1x1, .i1⟩
  | 30 => ⟨S_, .i1⟩
  | 31 => ⟨S1, .i1⟩
  | 32 => ⟨S1x1025, .f32⟩
  | 33 => ⟨S1x1025, .i1⟩
  | 34 => ⟨S_, .f32⟩
  | 35 => ⟨S1x1025, .f32⟩
  | 36 => ⟨S1x1025, .f32⟩
  | 37 => ⟨S2x1025, .f32⟩
  | 38 => ⟨S_, .i32⟩
  | 39 => ⟨S2, .i32⟩
  | 40 => ⟨S2, .i1⟩
  | 41 => ⟨S_, .i32⟩
  | 42 => ⟨S2, .i32⟩
  | 43 => ⟨S2, .i32⟩
  | 44 => ⟨S2, .i32⟩
  | 45 => ⟨S2x1, .i32⟩
  | 46 => ⟨S1, .i32⟩
  | 47 => ⟨S_, .i32⟩
  | 48 => ⟨S2x1, .i32⟩
  | 49 => ⟨S2x1, .i1⟩
  | 50 => ⟨S1x1, .i32⟩
  | 51 => ⟨S2x1, .i32⟩
  | 52 => ⟨S2x1, .i1⟩
  | 53 => ⟨S2x1, .i1⟩
  | 54 => ⟨S_, .i1⟩
  | 55 => ⟨S2, .i1⟩
  | 56 => ⟨S2x1025, .f32⟩
  | 57 => ⟨S2x1025, .i1⟩
  | 58 => ⟨S_, .f32⟩
  | 59 => ⟨S2x1025, .f32⟩
  | 60 => ⟨S2x1025, .f32⟩
  | 61 => ⟨S4x1025, .f32⟩
  | 62 => ⟨S_, .i32⟩
  | 63 => ⟨S4, .i32⟩
  | 64 => ⟨S4, .i1⟩
  | 65 => ⟨S_, .i32⟩
  | 66 => ⟨S4, .i32⟩
  | 67 => ⟨S4, .i32⟩
  | 68 => ⟨S4, .i32⟩
  | 69 => ⟨S4x1, .i32⟩
  | 70 => ⟨S1, .i32⟩
  | 71 => ⟨S_, .i32⟩
  | 72 => ⟨S4x1, .i32⟩
  | 73 => ⟨S4x1, .i1⟩
  | 74 => ⟨S1x1, .i32⟩
  | 75 => ⟨S4x1, .i32⟩
  | 76 => ⟨S4x1, .i1⟩
  | 77 => ⟨S4x1, .i1⟩
  | 78 => ⟨S_, .i1⟩
  | 79 => ⟨S4, .i1⟩
  | 80 => ⟨S4x1025, .f32⟩
  | 81 => ⟨S4x1025, .i1⟩
  | 82 => ⟨S_, .f32⟩
  | 83 => ⟨S4x1025, .f32⟩
  | 84 => ⟨S4x1025, .f32⟩
  | 85 => ⟨S8x1025, .f32⟩
  | 86 => ⟨S_, .i32⟩
  | 87 => ⟨S8, .i32⟩
  | 88 => ⟨S8, .i1⟩
  | 89 => ⟨S_, .i32⟩
  | 90 => ⟨S8, .i32⟩
  | 91 => ⟨S8, .i32⟩
  | 92 => ⟨S8, .i32⟩
  | 93 => ⟨S8x1, .i32⟩
  | 94 => ⟨S1, .i32⟩
  | 95 => ⟨S_, .i32⟩
  | 96 => ⟨S8x1, .i32⟩
  | 97 => ⟨S8x1, .i1⟩
  | 98 => ⟨S1x1, .i32⟩
  | 99 => ⟨S8x1, .i32⟩
  | 100 => ⟨S8x1, .i1⟩
  | 101 => ⟨S8x1, .i1⟩
  | 102 => ⟨S_, .i1⟩
  | 103 => ⟨S8, .i1⟩
  | 104 => ⟨S8x1025, .f32⟩
  | 105 => ⟨S8x1025, .i1⟩
  | 106 => ⟨S_, .f32⟩
  | 107 => ⟨S8x1025, .f32⟩
  | 108 => ⟨S8x1025, .f32⟩
  | 109 => ⟨S16x1025, .f32⟩
  | 110 => ⟨S_, .i32⟩
  | 111 => ⟨S16, .i32⟩
  | 112 => ⟨S16, .i1⟩
  | 113 => ⟨S_, .i32⟩
  | 114 => ⟨S16, .i32⟩
  | 115 => ⟨S16, .i32⟩
  | 116 => ⟨S16, .i32⟩
  | 117 => ⟨S16x1, .i32⟩
  | 118 => ⟨S1, .i32⟩
  | 119 => ⟨S_, .i32⟩
  | 120 => ⟨S16x1, .i32⟩
  | 121 => ⟨S16x1, .i1⟩
  | 122 => ⟨S1x1, .i32⟩
  | 123 => ⟨S16x1, .i32⟩
  | 124 => ⟨S16x1, .i1⟩
  | 125 => ⟨S16x1, .i1⟩
  | 126 => ⟨S_, .i1⟩
  | 127 => ⟨S16, .i1⟩
  | _ => ⟨S16384x1024, .f32⟩

abbrev hbmTy0_1 (i : Nat) : BufTy := match i % 128 with
  | 0 => ⟨S16x1025, .f32⟩
  | 1 => ⟨S16x1025, .i1⟩
  | 2 => ⟨S_, .f32⟩
  | 3 => ⟨S16x1025, .f32⟩
  | 4 => ⟨S16x1025, .f32⟩
  | 5 => ⟨S32x1025, .f32⟩
  | 6 => ⟨S_, .i32⟩
  | 7 => ⟨S32, .i32⟩
  | 8 => ⟨S32, .i1⟩
  | 9 => ⟨S_, .i32⟩
  | 10 => ⟨S32, .i32⟩
  | 11 => ⟨S32, .i32⟩
  | 12 => ⟨S32, .i32⟩
  | 13 => ⟨S32x1, .i32⟩
  | 14 => ⟨S1, .i32⟩
  | 15 => ⟨S_, .i32⟩
  | 16 => ⟨S32x1, .i32⟩
  | 17 => ⟨S32x1, .i1⟩
  | 18 => ⟨S1x1, .i32⟩
  | 19 => ⟨S32x1, .i32⟩
  | 20 => ⟨S32x1, .i1⟩
  | 21 => ⟨S32x1, .i1⟩
  | 22 => ⟨S_, .i1⟩
  | 23 => ⟨S32, .i1⟩
  | 24 => ⟨S32x1025, .f32⟩
  | 25 => ⟨S32x1025, .i1⟩
  | 26 => ⟨S_, .f32⟩
  | 27 => ⟨S32x1025, .f32⟩
  | 28 => ⟨S32x1025, .f32⟩
  | 29 => ⟨S64x1025, .f32⟩
  | 30 => ⟨S_, .i32⟩
  | 31 => ⟨S64, .i32⟩
  | 32 => ⟨S64, .i1⟩
  | 33 => ⟨S_, .i32⟩
  | 34 => ⟨S64, .i32⟩
  | 35 => ⟨S64, .i32⟩
  | 36 => ⟨S64, .i32⟩
  | 37 => ⟨S64x1, .i32⟩
  | 38 => ⟨S1, .i32⟩
  | 39 => ⟨S_, .i32⟩
  | 40 => ⟨S64x1, .i32⟩
  | 41 => ⟨S64x1, .i1⟩
  | 42 => ⟨S1x1, .i32⟩
  | 43 => ⟨S64x1, .i32⟩
  | 44 => ⟨S64x1, .i1⟩
  | 45 => ⟨S64x1, .i1⟩
  | 46 => ⟨S_, .i1⟩
  | 47 => ⟨S64, .i1⟩
  | 48 => ⟨S64x1025, .f32⟩
  | 49 => ⟨S64x1025, .i1⟩
  | 50 => ⟨S_, .f32⟩
  | 51 => ⟨S64x1025, .f32⟩
  | 52 => ⟨S64x1025, .f32⟩
  | 53 => ⟨S128x1025, .f32⟩
  | 54 => ⟨S_, .i32⟩
  | 55 => ⟨S128, .i32⟩
  | 56 => ⟨S128, .i1⟩
  | 57 => ⟨S_, .i32⟩
  | 58 => ⟨S128, .i32⟩
  | 59 => ⟨S128, .i32⟩
  | 60 => ⟨S128, .i32⟩
  | 61 => ⟨S128x1, .i32⟩
  | 62 => ⟨S1, .i32⟩
  | 63 => ⟨S_, .i32⟩
  | 64 => ⟨S128x1, .i32⟩
  | 65 => ⟨S128x1, .i1⟩
  | 66 => ⟨S1x1, .i32⟩
  | 67 => ⟨S128x1, .i32⟩
  | 68 => ⟨S128x1, .i1⟩
  | 69 => ⟨S128x1, .i1⟩
  | 70 => ⟨S_, .i1⟩
  | 71 => ⟨S128, .i1⟩
  | 72 => ⟨S128x1025, .f32⟩
  | 73 => ⟨S128x1025, .i1⟩
  | 74 => ⟨S_, .f32⟩
  | 75 => ⟨S128x1025, .f32⟩
  | 76 => ⟨S128x1025, .f32⟩
  | 77 => ⟨S256x1025, .f32⟩
  | 78 => ⟨S_, .i32⟩
  | 79 => ⟨S256, .i32⟩
  | 80 => ⟨S256, .i1⟩
  | 81 => ⟨S_, .i32⟩
  | 82 => ⟨S256, .i32⟩
  | 83 => ⟨S256, .i32⟩
  | 84 => ⟨S256, .i32⟩
  | 85 => ⟨S256x1, .i32⟩
  | 86 => ⟨S1, .i32⟩
  | 87 => ⟨S_, .i32⟩
  | 88 => ⟨S256x1, .i32⟩
  | 89 => ⟨S256x1, .i1⟩
  | 90 => ⟨S1x1, .i32⟩
  | 91 => ⟨S256x1, .i32⟩
  | 92 => ⟨S256x1, .i1⟩
  | 93 => ⟨S256x1, .i1⟩
  | 94 => ⟨S_, .i1⟩
  | 95 => ⟨S256, .i1⟩
  | 96 => ⟨S256x1025, .f32⟩
  | 97 => ⟨S256x1025, .i1⟩
  | 98 => ⟨S_, .f32⟩
  | 99 => ⟨S256x1025, .f32⟩
  | 100 => ⟨S256x1025, .f32⟩
  | 101 => ⟨S512x1025, .f32⟩
  | 102 => ⟨S_, .i32⟩
  | 103 => ⟨S512, .i32⟩
  | 104 => ⟨S512, .i1⟩
  | 105 => ⟨S_, .i32⟩
  | 106 => ⟨S512, .i32⟩
  | 107 => ⟨S512, .i32⟩
  | 108 => ⟨S512, .i32⟩
  | 109 => ⟨S512x1, .i32⟩
  | 110 => ⟨S1, .i32⟩
  | 111 => ⟨S_, .i32⟩
  | 112 => ⟨S512x1, .i32⟩
  | 113 => ⟨S512x1, .i1⟩
  | 114 => ⟨S1x1, .i32⟩
  | 115 => ⟨S512x1, .i32⟩
  | 116 => ⟨S512x1, .i1⟩
  | 117 => ⟨S512x1, .i1⟩
  | 118 => ⟨S_, .i1⟩
  | 119 => ⟨S512, .i1⟩
  | 120 => ⟨S512x1025, .f32⟩
  | 121 => ⟨S512x1025, .i1⟩
  | 122 => ⟨S_, .f32⟩
  | 123 => ⟨S512x1025, .f32⟩
  | 124 => ⟨S512x1025, .f32⟩
  | 125 => ⟨S1023x1025, .f32⟩
  | 126 => ⟨S_, .f32⟩
  | 127 => ⟨S1x1025, .f32⟩
  | _ => ⟨S16384x1024, .f32⟩

abbrev hbmTy0_2 (i : Nat) : BufTy := match i % 128 with
  | 0 => ⟨S1024x1025, .f32⟩
  | 1 => ⟨S1024x1024, .f32⟩
  | 2 => ⟨S1024x1, .f32⟩
  | 3 => ⟨S1024, .f32⟩
  | 4 => ⟨S1x1024, .f32⟩
  | 5 => ⟨S1024x1024, .f32⟩
  | 6 => ⟨S1024x1024, .bf16⟩
  | 7 => ⟨S1024x1024, .f32⟩
  | 8 => ⟨S1024x1024, .f32⟩
  | 9 => ⟨S1024x1024, .bf16⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S1, .i32⟩
  | 19 => ⟨S_, .i32⟩
  | 20 => ⟨S1024x1, .i32⟩
  | 21 => ⟨S1024x1, .i1⟩
  | 22 => ⟨S1x1, .i32⟩
  | 23 => ⟨S1024x1, .i32⟩
  | 24 => ⟨S1024x1, .i1⟩
  | 25 => ⟨S1024x1, .i1⟩
  | 26 => ⟨S_, .i1⟩
  | 27 => ⟨S1024, .i1⟩
  | 28 => ⟨S1000x1024, .f32⟩
  | 29 => ⟨S1000x1024, .i1⟩
  | 30 => ⟨S_, .f32⟩
  | 31 => ⟨S1000x1024, .f32⟩
  | 32 => ⟨S1000x1024, .f32⟩
  | 33 => ⟨S1024x1000, .f32⟩
  | 34 => ⟨S1024x1000, .bf16⟩
  | 35 => ⟨S1024x1000, .f32⟩
  | 36 => ⟨S1024x1000, .f32⟩
  | 37 => ⟨S1024x1000, .bf16⟩
  | 38 => ⟨S16384x1000, .f32⟩
  | 39 => ⟨S256x2046, .f32⟩
  | 40 => ⟨S256x2046, .f32⟩
  | 41 => ⟨S32x8x2046, .f32⟩
  | 42 => ⟨S32x1x2046, .f32⟩
  | 43 => ⟨S32x2046, .f32⟩
  | 44 => ⟨S_, .f32⟩
  | 45 => ⟨S2046, .f32⟩
  | 46 => ⟨S32x8x2046, .f32⟩
  | 47 => ⟨S32x1x2046, .f32⟩
  | 48 => ⟨S32x2046, .f32⟩
  | 49 => ⟨S_, .f32⟩
  | 50 => ⟨S2046, .f32⟩
  | 51 => ⟨S_, .f32⟩
  | 52 => ⟨S2046, .f32⟩
  | 53 => ⟨S2046, .f32⟩
  | 54 => ⟨S2, .f32⟩
  | 55 => ⟨S2, .f32⟩
  | 56 => ⟨S2, .f32⟩
  | 57 => ⟨S2, .f32⟩
  | 58 => ⟨S_, .f32⟩
  | 59 => ⟨S2, .f32⟩
  | 60 => ⟨S2, .f32⟩
  | 61 => ⟨S2, .f32⟩
  | 62 => ⟨S2, .f32⟩
  | 63 => ⟨S_, .f32⟩
  | 64 => ⟨S2, .f32⟩
  | 65 => ⟨S2, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4, .f32⟩
  | 73 => ⟨S4, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S_, .f32⟩
  | 82 => ⟨S4, .f32⟩
  | 83 => ⟨S4, .f32⟩
  | 84 => ⟨S_, .f32⟩
  | 85 => ⟨S_, .f32⟩
  | 86 => ⟨S_, .f32⟩
  | 87 => ⟨S_, .f32⟩
  | 88 => ⟨S_, .f32⟩
  | 89 => ⟨S8, .f32⟩
  | 90 => ⟨S8, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S_, .f32⟩
  | 103 => ⟨S_, .f32⟩
  | 104 => ⟨S_, .f32⟩
  | 105 => ⟨S_, .f32⟩
  | 106 => ⟨S16, .f32⟩
  | 107 => ⟨S16, .f32⟩
  | 108 => ⟨S16, .f32⟩
  | 109 => ⟨S16, .f32⟩
  | 110 => ⟨S_, .f32⟩
  | 111 => ⟨S16, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S_, .f32⟩
  | 120 => ⟨S_, .f32⟩
  | 121 => ⟨S_, .f32⟩
  | 122 => ⟨S_, .f32⟩
  | 123 => ⟨S32, .f32⟩
  | 124 => ⟨S32, .f32⟩
  | 125 => ⟨S32, .f32⟩
  | 126 => ⟨S32, .f32⟩
  | 127 => ⟨S_, .f32⟩
  | _ => ⟨S16384x1024, .f32⟩

abbrev hbmTy0_3 (i : Nat) : BufTy := match i % 128 with
  | 0 => ⟨S32, .f32⟩
  | 1 => ⟨S32, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S_, .f32⟩
  | 9 => ⟨S_, .f32⟩
  | 10 => ⟨S_, .f32⟩
  | 11 => ⟨S_, .f32⟩
  | 12 => ⟨S64, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S128, .f32⟩
  | 33 => ⟨S_, .f32⟩
  | 34 => ⟨S128, .f32⟩
  | 35 => ⟨S128, .f32⟩
  | 36 => ⟨S128, .f32⟩
  | 37 => ⟨S128, .f32⟩
  | 38 => ⟨S_, .f32⟩
  | 39 => ⟨S128, .f32⟩
  | 40 => ⟨S128, .f32⟩
  | 41 => ⟨S_, .f32⟩
  | 42 => ⟨S_, .f32⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S256, .f32⟩
  | 50 => ⟨S_, .f32⟩
  | 51 => ⟨S256, .f32⟩
  | 52 => ⟨S256, .f32⟩
  | 53 => ⟨S256, .f32⟩
  | 54 => ⟨S256, .f32⟩
  | 55 => ⟨S_, .f32⟩
  | 56 => ⟨S256, .f32⟩
  | 57 => ⟨S256, .f32⟩
  | 58 => ⟨S_, .f32⟩
  | 59 => ⟨S_, .f32⟩
  | 60 => ⟨S_, .f32⟩
  | 61 => ⟨S_, .f32⟩
  | 62 => ⟨S_, .f32⟩
  | 63 => ⟨S512, .f32⟩
  | 64 => ⟨S512, .f32⟩
  | 65 => ⟨S512, .f32⟩
  | 66 => ⟨S512, .f32⟩
  | 67 => ⟨S_, .f32⟩
  | 68 => ⟨S512, .f32⟩
  | 69 => ⟨S512, .f32⟩
  | 70 => ⟨S512, .f32⟩
  | 71 => ⟨S512, .f32⟩
  | 72 => ⟨S_, .f32⟩
  | 73 => ⟨S512, .f32⟩
  | 74 => ⟨S512, .f32⟩
  | 75 => ⟨S_, .f32⟩
  | 76 => ⟨S_, .f32⟩
  | 77 => ⟨S_, .f32⟩
  | 78 => ⟨S_, .f32⟩
  | 79 => ⟨S_, .f32⟩
  | 80 => ⟨S1024, .f32⟩
  | 81 => ⟨S1024, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S_, .f32⟩
  | 93 => ⟨S_, .f32⟩
  | 94 => ⟨S_, .f32⟩
  | 95 => ⟨S_, .f32⟩
  | 96 => ⟨S_, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1000, .bf16⟩
  | .local _ .vmem, ⟨6, _⟩ => ⟨S1024x1000, .bf16⟩
  | .local _ .vmem, ⟨7, _⟩ => ⟨S512x1000, .f32⟩
  | .local _ .vmem, ⟨8, _⟩ => ⟨S512x1000, .f32⟩
  | .local _ .vmem, ⟨9, _⟩ => ⟨S8x2046, .f32⟩
  | .local _ .vmem, ⟨10, _⟩ => ⟨S8x2046, .f32⟩
  | .local _ .vmem, ⟨11, _⟩ => ⟨S8x2046, .f32⟩
  | .local _ .vmem, ⟨12, _⟩ => ⟨S8x2046, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v1 : Ref sig .tc := ⟨.hbm, 36, rfl⟩
abbrev main_v2 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v3 : Ref sig .tc := ⟨.hbm, 60, rfl⟩
abbrev main_v4 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v5 : Ref sig .tc := ⟨.hbm, 84, rfl⟩
abbrev main_v6 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v7 : Ref sig .tc := ⟨.hbm, 108, rfl⟩
abbrev main_v8 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v9 : Ref sig .tc := ⟨.hbm, 132, rfl⟩
abbrev main_v10 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_c_1 : Ref sig .tc := ⟨.hbm, 142, rfl⟩
abbrev main_call5_c_2 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_3 : Ref sig .tc := ⟨.hbm, 150, rfl⟩
abbrev main_call5_v12 : Ref sig .tc := ⟨.hbm, 151, rfl⟩
abbrev main_call5_v13 : Ref sig .tc := ⟨.hbm, 152, rfl⟩
abbrev main_call5_v14 : Ref sig .tc := ⟨.hbm, 153, rfl⟩
abbrev main_call5_cst : Ref sig .tc := ⟨.hbm, 154, rfl⟩
abbrev main_call5_v15 : Ref sig .tc := ⟨.hbm, 155, rfl⟩
abbrev main_v11 : Ref sig .tc := ⟨.hbm, 156, rfl⟩
abbrev main_v12 : Ref sig .tc := ⟨.hbm, 157, rfl⟩
abbrev main_call6_c : Ref sig .tc := ⟨.hbm, 158, rfl⟩
abbrev main_call6_v0 : Ref sig .tc := ⟨.hbm, 159, rfl⟩
abbrev main_call6_v1 : Ref sig .tc := ⟨.hbm, 160, rfl⟩
abbrev main_call6_c_0 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_c_1 : Ref sig .tc := ⟨.hbm, 166, rfl⟩
abbrev main_call6_c_2 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_3 : Ref sig .tc := ⟨.hbm, 174, rfl⟩
abbrev main_call6_v12 : Ref sig .tc := ⟨.hbm, 175, rfl⟩
abbrev main_call6_v13 : Ref sig .tc := ⟨.hbm, 176, rfl⟩
abbrev main_call6_v14 : Ref sig .tc := ⟨.hbm, 177, rfl⟩
abbrev main_call6_cst : Ref sig .tc := ⟨.hbm, 178, rfl⟩
abbrev main_call6_v15 : Ref sig .tc := ⟨.hbm, 179, rfl⟩
abbrev main_v13 : Ref sig .tc := ⟨.hbm, 180, rfl⟩
abbrev main_v14 : Ref sig .tc := ⟨.hbm, 181, rfl⟩
abbrev main_call7_c : Ref sig .tc := ⟨.hbm, 182, rfl⟩
abbrev main_call7_v0 : Ref sig .tc := ⟨.hbm, 183, rfl⟩
abbrev main_call7_v1 : Ref sig .tc := ⟨.hbm, 184, rfl⟩
abbrev main_call7_c_0 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_call7_v5 : Ref sig .tc := ⟨.hbm, 189, rfl⟩
abbrev main_call7_c_1 : Ref sig .tc := ⟨.hbm, 190, rfl⟩
abbrev main_call7_c_2 : Ref sig .tc := ⟨.hbm, 191, rfl⟩
abbrev main_call7_v6 : Ref sig .tc := ⟨.hbm, 192, rfl⟩
abbrev main_call7_v7 : Ref sig .tc := ⟨.hbm, 193, rfl⟩
abbrev main_call7_v8 : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_c_3 : Ref sig .tc := ⟨.hbm, 198, rfl⟩
abbrev main_call7_v12 : Ref sig .tc := ⟨.hbm, 199, rfl⟩
abbrev main_call7_v13 : Ref sig .tc := ⟨.hbm, 200, rfl⟩
abbrev main_call7_v14 : Ref sig .tc := ⟨.hbm, 201, rfl⟩
abbrev main_call7_cst : Ref sig .tc := ⟨.hbm, 202, rfl⟩
abbrev main_call7_v15 : Ref sig .tc := ⟨.hbm, 203, rfl⟩
abbrev main_v15 : Ref sig .tc := ⟨.hbm, 204, rfl⟩
abbrev main_v16 : Ref sig .tc := ⟨.hbm, 205, rfl⟩
abbrev main_call8_c : Ref sig .tc := ⟨.hbm, 206, rfl⟩
abbrev main_call8_v0 : Ref sig .tc := ⟨.hbm, 207, rfl⟩
abbrev main_call8_v1 : Ref sig .tc := ⟨.hbm, 208, rfl⟩
abbrev main_call8_c_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_c_1 : Ref sig .tc := ⟨.hbm, 214, rfl⟩
abbrev main_call8_c_2 : Ref sig .tc := ⟨.hbm, 215, rfl⟩
abbrev main_call8_v6 : Ref sig .tc := ⟨.hbm, 216, rfl⟩
abbrev main_call8_v7 : Ref sig .tc := ⟨.hbm, 217, rfl⟩
abbrev main_call8_v8 : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_3 : Ref sig .tc := ⟨.hbm, 222, rfl⟩
abbrev main_call8_v12 : Ref sig .tc := ⟨.hbm, 223, rfl⟩
abbrev main_call8_v13 : Ref sig .tc := ⟨.hbm, 224, rfl⟩
abbrev main_call8_v14 : Ref sig .tc := ⟨.hbm, 225, rfl⟩
abbrev main_call8_cst : Ref sig .tc := ⟨.hbm, 226, rfl⟩
abbrev main_call8_v15 : Ref sig .tc := ⟨.hbm, 227, rfl⟩
abbrev main_v17 : Ref sig .tc := ⟨.hbm, 228, rfl⟩
abbrev main_v18 : Ref sig .tc := ⟨.hbm, 229, rfl⟩
abbrev main_call9_c : Ref sig .tc := ⟨.hbm, 230, rfl⟩
abbrev main_call9_v0 : Ref sig .tc := ⟨.hbm, 231, rfl⟩
abbrev main_call9_v1 : Ref sig .tc := ⟨.hbm, 232, rfl⟩
abbrev main_call9_c_0 : Ref sig .tc := ⟨.hbm, 233, rfl⟩
abbrev main_call9_v2 : Ref sig .tc := ⟨.hbm, 234, rfl⟩
abbrev main_call9_v3 : Ref sig .tc := ⟨.hbm, 235, rfl⟩
abbrev main_call9_v4 : Ref sig .tc := ⟨.hbm, 236, rfl⟩
abbrev main_call9_v5 : Ref sig .tc := ⟨.hbm, 237, rfl⟩
abbrev main_call9_c_1 : Ref sig .tc := ⟨.hbm, 238, rfl⟩
abbrev main_call9_c_2 : Ref sig .tc := ⟨.hbm, 239, rfl⟩
abbrev main_call9_v6 : Ref sig .tc := ⟨.hbm, 240, rfl⟩
abbrev main_call9_v7 : Ref sig .tc := ⟨.hbm, 241, rfl⟩
abbrev main_call9_v8 : Ref sig .tc := ⟨.hbm, 242, rfl⟩
abbrev main_call9_v9 : Ref sig .tc := ⟨.hbm, 243, rfl⟩
abbrev main_call9_v10 : Ref sig .tc := ⟨.hbm, 244, rfl⟩
abbrev main_call9_v11 : Ref sig .tc := ⟨.hbm, 245, rfl⟩
abbrev main_call9_c_3 : Ref sig .tc := ⟨.hbm, 246, rfl⟩
abbrev main_call9_v12 : Ref sig .tc := ⟨.hbm, 247, rfl⟩
abbrev main_call9_v13 : Ref sig .tc := ⟨.hbm, 248, rfl⟩
abbrev main_call9_v14 : Ref sig .tc := ⟨.hbm, 249, rfl⟩
abbrev main_call9_cst : Ref sig .tc := ⟨.hbm, 250, rfl⟩
abbrev main_call9_v15 : Ref sig .tc := ⟨.hbm, 251, rfl⟩
abbrev main_v19 : Ref sig .tc := ⟨.hbm, 252, rfl⟩
abbrev main_v20 : Ref sig .tc := ⟨.hbm, 253, rfl⟩
abbrev main_cst : Ref sig .tc := ⟨.hbm, 254, rfl⟩
abbrev main_v21 : Ref sig .tc := ⟨.hbm, 255, rfl⟩
abbrev main_v22 : Ref sig .tc := ⟨.hbm, 256, rfl⟩
abbrev main_v23 : Ref sig .tc := ⟨.hbm, 257, rfl⟩
abbrev main_v24 : Ref sig .tc := ⟨.hbm, 258, rfl⟩
abbrev main_v25 : Ref sig .tc := ⟨.hbm, 259, rfl⟩
abbrev main_v26 : Ref sig .tc := ⟨.hbm, 260, rfl⟩
abbrev main_v27 : Ref sig .tc := ⟨.hbm, 261, rfl⟩
abbrev main_v28 : Ref sig .tc := ⟨.hbm, 262, rfl⟩
abbrev main_v29 : Ref sig .tc := ⟨.hbm, 263, rfl⟩
abbrev main_v30 : Ref sig .tc := ⟨.hbm, 264, rfl⟩
abbrev main_v31 : Ref sig .tc := ⟨.hbm, 265, rfl⟩
abbrev main_call10_c : Ref sig .tc := ⟨.hbm, 266, rfl⟩
abbrev main_call10_v0 : Ref sig .tc := ⟨.hbm, 267, rfl⟩
abbrev main_call10_v1 : Ref sig .tc := ⟨.hbm, 268, rfl⟩
abbrev main_call10_c_0 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_call10_v5 : Ref sig .tc := ⟨.hbm, 273, rfl⟩
abbrev main_call10_c_1 : Ref sig .tc := ⟨.hbm, 274, rfl⟩
abbrev main_call10_c_2 : Ref sig .tc := ⟨.hbm, 275, rfl⟩
abbrev main_call10_v6 : Ref sig .tc := ⟨.hbm, 276, rfl⟩
abbrev main_call10_v7 : Ref sig .tc := ⟨.hbm, 277, rfl⟩
abbrev main_call10_v8 : Ref sig .tc := ⟨.hbm, 278, rfl⟩
abbrev main_call10_v9 : Ref sig .tc := ⟨.hbm, 279, rfl⟩
abbrev main_call10_v10 : Ref sig .tc := ⟨.hbm, 280, rfl⟩
abbrev main_call10_v11 : Ref sig .tc := ⟨.hbm, 281, rfl⟩
abbrev main_call10_c_3 : Ref sig .tc := ⟨.hbm, 282, rfl⟩
abbrev main_call10_v12 : Ref sig .tc := ⟨.hbm, 283, rfl⟩
abbrev main_call10_v13 : Ref sig .tc := ⟨.hbm, 284, rfl⟩
abbrev main_call10_v14 : Ref sig .tc := ⟨.hbm, 285, rfl⟩
abbrev main_call10_cst : Ref sig .tc := ⟨.hbm, 286, rfl⟩
abbrev main_call10_v15 : Ref sig .tc := ⟨.hbm, 287, rfl⟩
abbrev main_v32 : Ref sig .tc := ⟨.hbm, 288, rfl⟩
abbrev main_v33 : Ref sig .tc := ⟨.hbm, 289, rfl⟩
abbrev main_v34 : Ref sig .tc := ⟨.hbm, 290, rfl⟩
abbrev main_v35 : Ref sig .tc := ⟨.hbm, 291, rfl⟩
abbrev main_v36 : Ref sig .tc := ⟨.hbm, 292, rfl⟩
abbrev main_v37 : Ref sig .tc := ⟨.hbm, 293, rfl⟩
abbrev main_v38_0 : Ref sig .tc := ⟨.hbm, 294, rfl⟩
abbrev main_v38_1 : Ref sig .tc := ⟨.hbm, 295, rfl⟩
abbrev main_v38_2 : Ref sig .tc := ⟨.hbm, 296, rfl⟩
abbrev main_v39 : Ref sig .tc := ⟨.hbm, 297, rfl⟩
abbrev main_v40 : Ref sig .tc := ⟨.hbm, 298, rfl⟩
abbrev main_v41 : Ref sig .tc := ⟨.hbm, 299, rfl⟩
abbrev main_cst_10 : Ref sig .tc := ⟨.hbm, 300, rfl⟩
abbrev main_v42 : Ref sig .tc := ⟨.hbm, 301, rfl⟩
abbrev main_v43 : Ref sig .tc := ⟨.hbm, 302, rfl⟩
abbrev main_v44 : Ref sig .tc := ⟨.hbm, 303, rfl⟩
abbrev main_v45 : Ref sig .tc := ⟨.hbm, 304, rfl⟩
abbrev main_cst_11 : Ref sig .tc := ⟨.hbm, 305, rfl⟩
abbrev main_v46 : Ref sig .tc := ⟨.hbm, 306, rfl⟩
abbrev main_cst_12 : Ref sig .tc := ⟨.hbm, 307, rfl⟩
abbrev main_v47 : Ref sig .tc := ⟨.hbm, 308, rfl⟩
abbrev main_v48 : Ref sig .tc := ⟨.hbm, 309, rfl⟩
abbrev main_v49 : Ref sig .tc := ⟨.hbm, 310, rfl⟩
abbrev main_v50 : Ref sig .tc := ⟨.hbm, 311, rfl⟩
abbrev main_v51 : Ref sig .tc := ⟨.hbm, 312, rfl⟩
abbrev main_v52 : Ref sig .tc := ⟨.hbm, 313, rfl⟩
abbrev main_cst_13 : Ref sig .tc := ⟨.hbm, 314, rfl⟩
abbrev main_v53 : Ref sig .tc := ⟨.hbm, 315, rfl⟩
abbrev main_v54 : Ref sig .tc := ⟨.hbm, 316, rfl⟩
abbrev main_v55 : Ref sig .tc := ⟨.hbm, 317, rfl⟩
abbrev main_v56 : Ref sig .tc := ⟨.hbm, 318, rfl⟩
abbrev main_cst_14 : Ref sig .tc := ⟨.hbm, 319, rfl⟩
abbrev main_v57 : Ref sig .tc := ⟨.hbm, 320, rfl⟩
abbrev main_v58 : Ref sig .tc := ⟨.hbm, 321, rfl⟩
abbrev main_cst_15 : Ref sig .tc := ⟨.hbm, 322, rfl⟩
abbrev main_v59 : Ref sig .tc := ⟨.hbm, 323, rfl⟩
abbrev main_cst_16 : Ref sig .tc := ⟨.hbm, 324, rfl⟩
abbrev main_v60 : Ref sig .tc := ⟨.hbm, 325, rfl⟩
abbrev main_cst_17 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_v64 : Ref sig .tc := ⟨.hbm, 330, rfl⟩
abbrev main_v65 : Ref sig .tc := ⟨.hbm, 331, rfl⟩
abbrev main_cst_18 : Ref sig .tc := ⟨.hbm, 332, rfl⟩
abbrev main_v66 : Ref sig .tc := ⟨.hbm, 333, rfl⟩
abbrev main_v67 : Ref sig .tc := ⟨.hbm, 334, rfl⟩
abbrev main_v68 : Ref sig .tc := ⟨.hbm, 335, rfl⟩
abbrev main_v69 : Ref sig .tc := ⟨.hbm, 336, rfl⟩
abbrev main_cst_19 : Ref sig .tc := ⟨.hbm, 337, rfl⟩
abbrev main_v70 : Ref sig .tc := ⟨.hbm, 338, rfl⟩
abbrev main_v71 : Ref sig .tc := ⟨.hbm, 339, rfl⟩
abbrev main_cst_20 : Ref sig .tc := ⟨.hbm, 340, rfl⟩
abbrev main_v72 : Ref sig .tc := ⟨.hbm, 341, rfl⟩
abbrev main_cst_21 : Ref sig .tc := ⟨.hbm, 342, rfl⟩
abbrev main_v73 : Ref sig .tc := ⟨.hbm, 343, rfl⟩
abbrev main_v74 : Ref sig .tc := ⟨.hbm, 344, rfl⟩
abbrev main_v75 : Ref sig .tc := ⟨.hbm, 345, rfl⟩
abbrev main_v76 : Ref sig .tc := ⟨.hbm, 346, rfl⟩
abbrev main_v77 : Ref sig .tc := ⟨.hbm, 347, rfl⟩
abbrev main_v78 : Ref sig .tc := ⟨.hbm, 348, rfl⟩
abbrev main_cst_22 : Ref sig .tc := ⟨.hbm, 349, rfl⟩
abbrev main_v79 : Ref sig .tc := ⟨.hbm, 350, rfl⟩
abbrev main_v80 : Ref sig .tc := ⟨.hbm, 351, rfl⟩
abbrev main_v81 : Ref sig .tc := ⟨.hbm, 352, rfl⟩
abbrev main_v82 : Ref sig .tc := ⟨.hbm, 353, rfl⟩
abbrev main_cst_23 : Ref sig .tc := ⟨.hbm, 354, rfl⟩
abbrev main_v83 : Ref sig .tc := ⟨.hbm, 355, rfl⟩
abbrev main_v84 : Ref sig .tc := ⟨.hbm, 356, rfl⟩
abbrev main_cst_24 : Ref sig .tc := ⟨.hbm, 357, rfl⟩
abbrev main_v85 : Ref sig .tc := ⟨.hbm, 358, rfl⟩
abbrev main_cst_25 : Ref sig .tc := ⟨.hbm, 359, rfl⟩
abbrev main_v86 : Ref sig .tc := ⟨.hbm, 360, rfl⟩
abbrev main_v87 : Ref sig .tc := ⟨.hbm, 361, rfl⟩
abbrev main_v88 : Ref sig .tc := ⟨.hbm, 362, rfl⟩
abbrev main_v89 : Ref sig .tc := ⟨.hbm, 363, rfl⟩
abbrev main_v90 : Ref sig .tc := ⟨.hbm, 364, rfl⟩
abbrev main_v91 : Ref sig .tc := ⟨.hbm, 365, rfl⟩
abbrev main_cst_26 : Ref sig .tc := ⟨.hbm, 366, rfl⟩
abbrev main_v92 : Ref sig .tc := ⟨.hbm, 367, rfl⟩
abbrev main_v93 : Ref sig .tc := ⟨.hbm, 368, rfl⟩
abbrev main_v94 : Ref sig .tc := ⟨.hbm, 369, rfl⟩
abbrev main_v95 : Ref sig .tc := ⟨.hbm, 370, rfl⟩
abbrev main_cst_27 : Ref sig .tc := ⟨.hbm, 371, rfl⟩
abbrev main_v96 : Ref sig .tc := ⟨.hbm, 372, rfl⟩
abbrev main_v97 : Ref sig .tc := ⟨.hbm, 373, rfl⟩
abbrev main_cst_28 : Ref sig .tc := ⟨.hbm, 374, rfl⟩
abbrev main_v98 : Ref sig .tc := ⟨.hbm, 375, rfl⟩
abbrev main_cst_29 : Ref sig .tc := ⟨.hbm, 376, rfl⟩
abbrev main_v99 : Ref sig .tc := ⟨.hbm, 377, rfl⟩
abbrev main_v100 : Ref sig .tc := ⟨.hbm, 378, rfl⟩
abbrev main_v101 : Ref sig .tc := ⟨.hbm, 379, rfl⟩
abbrev main_v102 : Ref sig .tc := ⟨.hbm, 380, rfl⟩
abbrev main_v103 : Ref sig .tc := ⟨.hbm, 381, rfl⟩
abbrev main_v104 : Ref sig .tc := ⟨.hbm, 382, rfl⟩
abbrev main_cst_30 : Ref sig .tc := ⟨.hbm, 383, rfl⟩
abbrev main_v105 : Ref sig .tc := ⟨.hbm, 384, rfl⟩
abbrev main_v106 : Ref sig .tc := ⟨.hbm, 385, rfl⟩
abbrev main_v107 : Ref sig .tc := ⟨.hbm, 386, rfl⟩
abbrev main_v108 : Ref sig .tc := ⟨.hbm, 387, rfl⟩
abbrev main_cst_31 : Ref sig .tc := ⟨.hbm, 388, rfl⟩
abbrev main_v109 : Ref sig .tc := ⟨.hbm, 389, rfl⟩
abbrev main_v110 : Ref sig .tc := ⟨.hbm, 390, rfl⟩
abbrev main_cst_32 : Ref sig .tc := ⟨.hbm, 391, rfl⟩
abbrev main_v111 : Ref sig .tc := ⟨.hbm, 392, rfl⟩
abbrev main_cst_33 : Ref sig .tc := ⟨.hbm, 393, rfl⟩
abbrev main_v112 : Ref sig .tc := ⟨.hbm, 394, rfl⟩
abbrev main_v113 : Ref sig .tc := ⟨.hbm, 395, rfl⟩
abbrev main_v114 : Ref sig .tc := ⟨.hbm, 396, rfl⟩
abbrev main_v115 : Ref sig .tc := ⟨.hbm, 397, rfl⟩
abbrev main_v116 : Ref sig .tc := ⟨.hbm, 398, rfl⟩
abbrev main_v117 : Ref sig .tc := ⟨.hbm, 399, rfl⟩
abbrev main_cst_34 : Ref sig .tc := ⟨.hbm, 400, rfl⟩
abbrev main_v118 : Ref sig .tc := ⟨.hbm, 401, rfl⟩
abbrev main_v119 : Ref sig .tc := ⟨.hbm, 402, rfl⟩
abbrev main_v120 : Ref sig .tc := ⟨.hbm, 403, rfl⟩
abbrev main_v121 : Ref sig .tc := ⟨.hbm, 404, rfl⟩
abbrev main_cst_35 : Ref sig .tc := ⟨.hbm, 405, rfl⟩
abbrev main_v122 : Ref sig .tc := ⟨.hbm, 406, rfl⟩
abbrev main_v123 : Ref sig .tc := ⟨.hbm, 407, rfl⟩
abbrev main_cst_36 : Ref sig .tc := ⟨.hbm, 408, rfl⟩
abbrev main_v124 : Ref sig .tc := ⟨.hbm, 409, rfl⟩
abbrev main_cst_37 : Ref sig .tc := ⟨.hbm, 410, rfl⟩
abbrev main_v125 : Ref sig .tc := ⟨.hbm, 411, rfl⟩
abbrev main_v126 : Ref sig .tc := ⟨.hbm, 412, rfl⟩
abbrev main_v127 : Ref sig .tc := ⟨.hbm, 413, rfl⟩
abbrev main_v128 : Ref sig .tc := ⟨.hbm, 414, rfl⟩
abbrev main_v129 : Ref sig .tc := ⟨.hbm, 415, rfl⟩
abbrev main_v130 : Ref sig .tc := ⟨.hbm, 416, rfl⟩
abbrev main_cst_38 : Ref sig .tc := ⟨.hbm, 417, rfl⟩
abbrev main_v131 : Ref sig .tc := ⟨.hbm, 418, rfl⟩
abbrev main_v132 : Ref sig .tc := ⟨.hbm, 419, rfl⟩
abbrev main_v133 : Ref sig .tc := ⟨.hbm, 420, rfl⟩
abbrev main_v134 : Ref sig .tc := ⟨.hbm, 421, rfl⟩
abbrev main_cst_39 : Ref sig .tc := ⟨.hbm, 422, rfl⟩
abbrev main_v135 : Ref sig .tc := ⟨.hbm, 423, rfl⟩
abbrev main_v136 : Ref sig .tc := ⟨.hbm, 424, rfl⟩
abbrev main_cst_40 : Ref sig .tc := ⟨.hbm, 425, rfl⟩
abbrev main_v137 : Ref sig .tc := ⟨.hbm, 426, rfl⟩
abbrev main_cst_41 : Ref sig .tc := ⟨.hbm, 427, rfl⟩
abbrev main_v138 : Ref sig .tc := ⟨.hbm, 428, rfl⟩
abbrev main_v139 : Ref sig .tc := ⟨.hbm, 429, rfl⟩
abbrev main_v140 : Ref sig .tc := ⟨.hbm, 430, rfl⟩
abbrev main_v141 : Ref sig .tc := ⟨.hbm, 431, rfl⟩
abbrev main_v142 : Ref sig .tc := ⟨.hbm, 432, rfl⟩
abbrev main_v143 : Ref sig .tc := ⟨.hbm, 433, rfl⟩
abbrev main_cst_42 : Ref sig .tc := ⟨.hbm, 434, rfl⟩
abbrev main_v144 : Ref sig .tc := ⟨.hbm, 435, rfl⟩
abbrev main_v145 : Ref sig .tc := ⟨.hbm, 436, rfl⟩
abbrev main_v146 : Ref sig .tc := ⟨.hbm, 437, rfl⟩
abbrev main_v147 : Ref sig .tc := ⟨.hbm, 438, rfl⟩
abbrev main_cst_43 : Ref sig .tc := ⟨.hbm, 439, rfl⟩
abbrev main_v148 : Ref sig .tc := ⟨.hbm, 440, rfl⟩
abbrev main_v149 : Ref sig .tc := ⟨.hbm, 441, rfl⟩
abbrev main_cst_44 : Ref sig .tc := ⟨.hbm, 442, rfl⟩
abbrev main_v150 : Ref sig .tc := ⟨.hbm, 443, rfl⟩
abbrev main_cst_45 : Ref sig .tc := ⟨.hbm, 444, rfl⟩
abbrev main_v151 : Ref sig .tc := ⟨.hbm, 445, rfl⟩
abbrev main_v152 : Ref sig .tc := ⟨.hbm, 446, rfl⟩
abbrev main_v153 : Ref sig .tc := ⟨.hbm, 447, rfl⟩
abbrev main_v154 : Ref sig .tc := ⟨.hbm, 448, rfl⟩
abbrev main_v155 : Ref sig .tc := ⟨.hbm, 449, rfl⟩
abbrev main_v156 : Ref sig .tc := ⟨.hbm, 450, rfl⟩
abbrev main_cst_46 : Ref sig .tc := ⟨.hbm, 451, rfl⟩
abbrev main_v157 : Ref sig .tc := ⟨.hbm, 452, rfl⟩
abbrev main_v158 : Ref sig .tc := ⟨.hbm, 453, rfl⟩
abbrev main_v159 : Ref sig .tc := ⟨.hbm, 454, rfl⟩
abbrev main_v160 : Ref sig .tc := ⟨.hbm, 455, rfl⟩
abbrev main_cst_47 : Ref sig .tc := ⟨.hbm, 456, rfl⟩
abbrev main_v161 : Ref sig .tc := ⟨.hbm, 457, rfl⟩
abbrev main_v162 : Ref sig .tc := ⟨.hbm, 458, rfl⟩
abbrev main_cst_48 : Ref sig .tc := ⟨.hbm, 459, rfl⟩
abbrev main_v163 : Ref sig .tc := ⟨.hbm, 460, rfl⟩
abbrev main_cst_49 : Ref sig .tc := ⟨.hbm, 461, rfl⟩
abbrev main_v164 : Ref sig .tc := ⟨.hbm, 462, rfl⟩
abbrev main_v165 : Ref sig .tc := ⟨.hbm, 463, rfl⟩
abbrev main_v166 : Ref sig .tc := ⟨.hbm, 464, rfl⟩
abbrev main_v167 : Ref sig .tc := ⟨.hbm, 465, rfl⟩
abbrev main_v168 : Ref sig .tc := ⟨.hbm, 466, rfl⟩
abbrev main_v169 : Ref sig .tc := ⟨.hbm, 467, rfl⟩
abbrev main_cst_50 : Ref sig .tc := ⟨.hbm, 468, rfl⟩
abbrev main_v170 : Ref sig .tc := ⟨.hbm, 469, rfl⟩
abbrev main_v171 : Ref sig .tc := ⟨.hbm, 470, rfl⟩
abbrev main_v172 : Ref sig .tc := ⟨.hbm, 471, rfl⟩
abbrev main_v173 : Ref sig .tc := ⟨.hbm, 472, rfl⟩
abbrev main_cst_51 : Ref sig .tc := ⟨.hbm, 473, rfl⟩
abbrev main_v174 : Ref sig .tc := ⟨.hbm, 474, rfl⟩
abbrev main_v175 : Ref sig .tc := ⟨.hbm, 475, rfl⟩
abbrev main_cst_52 : Ref sig .tc := ⟨.hbm, 476, rfl⟩
abbrev main_v176 : Ref sig .tc := ⟨.hbm, 477, rfl⟩
abbrev main_cst_53 : Ref sig .tc := ⟨.hbm, 478, rfl⟩
abbrev main_v177 : Ref sig .tc := ⟨.hbm, 479, rfl⟩
abbrev main_v178 : Ref sig .tc := ⟨.hbm, 480, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2046 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2046 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1023x1025_S1x1025_0_0 : S1023x1025.Slices ![0, 0] S1x1025
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1025_0 : S1.BroadcastsInDim S1x1025 (![0] : Fin 1 → Fin S1x1025.rank)
  bcast_S_S1x1025 : S_.BroadcastsInDim S1x1025 (![] : Fin 0 → Fin S1x1025.rank)
  slices_S1023x1025_S2x1025_1_0 : S1023x1025.Slices ![1, 0] S2x1025
  bcast_S_S2 : S_.BroadcastsInDim S2 (![] : Fin 0 → Fin S2.rank)
  bcast_S2_S2x1_0 : S2.BroadcastsInDim S2x1 (![0] : Fin 1 → Fin S2x1.rank)
  bcast_S_S2x1 : S_.BroadcastsInDim S2x1 (![] : Fin 0 → Fin S2x1.rank)
  bcast_S1x1_S2x1_0_1 : S1x1.BroadcastsInDim S2x1 (![0, 1] : Fin 2 → Fin S2x1.rank)
  reducesTo_S2x1_S2_d1 : S2x1.ReducesTo [1] S2
  bcast_S2_S2x1025_0 : S2.BroadcastsInDim S2x1025 (![0] : Fin 1 → Fin S2x1025.rank)
  bcast_S_S2x1025 : S_.BroadcastsInDim S2x1025 (![] : Fin 0 → Fin S2x1025.rank)
  slices_S1023x1025_S4x1025_3_0 : S1023x1025.Slices ![3, 0] S4x1025
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1x1_S4x1_0_1 : S1x1.BroadcastsInDim S4x1 (![0, 1] : Fin 2 → Fin S4x1.rank)
  reducesTo_S4x1_S4_d1 : S4x1.ReducesTo [1] S4
  bcast_S4_S4x1025_0 : S4.BroadcastsInDim S4x1025 (![0] : Fin 1 → Fin S4x1025.rank)
  bcast_S_S4x1025 : S_.BroadcastsInDim S4x1025 (![] : Fin 0 → Fin S4x1025.rank)
  slices_S1023x1025_S8x1025_7_0 : S1023x1025.Slices ![7, 0] S8x1025
  bcast_S_S8 : S_.BroadcastsInDim S8 (![] : Fin 0 → Fin S8.rank)
  bcast_S8_S8x1_0 : S8.BroadcastsInDim S8x1 (![0] : Fin 1 → Fin S8x1.rank)
  bcast_S_S8x1 : S_.BroadcastsInDim S8x1 (![] : Fin 0 → Fin S8x1.rank)
  bcast_S1x1_S8x1_0_1 : S1x1.BroadcastsInDim S8x1 (![0, 1] : Fin 2 → Fin S8x1.rank)
  reducesTo_S8x1_S8_d1 : S8x1.ReducesTo [1] S8
  bcast_S8_S8x1025_0 : S8.BroadcastsInDim S8x1025 (![0] : Fin 1 → Fin S8x1025.rank)
  bcast_S_S8x1025 : S_.BroadcastsInDim S8x1025 (![] : Fin 0 → Fin S8x1025.rank)
  slices_S1023x1025_S16x1025_15_0 : S1023x1025.Slices ![15, 0] S16x1025
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1x1_S16x1_0_1 : S1x1.BroadcastsInDim S16x1 (![0, 1] : Fin 2 → Fin S16x1.rank)
  reducesTo_S16x1_S16_d1 : S16x1.ReducesTo [1] S16
  bcast_S16_S16x1025_0 : S16.BroadcastsInDim S16x1025 (![0] : Fin 1 → Fin S16x1025.rank)
  bcast_S_S16x1025 : S_.BroadcastsInDim S16x1025 (![] : Fin 0 → Fin S16x1025.rank)
  slices_S1023x1025_S32x1025_31_0 : S1023x1025.Slices ![31, 0] S32x1025
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1x1_S32x1_0_1 : S1x1.BroadcastsInDim S32x1 (![0, 1] : Fin 2 → Fin S32x1.rank)
  reducesTo_S32x1_S32_d1 : S32x1.ReducesTo [1] S32
  bcast_S32_S32x1025_0 : S32.BroadcastsInDim S32x1025 (![0] : Fin 1 → Fin S32x1025.rank)
  bcast_S_S32x1025 : S_.BroadcastsInDim S32x1025 (![] : Fin 0 → Fin S32x1025.rank)
  slices_S1023x1025_S64x1025_63_0 : S1023x1025.Slices ![63, 0] S64x1025
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S64x1025_0 : S64.BroadcastsInDim S64x1025 (![0] : Fin 1 → Fin S64x1025.rank)
  bcast_S_S64x1025 : S_.BroadcastsInDim S64x1025 (![] : Fin 0 → Fin S64x1025.rank)
  slices_S1023x1025_S128x1025_127_0 : S1023x1025.Slices ![127, 0] S128x1025
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1x1_S128x1_0_1 : S1x1.BroadcastsInDim S128x1 (![0, 1] : Fin 2 → Fin S128x1.rank)
  reducesTo_S128x1_S128_d1 : S128x1.ReducesTo [1] S128
  bcast_S128_S128x1025_0 : S128.BroadcastsInDim S128x1025 (![0] : Fin 1 → Fin S128x1025.rank)
  bcast_S_S128x1025 : S_.BroadcastsInDim S128x1025 (![] : Fin 0 → Fin S128x1025.rank)
  slices_S1023x1025_S256x1025_255_0 : S1023x1025.Slices ![255, 0] S256x1025
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x1025_0 : S256.BroadcastsInDim S256x1025 (![0] : Fin 1 → Fin S256x1025.rank)
  bcast_S_S256x1025 : S_.BroadcastsInDim S256x1025 (![] : Fin 0 → Fin S256x1025.rank)
  slices_S1023x1025_S512x1025_511_0 : S1023x1025.Slices ![511, 0] S512x1025
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x1025_0 : S512.BroadcastsInDim S512x1025 (![0] : Fin 1 → Fin S512x1025.rank)
  bcast_S_S512x1025 : S_.BroadcastsInDim S512x1025 (![] : Fin 0 → Fin S512x1025.rank)
  concatenates_S1x1025_S2x1025_S4x1025_S8x1025_S16x1025_S32x1025_S64x1025_S128x1025_S256x1025_S512x1025_S1023x1025_d0 : Shape.Concatenates [S1x1025, S2x1025, S4x1025, S8x1025, S16x1025, S32x1025, S64x1025, S128x1025, S256x1025, S512x1025] S1023x1025 0
  concatenates_S1023x1025_S1x1025_S1024x1025_d0 : Shape.Concatenates [S1023x1025, S1x1025] S1024x1025 0
  slices_S1024x1025_S1024x1024_0_1 : S1024x1025.Slices ![0, 1] S1024x1024
  slices_S1024x1025_S1024x1_0_0 : S1024x1025.Slices ![0, 0] S1024x1
  shapeCasts_S1024x1_S1024 : S1024x1.ShapeCasts S1024
  shapeCasts_S1024_S1x1024 : S1024.ShapeCasts S1x1024
  transposes_S1024x1024_S1024x1024_1_0 : S1024x1024.Transposes [1, 0] S1024x1024
  bitsLt_bf16_f32 : FTy.bits .bf16 < FTy.bits .f32
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1000x1024_1 : S1024.BroadcastsInDim S1000x1024 (![1] : Fin 1 → Fin S1000x1024.rank)
  bcast_S_S1000x1024 : S_.BroadcastsInDim S1000x1024 (![] : Fin 0 → Fin S1000x1024.rank)
  transposes_S1000x1024_S1024x1000_1_0 : S1000x1024.Transposes [1, 0] S1024x1000
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x1 : S512x1024.Slices ![0, 0] S512x1
  concatenates_S512x1_S512x1_S512x2_d1 : Shape.Concatenates [S512x1, S512x1] S512x2 1
  iota_S2x1_d0_w32 : S2x1.Iotas .tc 32 [0]
  iota_S2x1_d1_w32 : S2x1.Iotas .tc 32 [1]
  natLt_1_32 : 1 < 32
  reduces_S512x2_S2 : S512x2.Reduces [0] S2
  shapeCasts_S2_S1x2 : S2.ShapeCasts S1x2
  slices_S512x1024_o0_1_S512x2 : S512x1024.Slices ![0, 1] S512x2
  concatenates_S512x2_S512x2_S512x4_d1 : Shape.Concatenates [S512x2, S512x2] S512x4 1
  iota_S4x2_d0_w32 : S4x2.Iotas .tc 32 [0]
  iota_S4x2_d1_w32 : S4x2.Iotas .tc 32 [1]
  reduces_S512x4_S4 : S512x4.Reduces [0] S4
  shapeCasts_S4_S1x4 : S4.ShapeCasts S1x4
  slices_S512x1024_o0_3_S512x4 : S512x1024.Slices ![0, 3] S512x4
  concatenates_S512x4_S512x4_S512x8_d1 : Shape.Concatenates [S512x4, S512x4] S512x8 1
  iota_S8x4_d0_w32 : S8x4.Iotas .tc 32 [0]
  iota_S8x4_d1_w32 : S8x4.Iotas .tc 32 [1]
  reduces_S512x8_S8 : S512x8.Reduces [0] S8
  shapeCasts_S8_S1x8 : S8.ShapeCasts S1x8
  slices_S512x1024_o0_7_S512x8 : S512x1024.Slices ![0, 7] S512x8
  concatenates_S512x8_S512x8_S512x16_d1 : Shape.Concatenates [S512x8, S512x8] S512x16 1
  iota_S16x8_d0_w32 : S16x8.Iotas .tc 32 [0]
  iota_S16x8_d1_w32 : S16x8.Iotas .tc 32 [1]
  reduces_S512x16_S16 : S512x16.Reduces [0] S16
  shapeCasts_S16_S1x16 : S16.ShapeCasts S1x16
  slices_S512x1024_o0_15_S512x16 : S512x1024.Slices ![0, 15] S512x16
  concatenates_S512x16_S512x16_S512x32_d1 : Shape.Concatenates [S512x16, S512x16] S512x32 1
  iota_S32x16_d0_w32 : S32x16.Iotas .tc 32 [0]
  iota_S32x16_d1_w32 : S32x16.Iotas .tc 32 [1]
  reduces_S512x32_S32 : S512x32.Reduces [0] S32
  shapeCasts_S32_S1x32 : S32.ShapeCasts S1x32
  slices_S512x1024_o0_31_S512x32 : S512x1024.Slices ![0, 31] S512x32
  concatenates_S512x32_S512x32_S512x64_d1 : Shape.Concatenates [S512x32, S512x32] S512x64 1
  iota_S64x32_d0_w32 : S64x32.Iotas .tc 32 [0]
  iota_S64x32_d1_w32 : S64x32.Iotas .tc 32 [1]
  reduces_S512x64_S64 : S512x64.Reduces [0] S64
  shapeCasts_S64_S1x64 : S64.ShapeCasts S1x64
  slices_S512x1024_o0_63_S512x64 : S512x1024.Slices ![0, 63] S512x64
  concatenates_S512x64_S512x64_S512x128_d1 : Shape.Concatenates [S512x64, S512x64] S512x128 1
  iota_S128x64_d0_w32 : S128x64.Iotas .tc 32 [0]
  iota_S128x64_d1_w32 : S128x64.Iotas .tc 32 [1]
  reduces_S512x128_S128 : S512x128.Reduces [0] S128
  shapeCasts_S128_S1x128 : S128.ShapeCasts S1x128
  slices_S512x1024_o0_127_S512x128 : S512x1024.Slices ![0, 127] S512x128
  concatenates_S512x128_S512x128_S512x256_d1 : Shape.Concatenates [S512x128, S512x128] S512x256 1
  iota_S256x128_d0_w32 : S256x128.Iotas .tc 32 [0]
  iota_S256x128_d1_w32 : S256x128.Iotas .tc 32 [1]
  reduces_S512x256_S256 : S512x256.Reduces [0] S256
  shapeCasts_S256_S1x256 : S256.ShapeCasts S1x256
  slices_S512x1024_o0_255_S512x256 : S512x1024.Slices ![0, 255] S512x256
  concatenates_S512x256_S512x256_S512x512_d1 : Shape.Concatenates [S512x256, S512x256] S512x512 1
  iota_S512x256_d0_w32 : S512x256.Iotas .tc 32 [0]
  iota_S512x256_d1_w32 : S512x256.Iotas .tc 32 [1]
  reduces_S512x512_S512 : S512x512.Reduces [0] S512
  shapeCasts_S512_S1x512 : S512.ShapeCasts S1x512
  slices_S512x1024_o0_511_S512x512 : S512x1024.Slices ![0, 511] S512x512
  concatenates_S512x512_S512x512_S512x1024_d1 : Shape.Concatenates [S512x512, S512x512] S512x1024 1
  iota_S1024x512_d0_w32 : S1024x512.Iotas .tc 32 [0]
  iota_S1024x512_d1_w32 : S1024x512.Iotas .tc 32 [1]
  reduces_S512x1024_S1024 : S512x1024.Reduces [0] S1024
  concatenates_S1x2_S1x4_S1x8_S1x16_S1x32_S1x64_S1x128_S1x256_S1x512_S1x1024_S1x2046_d1 : Shape.Concatenates [S1x2, S1x4, S1x8, S1x16, S1x32, S1x64, S1x128, S1x256, S1x512, S1x1024] S1x2046 1
  shapeCasts_S1x2046_S1x2046 : S1x2046.ShapeCasts S1x2046
  broadcasts_S1x2046_S8x2046 : S1x2046.Broadcasts S8x2046
  inb_S8x2046_S8x2046_0_0 : ∀ a, (![0, 0] : Fin 2 → Nat) a + S8x2046.size a ≤ S8x2046.size a
  h_S8x2046 : 0 < S8x2046.numel
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S512x1000_S512x1000_0_0 : ∀ a, (![0, 0] : Fin 2 → Nat) a + S512x1000.size a ≤ S512x1000.size a
  h_S512x1000 : 0 < S512x1000.numel
  shapeCasts_S256x2046_S32x8x2046 : S256x2046.ShapeCasts S32x8x2046
  slices_S32x8x2046_S32x1x2046_0_0_0 : S32x8x2046.Slices ![0, 0, 0] S32x1x2046
  shapeCasts_S32x1x2046_S32x2046 : S32x1x2046.ShapeCasts S32x2046
  reducesTo_S32x2046_S2046_d0 : S32x2046.ReducesTo [0] S2046
  bcast_S_S2046 : S_.BroadcastsInDim S2046 (![] : Fin 0 → Fin S2046.rank)
  slices_S2046_S2_0 : S2046.Slices ![0] S2
  reducesTo_S2_S_d0 : S2.ReducesTo [0] S_
  slices_S2046_S4_2 : S2046.Slices ![2] S4
  reducesTo_S4_S_d0 : S4.ReducesTo [0] S_
  slices_S2046_S8_6 : S2046.Slices ![6] S8
  reducesTo_S8_S_d0 : S8.ReducesTo [0] S_
  slices_S2046_S16_14 : S2046.Slices ![14] S16
  reducesTo_S16_S_d0 : S16.ReducesTo [0] S_
  slices_S2046_S32_30 : S2046.Slices ![30] S32
  reducesTo_S32_S_d0 : S32.ReducesTo [0] S_
  slices_S2046_S64_62 : S2046.Slices ![62] S64
  reducesTo_S64_S_d0 : S64.ReducesTo [0] S_
  slices_S2046_S128_126 : S2046.Slices ![126] S128
  reducesTo_S128_S_d0 : S128.ReducesTo [0] S_
  slices_S2046_S256_254 : S2046.Slices ![254] S256
  reducesTo_S256_S_d0 : S256.ReducesTo [0] S_
  slices_S2046_S512_510 : S2046.Slices ![510] S512
  reducesTo_S512_S_d0 : S512.ReducesTo [0] S_
  slices_S2046_S1024_1022 : S2046.Slices ![1022] S1024
  reducesTo_S1024_S_d0 : S1024.ReducesTo [0] S_
  gather_S1x1025_S1x1_S1x1025_1_0_n_n_0_1_11025_wf : GatherDims.WF S1x1025 S1x1 S1x1025 [1] [0] [] [0] [] 1 ![1, 1025]
  gather_S2x1025_S2x1_S2x1025_1_0_n_n_0_1_11025_wf : GatherDims.WF S2x1025 S2x1 S2x1025 [1] [0] [] [0] [] 1 ![1, 1025]
  gather_S4x1025_S4x1_S4x1025_1_0_n_n_0_1_11025_wf : GatherDims.WF S4x1025 S4x1 S4x1025 [1] [0] [] [0] [] 1 ![1, 1025]
  gather_S8x1025_S8x1_S8x1025_1_0_n_n_0_1_11025_wf : GatherDims.WF S8x1025 S8x1 S8x1025 [1] [0] [] [0] [] 1 ![1, 1025]
  gather_S16x1025_S16x1_S16x1025_1_0_n_n_0_1_11025_wf : GatherDims.WF S16x1025 S16x1 S16x1025 [1] [0] [] [0] [] 1 ![1, 1025]
  gather_S32x1025_S32x1_S32x1025_1_0_n_n_0_1_11025_wf : GatherDims.WF S32x1025 S32x1 S32x1025 [1] [0] [] [0] [] 1 ![1, 1025]
  gather_S64x1025_S64x1_S64x1025_1_0_n_n_0_1_11025_wf : GatherDims.WF S64x1025 S64x1 S64x1025 [1] [0] [] [0] [] 1 ![1, 1025]
  gather_S128x1025_S128x1_S128x1025_1_0_n_n_0_1_11025_wf : GatherDims.WF S128x1025 S128x1 S128x1025 [1] [0] [] [0] [] 1 ![1, 1025]
  gather_S256x1025_S256x1_S256x1025_1_0_n_n_0_1_11025_wf : GatherDims.WF S256x1025 S256x1 S256x1025 [1] [0] [] [0] [] 1 ![1, 1025]
  gather_S512x1025_S512x1_S512x1025_1_0_n_n_0_1_11025_wf : GatherDims.WF S512x1025 S512x1 S512x1025 [1] [0] [] [0] [] 1 ![1, 1025]
  gather_S1000x1024_S1024x1_S1000x1024_0_1_n_n_1_1_10001_wf : GatherDims.WF S1000x1024 S1024x1 S1000x1024 [0] [1] [] [1] [] 1 ![1000, 1]
  dot_S512x1024_S1024x1024_S512x1024_1_0_0_1_n_n_wf : DotDims.WF S512x1024 S1024x1024 S512x1024 [1] [0] [0] [1] [] []
  dot_S512x2_S2x1_S512x1_1_0_0_1_n_n_wf : DotDims.WF S512x2 S2x1 S512x1 [1] [0] [0] [1] [] []
  dot_S512x4_S4x2_S512x2_1_0_0_1_n_n_wf : DotDims.WF S512x4 S4x2 S512x2 [1] [0] [0] [1] [] []
  dot_S512x8_S8x4_S512x4_1_0_0_1_n_n_wf : DotDims.WF S512x8 S8x4 S512x4 [1] [0] [0] [1] [] []
  dot_S512x16_S16x8_S512x8_1_0_0_1_n_n_wf : DotDims.WF S512x16 S16x8 S512x8 [1] [0] [0] [1] [] []
  dot_S512x32_S32x16_S512x16_1_0_0_1_n_n_wf : DotDims.WF S512x32 S32x16 S512x16 [1] [0] [0] [1] [] []
  dot_S512x64_S64x32_S512x32_1_0_0_1_n_n_wf : DotDims.WF S512x64 S64x32 S512x32 [1] [0] [0] [1] [] []
  dot_S512x128_S128x64_S512x64_1_0_0_1_n_n_wf : DotDims.WF S512x128 S128x64 S512x64 [1] [0] [0] [1] [] []
  dot_S512x256_S256x128_S512x128_1_0_0_1_n_n_wf : DotDims.WF S512x256 S256x128 S512x128 [1] [0] [0] [1] [] []
  dot_S512x512_S512x256_S512x256_1_0_0_1_n_n_wf : DotDims.WF S512x512 S512x256 S512x256 [1] [0] [0] [1] [] []
  dot_S512x1024_S1024x512_S512x512_1_0_0_1_n_n_wf : DotDims.WF S512x1024 S1024x512 S512x512 [1] [0] [0] [1] [] []
  dot_S512x1024_S1024x1000_S512x1000_1_0_0_1_n_n_wf : DotDims.WF S512x1024 S1024x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S1024x1000.size a
  hwx0_4 : ∀ i : grid0.Coords, EltTy.bits .bf16 = 32 ∨ (Rect.block (s := S1024x1000) S1024x1000.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1000.size a ≤ S1024x1000.size a
  hwx0_5 : ∀ i : grid0.Coords, EltTy.bits .bf16 = 32 ∨ (Rect.block (s := S1024x1000) S1024x1000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S16384x1000.size a
  hwx0_6 : ∀ i : grid0.Coords, EltTy.bits .f32 = 32 ∨ (Rect.block (s := S16384x1000) S512x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x2046.size a ≤ S256x2046.size a
  hwx0_7 : ∀ i : grid0.Coords, EltTy.bits .f32 = 32 ∨ (Rect.block (s := S256x2046) S8x2046.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x2046.size a ≤ S256x2046.size a
  hwx0_8 : ∀ i : grid0.Coords, EltTy.bits .f32 = 32 ∨ (Rect.block (s := S256x2046) S8x2046.size (cc0_transform_8 i) (hinb0_8 i)).WholeWords (EltTy.packing .f32)

variable [Facts₀]

def gather_S1x1025_S1x1_S1x1025_1_0_n_n_0_1_11025 : GatherDims S1x1025 S1x1 S1x1025 where
  offsetDims := [1]
  collapsedSliceDims := [0]
  operandBatchingDims := []
  startIndicesBatchingDims := []
  startIndexMap := [0]
  indexVectorDim := 1
  sliceSizes := ![1, 1025]
  wf := gather_S1x1025_S1x1_S1x1025_1_0_n_n_0_1_11025_wf
def gather_S2x1025_S2x1_S2x1025_1_0_n_n_0_1_11025 : GatherDims S2x1025 S2x1 S2x1025 where
  offsetDims := [1]
  collapsedSliceDims := [0]
  operandBatchingDims := []
  startIndicesBatchingDims := []
  startIndexMap := [0]
  indexVectorDim := 1
  sliceSizes := ![1, 1025]
  wf := gather_S2x1025_S2x1_S2x1025_1_0_n_n_0_1_11025_wf
def gather_S4x1025_S4x1_S4x1025_1_0_n_n_0_1_11025 : GatherDims S4x1025 S4x1 S4x1025 where
  offsetDims := [1]
  collapsedSliceDims := [0]
  operandBatchingDims := []
  startIndicesBatchingDims := []
  startIndexMap := [0]
  indexVectorDim := 1
  sliceSizes := ![1, 1025]
  wf := gather_S4x1025_S4x1_S4x1025_1_0_n_n_0_1_11025_wf
def gather_S8x1025_S8x1_S8x1025_1_0_n_n_0_1_11025 : GatherDims S8x1025 S8x1 S8x1025 where
  offsetDims := [1]
  collapsedSliceDims := [0]
  operandBatchingDims := []
  startIndicesBatchingDims := []
  startIndexMap := [0]
  indexVectorDim := 1
  sliceSizes := ![1, 1025]
  wf := gather_S8x1025_S8x1_S8x1025_1_0_n_n_0_1_11025_wf
def gather_S16x1025_S16x1_S16x1025_1_0_n_n_0_1_11025 : GatherDims S16x1025 S16x1 S16x1025 where
  offsetDims := [1]
  collapsedSliceDims := [0]
  operandBatchingDims := []
  startIndicesBatchingDims := []
  startIndexMap := [0]
  indexVectorDim := 1
  sliceSizes := ![1, 1025]
  wf := gather_S16x1025_S16x1_S16x1025_1_0_n_n_0_1_11025_wf
def gather_S32x1025_S32x1_S32x1025_1_0_n_n_0_1_11025 : GatherDims S32x1025 S32x1 S32x1025 where
  offsetDims := [1]
  collapsedSliceDims := [0]
  operandBatchingDims := []
  startIndicesBatchingDims := []
  startIndexMap := [0]
  indexVectorDim := 1
  sliceSizes := ![1, 1025]
  wf := gather_S32x1025_S32x1_S32x1025_1_0_n_n_0_1_11025_wf
def gather_S64x1025_S64x1_S64x1025_1_0_n_n_0_1_11025 : GatherDims S64x1025 S64x1 S64x1025 where
  offsetDims := [1]
  collapsedSliceDims := [0]
  operandBatchingDims := []
  startIndicesBatchingDims := []
  startIndexMap := [0]
  indexVectorDim := 1
  sliceSizes := ![1, 1025]
  wf := gather_S64x1025_S64x1_S64x1025_1_0_n_n_0_1_11025_wf
def gather_S128x1025_S128x1_S128x1025_1_0_n_n_0_1_11025 : GatherDims S128x1025 S128x1 S128x1025 where
  offsetDims := [1]
  collapsedSliceDims := [0]
  operandBatchingDims := []
  startIndicesBatchingDims := []
  startIndexMap := [0]
  indexVectorDim := 1
  sliceSizes := ![1, 1025]
  wf := gather_S128x1025_S128x1_S128x1025_1_0_n_n_0_1_11025_wf
def gather_S256x1025_S256x1_S256x1025_1_0_n_n_0_1_11025 : GatherDims S256x1025 S256x1 S256x1025 where
  offsetDims := [1]
  collapsedSliceDims := [0]
  operandBatchingDims := []
  startIndicesBatchingDims := []
  startIndexMap := [0]
  indexVectorDim := 1
  sliceSizes := ![1, 1025]
  wf := gather_S256x1025_S256x1_S256x1025_1_0_n_n_0_1_11025_wf
def gather_S512x1025_S512x1_S512x1025_1_0_n_n_0_1_11025 : GatherDims S512x1025 S512x1 S512x1025 where
  offsetDims := [1]
  collapsedSliceDims := [0]
  operandBatchingDims := []
  startIndicesBatchingDims := []
  startIndexMap := [0]
  indexVectorDim := 1
  sliceSizes := ![1, 1025]
  wf := gather_S512x1025_S512x1_S512x1025_1_0_n_n_0_1_11025_wf
def gather_S1000x1024_S1024x1_S1000x1024_0_1_n_n_1_1_10001 : GatherDims S1000x1024 S1024x1 S1000x1024 where
  offsetDims := [0]
  collapsedSliceDims := [1]
  operandBatchingDims := []
  startIndicesBatchingDims := []
  startIndexMap := [1]
  indexVectorDim := 1
  sliceSizes := ![1000, 1]
  wf := gather_S1000x1024_S1024x1_S1000x1024_0_1_n_n_1_1_10001_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x2_S2x1_S512x1_1_0_0_1_n_n : DotDims S512x2 S2x1 S512x1 where
  lhsContracting := [1]
  rhsContracting := [0]
  lhsNonContracting := [0]
  rhsNonContracting := [1]
  lhsBatch := []
  rhsBatch := []
  wf := dot_S512x2_S2x1_S512x1_1_0_0_1_n_n_wf
def dot_S512x4_S4x2_S512x2_1_0_0_1_n_n : DotDims S512x4 S4x2 S512x2 where
  lhsContracting := [1]
  rhsContracting := [0]
  lhsNonContracting := [0]
  rhsNonContracting := [1]
  lhsBatch := []
  rhsBatch := []
  wf := dot_S512x4_S4x2_S512x2_1_0_0_1_n_n_wf
def dot_S512x8_S8x4_S512x4_1_0_0_1_n_n : DotDims S512x8 S8x4 S512x4 where
  lhsContracting := [1]
  rhsContracting := [0]
  lhsNonContracting := [0]
  rhsNonContracting := [1]
  lhsBatch := []
  rhsBatch := []
  wf := dot_S512x8_S8x4_S512x4_1_0_0_1_n_n_wf
def dot_S512x16_S16x8_S512x8_1_0_0_1_n_n : DotDims S512x16 S16x8 S512x8 where
  lhsContracting := [1]
  rhsContracting := [0]
  lhsNonContracting := [0]
  rhsNonContracting := [1]
  lhsBatch := []
  rhsBatch := []
  wf := dot_S512x16_S16x8_S512x8_1_0_0_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1024x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1024x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38_0) S512x1000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v38_1) S8x2046.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v38_2) S8x2046.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1023x1025 : Shape := ⟨2, ![1023, 1025]⟩
abbrev S1000x1024 : Shape := ⟨2, ![1000, 1024]⟩
abbrev S_ : Shape := ⟨0, ![]⟩
abbrev S16384x1 : Shape := ⟨2, ![16384, 1]⟩
abbrev S16384x1025 : Shape := ⟨2, ![16384, 1025]⟩
abbrev S1025x1023 : Shape := ⟨2, ![1025, 1023]⟩
abbrev S16384x1023 : Shape := ⟨2, ![16384, 1023]⟩
abbrev S16384x1023x1 : Shape := ⟨3, ![16384, 1023, 1]⟩
abbrev S16384x1023x2 : Shape := ⟨3, ![16384, 1023, 2]⟩
abbrev S16384x1x2 : Shape := ⟨3, ![16384, 1, 2]⟩
abbrev S16384x2 : Shape := ⟨2, ![16384, 2]⟩
abbrev S2 : Shape := ⟨1, ![2]⟩
abbrev S16384x2x2 : Shape := ⟨3, ![16384, 2, 2]⟩
abbrev S16384x4 : Shape := ⟨2, ![16384, 4]⟩
abbrev S4 : Shape := ⟨1, ![4]⟩
abbrev S16384x4x2 : Shape := ⟨3, ![16384, 4, 2]⟩
abbrev S16384x8 : Shape := ⟨2, ![16384, 8]⟩
abbrev S8 : Shape := ⟨1, ![8]⟩
abbrev S16384x8x2 : Shape := ⟨3, ![16384, 8, 2]⟩
abbrev S16384x16 : Shape := ⟨2, ![16384, 16]⟩
abbrev S16 : Shape := ⟨1, ![16]⟩
abbrev S16384x16x2 : Shape := ⟨3, ![16384, 16, 2]⟩
abbrev S16384x32 : Shape := ⟨2, ![16384, 32]⟩
abbrev S32 : Shape := ⟨1, ![32]⟩
abbrev S16384x32x2 : Shape := ⟨3, ![16384, 32, 2]⟩
abbrev S16384x64 : Shape := ⟨2, ![16384, 64]⟩
abbrev S64 : Shape := ⟨1, ![64]⟩
abbrev S16384x64x2 : Shape := ⟨3, ![16384, 64, 2]⟩
abbrev S16384x128 : Shape := ⟨2, ![16384, 128]⟩
abbrev S128 : Shape := ⟨1, ![128]⟩
abbrev S16384x128x2 : Shape := ⟨3, ![16384, 128, 2]⟩
abbrev S16384x256 : Shape := ⟨2, ![16384, 256]⟩
abbrev S256 : Shape := ⟨1, ![256]⟩
abbrev S16384x256x2 : Shape := ⟨3, ![16384, 256, 2]⟩
abbrev S16384x512 : Shape := ⟨2, ![16384, 512]⟩
abbrev S512 : Shape := ⟨1, ![512]⟩
abbrev S16384x512x2 : Shape := ⟨3, ![16384, 512, 2]⟩
abbrev S1024 : Shape := ⟨1, ![1024]⟩
abbrev S1024x1000 : Shape := ⟨2, ![1024, 1000]⟩
abbrev S16384x1000 : Shape := ⟨2, ![16384, 1000]⟩

abbrev nBuf : Space → Nat
  | .hbm => 337
  | .vmem => 0
  | .smem => 0
  | _ => 0

abbrev hbmTy0_0 (i : Nat) : BufTy := match i % 128 with
  | 0 => ⟨S16384x1024, .f32⟩
  | 1 => ⟨S1023x1025, .f32⟩
  | 2 => ⟨S1000x1024, .f32⟩
  | 3 => ⟨S_, .f32⟩
  | 4 => ⟨S16384x1, .f32⟩
  | 5 => ⟨S16384x1025, .f32⟩
  | 6 => ⟨S1025x1023, .f32⟩
  | 7 => ⟨S16384x1023, .f32⟩
  | 8 => ⟨S16384x1023, .f32⟩
  | 9 => ⟨S16384x1023, .f32⟩
  | 10 => ⟨S_, .f32⟩
  | 11 => ⟨S16384x1023, .f32⟩
  | 12 => ⟨S16384x1023, .f32⟩
  | 13 => ⟨S_, .f32⟩
  | 14 => ⟨S16384x1023, .f32⟩
  | 15 => ⟨S16384x1023, .f32⟩
  | 16 => ⟨S_, .f32⟩
  | 17 => ⟨S16384x1023, .f32⟩
  | 18 => ⟨S16384x1023, .f32⟩
  | 19 => ⟨S16384x1023x1, .f32⟩
  | 20 => ⟨S16384x1023x1, .f32⟩
  | 21 => ⟨S16384x1023x2, .f32⟩
  | 22 => ⟨S_, .f32⟩
  | 23 => ⟨S16384x1, .f32⟩
  | 24 => ⟨S16384x1x2, .f32⟩
  | 25 => ⟨S16384x2, .f32⟩
  | 26 => ⟨S16384x1x2, .f32⟩
  | 27 => ⟨S16384x2, .f32⟩
  | 28 => ⟨S16384x2, .f32⟩
  | 29 => ⟨S16384x1, .f32⟩
  | 30 => ⟨S16384x1x2, .f32⟩
  | 31 => ⟨S16384x2, .f32⟩
  | 32 => ⟨S16384x2, .f32⟩
  | 33 => ⟨S_, .f32⟩
  | 34 => ⟨S2, .f32⟩
  | 35 => ⟨S_, .f32⟩
  | 36 => ⟨S2, .f32⟩
  | 37 => ⟨S_, .f32⟩
  | 38 => ⟨S2, .f32⟩
  | 39 => ⟨S2, .f32⟩
  | 40 => ⟨S2, .f32⟩
  | 41 => ⟨S2, .f32⟩
  | 42 => ⟨S_, .f32⟩
  | 43 => ⟨S2, .f32⟩
  | 44 => ⟨S2, .f32⟩
  | 45 => ⟨S2, .f32⟩
  | 46 => ⟨S2, .f32⟩
  | 47 => ⟨S_, .f32⟩
  | 48 => ⟨S2, .f32⟩
  | 49 => ⟨S2, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S16384x2x2, .f32⟩
  | 57 => ⟨S16384x4, .f32⟩
  | 58 => ⟨S16384x2x2, .f32⟩
  | 59 => ⟨S16384x4, .f32⟩
  | 60 => ⟨S16384x4, .f32⟩
  | 61 => ⟨S16384x2, .f32⟩
  | 62 => ⟨S16384x2x2, .f32⟩
  | 63 => ⟨S16384x4, .f32⟩
  | 64 => ⟨S16384x4, .f32⟩
  | 65 => ⟨S_, .f32⟩
  | 66 => ⟨S4, .f32⟩
  | 67 => ⟨S_, .f32⟩
  | 68 => ⟨S4, .f32⟩
  | 69 => ⟨S_, .f32⟩
  | 70 => ⟨S4, .f32⟩
  | 71 => ⟨S4, .f32⟩
  | 72 => ⟨S4, .f32⟩
  | 73 => ⟨S4, .f32⟩
  | 74 => ⟨S_, .f32⟩
  | 75 => ⟨S4, .f32⟩
  | 76 => ⟨S4, .f32⟩
  | 77 => ⟨S4, .f32⟩
  | 78 => ⟨S4, .f32⟩
  | 79 => ⟨S_, .f32⟩
  | 80 => ⟨S4, .f32⟩
  | 81 => ⟨S4, .f32⟩
  | 82 => ⟨S_, .f32⟩
  | 83 => ⟨S_, .f32⟩
  | 84 => ⟨S_, .f32⟩
  | 85 => ⟨S_, .f32⟩
  | 86 => ⟨S_, .f32⟩
  | 87 => ⟨S16384x4x2, .f32⟩
  | 88 => ⟨S16384x8, .f32⟩
  | 89 => ⟨S16384x4x2, .f32⟩
  | 90 => ⟨S16384x8, .f32⟩
  | 91 => ⟨S16384x8, .f32⟩
  | 92 => ⟨S16384x4, .f32⟩
  | 93 => ⟨S16384x4x2, .f32⟩
  | 94 => ⟨S16384x8, .f32⟩
  | 95 => ⟨S16384x8, .f32⟩
  | 96 => ⟨S_, .f32⟩
  | 97 => ⟨S8, .f32⟩
  | 98 => ⟨S_, .f32⟩
  | 99 => ⟨S8, .f32⟩
  | 100 => ⟨S_, .f32⟩
  | 101 => ⟨S8, .f32⟩
  | 102 => ⟨S8, .f32⟩
  | 103 => ⟨S8, .f32⟩
  | 104 => ⟨S8, .f32⟩
  | 105 => ⟨S_, .f32⟩
  | 106 => ⟨S8, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S_, .f32⟩
  | 115 => ⟨S_, .f32⟩
  | 116 => ⟨S_, .f32⟩
  | 117 => ⟨S_, .f32⟩
  | 118 => ⟨S16384x8x2, .f32⟩
  | 119 => ⟨S16384x16, .f32⟩
  | 120 => ⟨S16384x8x2, .f32⟩
  | 121 => ⟨S16384x16, .f32⟩
  | 122 => ⟨S16384x16, .f32⟩
  | 123 => ⟨S16384x8, .f32⟩
  | 124 => ⟨S16384x8x2, .f32⟩
  | 125 => ⟨S16384x16, .f32⟩
  | 126 => ⟨S16384x16, .f32⟩
  | 127 => ⟨S_, .f32⟩
  | _ => ⟨S16384x1024, .f32⟩

abbrev hbmTy0_1 (i : Nat) : BufTy := match i % 128 with
  | 0 => ⟨S16, .f32⟩
  | 1 => ⟨S_, .f32⟩
  | 2 => ⟨S16, .f32⟩
  | 3 => ⟨S_, .f32⟩
  | 4 => ⟨S16, .f32⟩
  | 5 => ⟨S16, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S_, .f32⟩
  | 18 => ⟨S_, .f32⟩
  | 19 => ⟨S_, .f32⟩
  | 20 => ⟨S_, .f32⟩
  | 21 => ⟨S16384x16x2, .f32⟩
  | 22 => ⟨S16384x32, .f32⟩
  | 23 => ⟨S16384x16x2, .f32⟩
  | 24 => ⟨S16384x32, .f32⟩
  | 25 => ⟨S16384x32, .f32⟩
  | 26 => ⟨S16384x16, .f32⟩
  | 27 => ⟨S16384x16x2, .f32⟩
  | 28 => ⟨S16384x32, .f32⟩
  | 29 => ⟨S16384x32, .f32⟩
  | 30 => ⟨S_, .f32⟩
  | 31 => ⟨S32, .f32⟩
  | 32 => ⟨S_, .f32⟩
  | 33 => ⟨S32, .f32⟩
  | 34 => ⟨S_, .f32⟩
  | 35 => ⟨S32, .f32⟩
  | 36 => ⟨S32, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S_, .f32⟩
  | 49 => ⟨S_, .f32⟩
  | 50 => ⟨S_, .f32⟩
  | 51 => ⟨S_, .f32⟩
  | 52 => ⟨S16384x32x2, .f32⟩
  | 53 => ⟨S16384x64, .f32⟩
  | 54 => ⟨S16384x32x2, .f32⟩
  | 55 => ⟨S16384x64, .f32⟩
  | 56 => ⟨S16384x64, .f32⟩
  | 57 => ⟨S16384x32, .f32⟩
  | 58 => ⟨S16384x32x2, .f32⟩
  | 59 => ⟨S16384x64, .f32⟩
  | 60 => ⟨S16384x64, .f32⟩
  | 61 => ⟨S_, .f32⟩
  | 62 => ⟨S64, .f32⟩
  | 63 => ⟨S_, .f32⟩
  | 64 => ⟨S64, .f32⟩
  | 65 => ⟨S_, .f32⟩
  | 66 => ⟨S64, .f32⟩
  | 67 => ⟨S64, .f32⟩
  | 68 => ⟨S64, .f32⟩
  | 69 => ⟨S64, .f32⟩
  | 70 => ⟨S_, .f32⟩
  | 71 => ⟨S64, .f32⟩
  | 72 => ⟨S64, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S_, .f32⟩
  | 80 => ⟨S_, .f32⟩
  | 81 => ⟨S_, .f32⟩
  | 82 => ⟨S_, .f32⟩
  | 83 => ⟨S16384x64x2, .f32⟩
  | 84 => ⟨S16384x128, .f32⟩
  | 85 => ⟨S16384x64x2, .f32⟩
  | 86 => ⟨S16384x128, .f32⟩
  | 87 => ⟨S16384x128, .f32⟩
  | 88 => ⟨S16384x64, .f32⟩
  | 89 => ⟨S16384x64x2, .f32⟩
  | 90 => ⟨S16384x128, .f32⟩
  | 91 => ⟨S16384x128, .f32⟩
  | 92 => ⟨S_, .f32⟩
  | 93 => ⟨S128, .f32⟩
  | 94 => ⟨S_, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S_, .f32⟩
  | 102 => ⟨S128, .f32⟩
  | 103 => ⟨S128, .f32⟩
  | 104 => ⟨S128, .f32⟩
  | 105 => ⟨S128, .f32⟩
  | 106 => ⟨S_, .f32⟩
  | 107 => ⟨S128, .f32⟩
  | 108 => ⟨S128, .f32⟩
  | 109 => ⟨S_, .f32⟩
  | 110 => ⟨S_, .f32⟩
  | 111 => ⟨S_, .f32⟩
  | 112 => ⟨S_, .f32⟩
  | 113 => ⟨S_, .f32⟩
  | 114 => ⟨S16384x128x2, .f32⟩
  | 115 => ⟨S16384x256, .f32⟩
  | 116 => ⟨S16384x128x2, .f32⟩
  | 117 => ⟨S16384x256, .f32⟩
  | 118 => ⟨S16384x256, .f32⟩
  | 119 => ⟨S16384x128, .f32⟩
  | 120 => ⟨S16384x128x2, .f32⟩
  | 121 => ⟨S16384x256, .f32⟩
  | 122 => ⟨S16384x256, .f32⟩
  | 123 => ⟨S_, .f32⟩
  | 124 => ⟨S256, .f32⟩
  | 125 => ⟨S_, .f32⟩
  | 126 => ⟨S256, .f32⟩
  | 127 => ⟨S_, .f32⟩
  | _ => ⟨S16384x1024, .f32⟩

abbrev hbmTy0_2 (i : Nat) : BufTy := match i % 128 with
  | 0 => ⟨S256, .f32⟩
  | 1 => ⟨S256, .f32⟩
  | 2 => ⟨S256, .f32⟩
  | 3 => ⟨S256, .f32⟩
  | 4 => ⟨S_, .f32⟩
  | 5 => ⟨S256, .f32⟩
  | 6 => ⟨S256, .f32⟩
  | 7 => ⟨S256, .f32⟩
  | 8 => ⟨S256, .f32⟩
  | 9 => ⟨S_, .f32⟩
  | 10 => ⟨S256, .f32⟩
  | 11 => ⟨S256, .f32⟩
  | 12 => ⟨S_, .f32⟩
  | 13 => ⟨S_, .f32⟩
  | 14 => ⟨S_, .f32⟩
  | 15 => ⟨S_, .f32⟩
  | 16 => ⟨S_, .f32⟩
  | 17 => ⟨S16384x256x2, .f32⟩
  | 18 => ⟨S16384x512, .f32⟩
  | 19 => ⟨S16384x256x2, .f32⟩
  | 20 => ⟨S16384x512, .f32⟩
  | 21 => ⟨S16384x512, .f32⟩
  | 22 => ⟨S16384x256, .f32⟩
  | 23 => ⟨S16384x256x2, .f32⟩
  | 24 => ⟨S16384x512, .f32⟩
  | 25 => ⟨S16384x512, .f32⟩
  | 26 => ⟨S_, .f32⟩
  | 27 => ⟨S512, .f32⟩
  | 28 => ⟨S_, .f32⟩
  | 29 => ⟨S512, .f32⟩
  | 30 => ⟨S_, .f32⟩
  | 31 => ⟨S512, .f32⟩
  | 32 => ⟨S512, .f32⟩
  | 33 => ⟨S512, .f32⟩
  | 34 => ⟨S512, .f32⟩
  | 35 => ⟨S_, .f32⟩
  | 36 => ⟨S512, .f32⟩
  | 37 => ⟨S512, .f32⟩
  | 38 => ⟨S512, .f32⟩
  | 39 => ⟨S512, .f32⟩
  | 40 => ⟨S_, .f32⟩
  | 41 => ⟨S512, .f32⟩
  | 42 => ⟨S512, .f32⟩
  | 43 => ⟨S_, .f32⟩
  | 44 => ⟨S_, .f32⟩
  | 45 => ⟨S_, .f32⟩
  | 46 => ⟨S_, .f32⟩
  | 47 => ⟨S_, .f32⟩
  | 48 => ⟨S16384x512x2, .f32⟩
  | 49 => ⟨S16384x1024, .f32⟩
  | 50 => ⟨S16384x512x2, .f32⟩
  | 51 => ⟨S16384x1024, .f32⟩
  | 52 => ⟨S16384x1024, .f32⟩
  | 53 => ⟨S16384x512, .f32⟩
  | 54 => ⟨S16384x512x2, .f32⟩
  | 55 => ⟨S16384x1024, .f32⟩
  | 56 => ⟨S16384x1024, .f32⟩
  | 57 => ⟨S_, .f32⟩
  | 58 => ⟨S1024, .f32⟩
  | 59 => ⟨S_, .f32⟩
  | 60 => ⟨S1024, .f32⟩
  | 61 => ⟨S_, .f32⟩
  | 62 => ⟨S1024, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S_, .f32⟩
  | 75 => ⟨S_, .f32⟩
  | 76 => ⟨S_, .f32⟩
  | 77 => ⟨S_, .f32⟩
  | 78 => ⟨S_, .f32⟩
  | 79 => ⟨S1024x1000, .f32⟩
  | 80 => ⟨S16384x1000, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_cst_18 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_19 : Ref sig .tc := ⟨.hbm, 96, rfl⟩
abbrev main_v73 : Ref sig .tc := ⟨.hbm, 97, rfl⟩
abbrev main_cst_20 : Ref sig .tc := ⟨.hbm, 98, rfl⟩
abbrev main_v74 : Ref sig .tc := ⟨.hbm, 99, rfl⟩
abbrev main_cst_21 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_22 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_23 : Ref sig .tc := ⟨.hbm, 110, rfl⟩
abbrev main_v83 : Ref sig .tc := ⟨.hbm, 111, rfl⟩
abbrev main_v84 : Ref sig .tc := ⟨.hbm, 112, rfl⟩
abbrev main_cst_24 : Ref sig .tc := ⟨.hbm, 113, rfl⟩
abbrev main_v85 : Ref sig .tc := ⟨.hbm, 114, rfl⟩
abbrev main_cst_25 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_26 : Ref sig .tc := ⟨.hbm, 127, rfl⟩
abbrev main_v97 : Ref sig .tc := ⟨.hbm, 128, rfl⟩
abbrev main_cst_27 : Ref sig .tc := ⟨.hbm, 129, rfl⟩
abbrev main_v98 : Ref sig .tc := ⟨.hbm, 130, rfl⟩
abbrev main_cst_28 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_29 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_30 : Ref sig .tc := ⟨.hbm, 141, rfl⟩
abbrev main_v107 : Ref sig .tc := ⟨.hbm, 142, rfl⟩
abbrev main_v108 : Ref sig .tc := ⟨.hbm, 143, rfl⟩
abbrev main_cst_31 : Ref sig .tc := ⟨.hbm, 144, rfl⟩
abbrev main_v109 : Ref sig .tc := ⟨.hbm, 145, rfl⟩
abbrev main_cst_32 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_33 : Ref sig .tc := ⟨.hbm, 158, rfl⟩
abbrev main_v121 : Ref sig .tc := ⟨.hbm, 159, rfl⟩
abbrev main_cst_34 : Ref sig .tc := ⟨.hbm, 160, rfl⟩
abbrev main_v122 : Ref sig .tc := ⟨.hbm, 161, rfl⟩
abbrev main_cst_35 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_36 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_37 : Ref sig .tc := ⟨.hbm, 172, rfl⟩
abbrev main_v131 : Ref sig .tc := ⟨.hbm, 173, rfl⟩
abbrev main_v132 : Ref sig .tc := ⟨.hbm, 174, rfl⟩
abbrev main_cst_38 : Ref sig .tc := ⟨.hbm, 175, rfl⟩
abbrev main_v133 : Ref sig .tc := ⟨.hbm, 176, rfl⟩
abbrev main_cst_39 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_40 : Ref sig .tc := ⟨.hbm, 189, rfl⟩
abbrev main_v145 : Ref sig .tc := ⟨.hbm, 190, rfl⟩
abbrev main_cst_41 : Ref sig .tc := ⟨.hbm, 191, rfl⟩
abbrev main_v146 : Ref sig .tc := ⟨.hbm, 192, rfl⟩
abbrev main_cst_42 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_43 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_44 : Ref sig .tc := ⟨.hbm, 203, rfl⟩
abbrev main_v155 : Ref sig .tc := ⟨.hbm, 204, rfl⟩
abbrev main_v156 : Ref sig .tc := ⟨.hbm, 205, rfl⟩
abbrev main_cst_45 : Ref sig .tc := ⟨.hbm, 206, rfl⟩
abbrev main_v157 : Ref sig .tc := ⟨.hbm, 207, rfl⟩
abbrev main_cst_46 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_47 : Ref sig .tc := ⟨.hbm, 220, rfl⟩
abbrev main_v169 : Ref sig .tc := ⟨.hbm, 221, rfl⟩
abbrev main_cst_48 : Ref sig .tc := ⟨.hbm, 222, rfl⟩
abbrev main_v170 : Ref sig .tc := ⟨.hbm, 223, rfl⟩
abbrev main_cst_49 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_50 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_51 : Ref sig .tc := ⟨.hbm, 234, rfl⟩
abbrev main_v179 : Ref sig .tc := ⟨.hbm, 235, rfl⟩
abbrev main_v180 : Ref sig .tc := ⟨.hbm, 236, rfl⟩
abbrev main_cst_52 : Ref sig .tc := ⟨.hbm, 237, rfl⟩
abbrev main_v181 : Ref sig .tc := ⟨.hbm, 238, rfl⟩
abbrev main_cst_53 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_54 : Ref sig .tc := ⟨.hbm, 251, rfl⟩
abbrev main_v193 : Ref sig .tc := ⟨.hbm, 252, rfl⟩
abbrev main_cst_55 : Ref sig .tc := ⟨.hbm, 253, rfl⟩
abbrev main_v194 : Ref sig .tc := ⟨.hbm, 254, rfl⟩
abbrev main_cst_56 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_cst_57 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_cst_58 : Ref sig .tc := ⟨.hbm, 265, rfl⟩
abbrev main_v203 : Ref sig .tc := ⟨.hbm, 266, rfl⟩
abbrev main_v204 : Ref sig .tc := ⟨.hbm, 267, rfl⟩
abbrev main_cst_59 : Ref sig .tc := ⟨.hbm, 268, rfl⟩
abbrev main_v205 : Ref sig .tc := ⟨.hbm, 269, rfl⟩
abbrev main_cst_60 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_cst_61 : Ref sig .tc := ⟨.hbm, 282, rfl⟩
abbrev main_v217 : Ref sig .tc := ⟨.hbm, 283, rfl⟩
abbrev main_cst_62 : Ref sig .tc := ⟨.hbm, 284, rfl⟩
abbrev main_v218 : Ref sig .tc := ⟨.hbm, 285, rfl⟩
abbrev main_cst_63 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_cst_64 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_cst_65 : Ref sig .tc := ⟨.hbm, 296, rfl⟩
abbrev main_v227 : Ref sig .tc := ⟨.hbm, 297, rfl⟩
abbrev main_v228 : Ref sig .tc := ⟨.hbm, 298, rfl⟩
abbrev main_cst_66 : Ref sig .tc := ⟨.hbm, 299, rfl⟩
abbrev main_v229 : Ref sig .tc := ⟨.hbm, 300, rfl⟩
abbrev main_cst_67 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_cst_68 : Ref sig .tc := ⟨.hbm, 313, rfl⟩
abbrev main_v241 : Ref sig .tc := ⟨.hbm, 314, rfl⟩
abbrev main_cst_69 : Ref sig .tc := ⟨.hbm, 315, rfl⟩
abbrev main_v242 : Ref sig .tc := ⟨.hbm, 316, rfl⟩
abbrev main_cst_70 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_cst_71 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_cst_72 : Ref sig .tc := ⟨.hbm, 327, rfl⟩
abbrev main_v251 : Ref sig .tc := ⟨.hbm, 328, rfl⟩
abbrev main_v252 : Ref sig .tc := ⟨.hbm, 329, rfl⟩
abbrev main_cst_73 : Ref sig .tc := ⟨.hbm, 330, rfl⟩
abbrev main_v253 : Ref sig .tc := ⟨.hbm, 331, rfl⟩
abbrev main_cst_74 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  concatenates_S16384x1_S16384x1024_S16384x1025_d1 : Shape.Concatenates [S16384x1, S16384x1024] S16384x1025 1
  transposes_S1023x1025_S1025x1023_1_0 : S1023x1025.Transposes [1, 0] S1025x1023
  bcast_S_S16384x1023 : S_.BroadcastsInDim S16384x1023 (![] : Fin 0 → Fin S16384x1023.rank)
  bcast_S16384x1023_S16384x1023x1_0_1 : S16384x1023.BroadcastsInDim S16384x1023x1 (![0, 1] : Fin 2 → Fin S16384x1023x1.rank)
  concatenates_S16384x1023x1_S16384x1023x1_S16384x1023x2_d2 : Shape.Concatenates [S16384x1023x1, S16384x1023x1] S16384x1023x2 2
  slices_S16384x1023x2_S16384x1x2_0_0_0 : S16384x1023x2.Slices ![0, 0, 0] S16384x1x2
  shapeCasts_S16384x1x2_S16384x2 : S16384x1x2.ShapeCasts S16384x2
  bcast_S16384x1_S16384x1x2_0_1 : S16384x1.BroadcastsInDim S16384x1x2 (![0, 1] : Fin 2 → Fin S16384x1x2.rank)
  slices_S16384x2_S16384x1_0_0 : S16384x2.Slices ![0, 0] S16384x1
  reducesTo_S16384x2_S2_d0 : S16384x2.ReducesTo [0] S2
  h_S_ : 0 < S_.numel
  bcast_S_S2 : S_.BroadcastsInDim S2 (![] : Fin 0 → Fin S2.rank)
  reducesTo_S2_S_d0 : S2.ReducesTo [0] S_
  slices_S16384x1023x2_S16384x2x2_0_1_0 : S16384x1023x2.Slices ![0, 1, 0] S16384x2x2
  shapeCasts_S16384x2x2_S16384x4 : S16384x2x2.ShapeCasts S16384x4
  bcast_S16384x2_S16384x2x2_0_1 : S16384x2.BroadcastsInDim S16384x2x2 (![0, 1] : Fin 2 → Fin S16384x2x2.rank)
  slices_S16384x4_S16384x2_0_0 : S16384x4.Slices ![0, 0] S16384x2
  reducesTo_S16384x4_S4_d0 : S16384x4.ReducesTo [0] S4
  bcast_S_S4 : S_.BroadcastsInDim S4 (![] : Fin 0 → Fin S4.rank)
  reducesTo_S4_S_d0 : S4.ReducesTo [0] S_
  slices_S16384x1023x2_S16384x4x2_0_3_0 : S16384x1023x2.Slices ![0, 3, 0] S16384x4x2
  shapeCasts_S16384x4x2_S16384x8 : S16384x4x2.ShapeCasts S16384x8
  bcast_S16384x4_S16384x4x2_0_1 : S16384x4.BroadcastsInDim S16384x4x2 (![0, 1] : Fin 2 → Fin S16384x4x2.rank)
  slices_S16384x8_S16384x4_0_0 : S16384x8.Slices ![0, 0] S16384x4
  reducesTo_S16384x8_S8_d0 : S16384x8.ReducesTo [0] S8
  bcast_S_S8 : S_.BroadcastsInDim S8 (![] : Fin 0 → Fin S8.rank)
  reducesTo_S8_S_d0 : S8.ReducesTo [0] S_
  slices_S16384x1023x2_S16384x8x2_0_7_0 : S16384x1023x2.Slices ![0, 7, 0] S16384x8x2
  shapeCasts_S16384x8x2_S16384x16 : S16384x8x2.ShapeCasts S16384x16
  bcast_S16384x8_S16384x8x2_0_1 : S16384x8.BroadcastsInDim S16384x8x2 (![0, 1] : Fin 2 → Fin S16384x8x2.rank)
  slices_S16384x16_S16384x8_0_0 : S16384x16.Slices ![0, 0] S16384x8
  reducesTo_S16384x16_S16_d0 : S16384x16.ReducesTo [0] S16
  bcast_S_S16 : S_.BroadcastsInDim S16 (![] : Fin 0 → Fin S16.rank)
  reducesTo_S16_S_d0 : S16.ReducesTo [0] S_
  slices_S16384x1023x2_S16384x16x2_0_15_0 : S16384x1023x2.Slices ![0, 15, 0] S16384x16x2
  shapeCasts_S16384x16x2_S16384x32 : S16384x16x2.ShapeCasts S16384x32
  bcast_S16384x16_S16384x16x2_0_1 : S16384x16.BroadcastsInDim S16384x16x2 (![0, 1] : Fin 2 → Fin S16384x16x2.rank)
  slices_S16384x32_S16384x16_0_0 : S16384x32.Slices ![0, 0] S16384x16
  reducesTo_S16384x32_S32_d0 : S16384x32.ReducesTo [0] S32
  bcast_S_S32 : S_.BroadcastsInDim S32 (![] : Fin 0 → Fin S32.rank)
  reducesTo_S32_S_d0 : S32.ReducesTo [0] S_
  slices_S16384x1023x2_S16384x32x2_0_31_0 : S16384x1023x2.Slices ![0, 31, 0] S16384x32x2
  shapeCasts_S16384x32x2_S16384x64 : S16384x32x2.ShapeCasts S16384x64
  bcast_S16384x32_S16384x32x2_0_1 : S16384x32.BroadcastsInDim S16384x32x2 (![0, 1] : Fin 2 → Fin S16384x32x2.rank)
  slices_S16384x64_S16384x32_0_0 : S16384x64.Slices ![0, 0] S16384x32
  reducesTo_S16384x64_S64_d0 : S16384x64.ReducesTo [0] S64
  bcast_S_S64 : S_.BroadcastsInDim S64 (![] : Fin 0 → Fin S64.rank)
  reducesTo_S64_S_d0 : S64.ReducesTo [0] S_
  slices_S16384x1023x2_S16384x64x2_0_63_0 : S16384x1023x2.Slices ![0, 63, 0] S16384x64x2
  shapeCasts_S16384x64x2_S16384x128 : S16384x64x2.ShapeCasts S16384x128
  bcast_S16384x64_S16384x64x2_0_1 : S16384x64.BroadcastsInDim S16384x64x2 (![0, 1] : Fin 2 → Fin S16384x64x2.rank)
  slices_S16384x128_S16384x64_0_0 : S16384x128.Slices ![0, 0] S16384x64
  reducesTo_S16384x128_S128_d0 : S16384x128.ReducesTo [0] S128
  bcast_S_S128 : S_.BroadcastsInDim S128 (![] : Fin 0 → Fin S128.rank)
  reducesTo_S128_S_d0 : S128.ReducesTo [0] S_
  slices_S16384x1023x2_S16384x128x2_0_127_0 : S16384x1023x2.Slices ![0, 127, 0] S16384x128x2
  shapeCasts_S16384x128x2_S16384x256 : S16384x128x2.ShapeCasts S16384x256
  bcast_S16384x128_S16384x128x2_0_1 : S16384x128.BroadcastsInDim S16384x128x2 (![0, 1] : Fin 2 → Fin S16384x128x2.rank)
  slices_S16384x256_S16384x128_0_0 : S16384x256.Slices ![0, 0] S16384x128
  reducesTo_S16384x256_S256_d0 : S16384x256.ReducesTo [0] S256
  bcast_S_S256 : S_.BroadcastsInDim S256 (![] : Fin 0 → Fin S256.rank)
  reducesTo_S256_S_d0 : S256.ReducesTo [0] S_
  slices_S16384x1023x2_S16384x256x2_0_255_0 : S16384x1023x2.Slices ![0, 255, 0] S16384x256x2
  shapeCasts_S16384x256x2_S16384x512 : S16384x256x2.ShapeCasts S16384x512
  bcast_S16384x256_S16384x256x2_0_1 : S16384x256.BroadcastsInDim S16384x256x2 (![0, 1] : Fin 2 → Fin S16384x256x2.rank)
  slices_S16384x512_S16384x256_0_0 : S16384x512.Slices ![0, 0] S16384x256
  reducesTo_S16384x512_S512_d0 : S16384x512.ReducesTo [0] S512
  bcast_S_S512 : S_.BroadcastsInDim S512 (![] : Fin 0 → Fin S512.rank)
  reducesTo_S512_S_d0 : S512.ReducesTo [0] S_
  slices_S16384x1023x2_S16384x512x2_0_511_0 : S16384x1023x2.Slices ![0, 511, 0] S16384x512x2
  shapeCasts_S16384x512x2_S16384x1024 : S16384x512x2.ShapeCasts S16384x1024
  bcast_S16384x512_S16384x512x2_0_1 : S16384x512.BroadcastsInDim S16384x512x2 (![0, 1] : Fin 2 → Fin S16384x512x2.rank)
  slices_S16384x1024_S16384x512_0_0 : S16384x1024.Slices ![0, 0] S16384x512
  reducesTo_S16384x1024_S1024_d0 : S16384x1024.ReducesTo [0] S1024
  bcast_S_S1024 : S_.BroadcastsInDim S1024 (![] : Fin 0 → Fin S1024.rank)
  reducesTo_S1024_S_d0 : S1024.ReducesTo [0] S_
  transposes_S1000x1024_S1024x1000_1_0 : S1000x1024.Transposes [1, 0] S1024x1000
  dot_S16384x1025_S1025x1023_S16384x1023_1_0_0_1_n_n_wf : DotDims.WF S16384x1025 S1025x1023 S16384x1023 [1] [0] [0] [1] [] []
  dot_S16384x1024_S1024x1000_S16384x1000_1_0_0_1_n_n_wf : DotDims.WF S16384x1024 S1024x1000 S16384x1000 [1] [0] [0] [1] [] []

variable [Facts₀]

def dot_S16384x1025_S1025x1023_S16384x1023_1_0_0_1_n_n : DotDims S16384x1025 S1025x1023 S16384x1023 where
  lhsContracting := [1]
  rhsContracting := [0]
  lhsNonContracting := [0]
  rhsNonContracting := [1]
  lhsBatch := []
  rhsBatch := []
  wf := dot_S16384x1025_S1025x1023_S16384x1023_1_0_0_1_n_n_wf
def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf

class Facts : Prop extends Facts₀ where

variable [Facts]
-- ==== Proof.KBody.lean ====
import proofs.«128224_j82489141887173_2_alg».proof.Proof.Gen.Kernel.Skeleton

noncomputable section

namespace Cert.Kernel.Body

open Cert.Kernel Cert.Kernel.Gen Idealize.ShloMosaic

variable {F : FTy → Type} [FloatOps F]

variable (x0 : Vec F S512x1024 .f32) (x1 x2 : Vec F S1024x1024 .bf16) (x3 : Vec F S1x1024 .f32)

def logits : FVec F S512x1024 .f32 := k0_pay4 x0 x1 x2 x3
def path1 : FVec F S512x2 .f32 := k0_pay6 x0 x1 x2 x3
def lp3 : FVec F S512x16 .f32 := k0_pay20 (logits x0 x1 x2 x3)
def rep3 : FVec F S512x16 .f32 := k0_pay21 (logits x0 x1 x2 x3) (path1 x0 x1 x2 x3)
def lp5 : FVec F S512x64 .f32 := k0_pay31 (logits x0 x1 x2 x3)
def path6 : FVec F S512x64 .f32 := k0_pay32 (logits x0 x1 x2 x3) (lp3 x0 x1 x2 x3) (rep3 x0 x1 x2 x3)
def rowIota5 : IVec S64x32 32 := iota .tc S64x32 32 [0] iota_S64x32_d0_w32
def twoColIota5 : IVec S64x32 32 := k0_pay33
def lp7 : FVec F S512x256 .f32 := k0_pay42 (logits x0 x1 x2 x3)
def path8 : FVec F S512x256 .f32 := k0_pay43 (logits x0 x1 x2 x3) (path6 x0 x1 x2 x3)
def sel7 : FVec F S256x128 .bf16 := k0_pay44 (F := F)
def path8n : FVec F S512x256 .bf16 := k0_pay45 (logits x0 x1 x2 x3) (path6 x0 x1 x2 x3)
def zero7 : FVec F S512x128 .f32 := constant S512x128 .f32 0x00000000#32
def path10 : FVec F S512x1024 .f32 := k0_pay55 (logits x0 x1 x2 x3) (path8 x0 x1 x2 x3)
def parent9 : FVec F S512x1024 .f32 := k0_pay56 (logits x0 x1 x2 x3) (path8 x0 x1 x2 x3)

def num : FVec F S8x2046 .f32 :=
  k0_pay1 (k0_pay8 x0 x1 x2 x3)
    (k0_pay13 (logits x0 x1 x2 x3) (path1 x0 x1 x2 x3)) (k0_pay18 (logits x0 x1 x2 x3) (path1 x0 x1 x2 x3))
    (k0_pay24 (lp3 x0 x1 x2 x3) (rep3 x0 x1 x2 x3)) (k0_pay29 (logits x0 x1 x2 x3) (lp3 x0 x1 x2 x3) (rep3 x0 x1 x2 x3))
    (k0_pay35 (lp5 x0 x1 x2 x3) (path6 x0 x1 x2 x3) rowIota5 twoColIota5) (k0_pay40 (logits x0 x1 x2 x3) (path6 x0 x1 x2 x3))
    (k0_pay47 (lp7 x0 x1 x2 x3) sel7 (path8n x0 x1 x2 x3) zero7) (k0_pay52 (logits x0 x1 x2 x3) (path8 x0 x1 x2 x3))
    (k0_pay57 (logits x0 x1 x2 x3) (path8 x0 x1 x2 x3))

def den : FVec F S8x2046 .f32 :=
  k0_pay2 (k0_pay9 x0 x1 x2 x3)
    (k0_pay14 (logits x0 x1 x2 x3) (path1 x0 x1 x2 x3)) (k0_pay19 (logits x0 x1 x2 x3) (path1 x0 x1 x2 x3))
    (k0_pay25 (lp3 x0 x1 x2 x3) (rep3 x0 x1 x2 x3)) (k0_pay30 (logits x0 x1 x2 x3) (lp3 x0 x1 x2 x3) (rep3 x0 x1 x2 x3))
    (k0_pay36 (path6 x0 x1 x2 x3) rowIota5 twoColIota5) (k0_pay41 (logits x0 x1 x2 x3) (path6 x0 x1 x2 x3))
    (k0_pay48 sel7 (path8n x0 x1 x2 x3) zero7) (k0_pay53 (logits x0 x1 x2 x3) (path8 x0 x1 x2 x3))
    (parent9 x0 x1 x2 x3)

def pred (x4 x5 : Vec F S1024x1000 .bf16) : FVec F S512x1000 .f32 :=
  k0_pay3 (path10 x0 x1 x2 x3) x4 x5

end Cert.Kernel.Body

end
-- ==== Proof.KFrame.lean ====
import proofs.«128224_j82489141887173_2_alg».proof.Proof.Gen.Kernel.Launch
import proofs.«128224_j82489141887173_2_alg».proof.Proof.Gen.Kernel.Skeleton
import proofs.«128224_j82489141887173_2_alg».proof.Proof.Gen.Kernel.Points
import proofs.«128224_j82489141887173_2_alg».proof.Proof.KBody
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]) (fun b => m (c, b))
abbrev V (c : Dev nD) (b : Ref sig .tc) : Buf (Elt F) ((c : Thread nD τ).loc b) := V0 m c (Proc.devRef .tc b)

theorem of_one {α : Type} {P : α → Prop} {l : List α} (h : l.Forall P) : ∀ ops ∈ [l], ∀ a ∈ ops, P a :=
  fun _ hs a ha => List.forall_iff_forall_mem.mp h a (List.mem_singleton.mp hs ▸ ha)

theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1])) :=
  Pipeline.hmain_around cfgs 0 defs₀ 𝒱₀ m main _ [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩)
    (by simp only [List.Forall]; repeat' constructor) main_chain

-- Every operation writes its own result only: before the region none of them is an argument,
theorem pre_keeps : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22] : List (HloOp τ sig (Elt F))).Forall fun op =>
    Proc.devRef .tc main_arg0 ∉ op.writes ∧ Proc.devRef .tc main_arg1 ∉ op.writes ∧ Proc.devRef .tc main_arg2 ∉ op.writes := by
  simp only [List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals first
    | exact fun w => StableHlo.devRef_ne_of_ne (by revert w; decide)
    | exact StableHlo.devRef_ne_of_ne (by decide)

-- and after it none is an array of the region or one of the last two arguments.
theorem post_keeps : (hostOps1 : List (HloOp τ sig (Elt F))).Forall fun op =>
    (∀ w, Proc.devRef .tc (Pipeline.arrRef spec0 w) ∉ op.writes) ∧ Proc.devRef .tc main_arg1 ∉ op.writes ∧ Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals first
    | exact fun w => StableHlo.devRef_ne_of_ne (by revert w; decide)
    | exact StableHlo.devRef_ne_of_ne (by decide)

theorem V_main_arg0 (c : Dev nD) : V m c main_arg0 = m ((c : Thread nD τ).loc main_arg0) :=
  StableHlo.after_of_forall_not_mem (b := Proc.devRef .tc main_arg0) _ _ fun op ho => (List.forall_iff_forall_mem.mp pre_keeps op ho).1

theorem W_arg (dats : (p : Fin _) → (c : Dev nD) → Dat τ (Elt F) Unit ℕ (UR sig nD τ) ℕ (cfgs p) c) (c : Dev nD) (b : Ref sig .tc) (hw : ∀ w, Pipeline.arrRef spec0 w ≠ b)
    (h : ∀ op ∈ (hostOps1 : List (HloOp τ sig (Elt F))), Proc.devRef .tc b ∉ op.writes) (hV : V m c b = m ((c : Thread nD τ).loc b)) :
    Pipeline.afterTail₀ cfgs dats 0 (V0 m) [hostOps1] c b = m ((c : Thread nD τ).loc b) := by
  unfold Pipeline.afterTail₀
  rw [List.flatten_singleton, StableHlo.after_of_forall_not_mem (b := Proc.devRef .tc b) _ _ h, Pipeline.withArrays_of_ne _ c (V0 m c) _ b hw]
  exact hV

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_arg m dats c main_arg1 (by decide) (fun op ho => (List.forall_iff_forall_mem.mp post_keeps op ho).2.1)
    (StableHlo.after_of_forall_not_mem (b := Proc.devRef .tc main_arg1) _ _ fun op ho => (List.forall_iff_forall_mem.mp pre_keeps op ho).2.1)

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_arg m dats c main_arg2 (by decide) (fun op ho => (List.forall_iff_forall_mem.mp post_keeps op ho).2.2)
    (StableHlo.after_of_forall_not_mem (b := Proc.devRef .tc main_arg2) _ _ fun op ho => (List.forall_iff_forall_mem.mp pre_keeps op ho).2.2)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r6 : Rect S512x1000 := Rect.unit (s := S512x1000) ![0, 0] S512x1000.size inb_S512x1000_S512x1000_0_0
abbrev r7 : Rect S8x2046 := Rect.unit (s := S8x2046) ![0, 0] S8x2046.size inb_S8x2046_S8x2046_0_0

def out0_6 (x0 : Vec F S512x1024 .f32) (x1 : Vec F S1024x1024 .bf16) (x2 : Vec F S1024x1024 .bf16) (x3 : Vec F S1x1024 .f32) (x4 : Vec F S1024x1000 .bf16) (x5 : Vec F S1024x1000 .bf16) : Vec F S512x1000 .f32 :=
  View.canon [⟨r6, Body.pred x0 x1 x2 x3 x4 x5⟩]
def out0_7 (x0 : Vec F S512x1024 .f32) (x1 : Vec F S1024x1024 .bf16) (x2 : Vec F S1024x1024 .bf16) (x3 : Vec F S1x1024 .f32) : Vec F S8x2046 .f32 :=
  View.canon [⟨r7, Body.num x0 x1 x2 x3⟩]
def out0_8 (x0 : Vec F S512x1024 .f32) (x1 : Vec F S1024x1024 .bf16) (x2 : Vec F S1024x1024 .bf16) (x3 : Vec F S1x1024 .f32) : Vec F S8x2046 .f32 :=
  View.canon [⟨r7, Body.den x0 x1 x2 x3⟩]

theorem zero2 : (![0, 0] : Fin 2 → ℕ) = fun _ => 0 := by funext a; fin_cases a <;> rfl

theorem cover_whole {sz : Fin 2 → ℕ} {e : EltTy} (inb : ∀ a, (![0, 0] : Fin 2 → ℕ) a + sz a ≤ sz a) (p0 : Vec F ⟨2, sz⟩ e) (y : Shape.Idx ⟨2, sz⟩) :
    ∃ pc ∈ ([⟨Rect.unit (s := ⟨2, sz⟩) ![0, 0] sz inb, p0⟩] : List (View.Piece (Elt F) ⟨2, sz⟩ e)), y ∈ pc.1.set :=
  ⟨_, List.mem_singleton_self _, View.mem_set_unit_zero zero2 inb y⟩

-- A load through the whole rectangle of a block reads the block.
theorem readAt_whole {sz : Fin 2 → ℕ} {e : EltTy} {κ : Kind} {sp : Space} (v : View sig κ sp ⟨2, sz⟩ e) (f : v.ty.Contents (Elt F))
    (inb : ∀ a, (![0, 0] : Fin 2 → ℕ) a + sz a ≤ sz a) :
    View.readAt (Elt F) v (Rect.unit (s := ⟨2, sz⟩) ![0, 0] sz inb).toLoadRect f = View.read (Elt F) v f :=
  View.ld_unit_zero zero2 inb (View.read (Elt F) v f)

set_option maxHeartbeats 4000000 in
theorem sound_kernel (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1000 .bf16) (harg5 : arg5.IsWhole) (arg6 : Memref sig .tc .vmem S1024x1000 .bf16) (harg6 : arg6.IsWhole) (arg7 : Memref sig .tc .vmem S512x1000 .f32) (harg7 : arg7.IsWhole) (arg8 : Memref sig .tc .vmem S8x2046 .f32) (harg8 : arg8.IsWhole) (arg9 : Memref sig .tc .vmem S8x2046 .f32) (harg9 : arg9.IsWhole)
    (x0 : Vec F S512x1024 .f32) (x1 : Vec F S1024x1024 .bf16) (x2 : Vec F S1024x1024 .bf16) (x3 : Vec F S1x1024 .f32) (x4 : Vec F S1024x1000 .bf16) (x5 : Vec F S1024x1000 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3) ∗ owns (c : Thread nD τ) arg9 fullShare (out0_8 x0 x1 x2 x3)) -∗ K ⟨⟩))
      ⊢ wp frame (wpE (defs₀ (F := F)) Variants.none c none) E (cc0__sdt_kernel i arg1 harg1 arg2 harg2 arg3 harg3 arg4 harg4 arg5 harg5 arg6 harg6 arg7 harg7 arg8 harg8 arg9 harg9) K := by
  simp only [cc0__sdt_kernel_eq_skeleton]; unfold cc0__sdt_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    simp only [readAt_whole]
    exact View.read_writes_eq_canon _ _ _ (cover_whole _ _)
  isplitl [H7]
  · iexists _; isplitr
    swap; · iexact H7
    ipureintro
    try dsimp only
    simp only [readAt_whole]
    exact View.read_writes_eq_canon _ _ _ (cover_whole _ _)
  iexists _; isplitr
  swap; · iexact H8
  ipureintro
  try dsimp only
  simp only [readAt_whole]
  exact View.read_writes_eq_canon _ _ _ (cover_whole _ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t)
    | ⟨8, _⟩ => out0_8 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) := by dsimp only [dats]
theorem after0_8 (c : Dev nD) (t : Fin cfg0.N) : (dats m 0 c).after 8 t = out0_8 (iblk m c 0 t) (iblk m c 1 t) (iblk m c 2 t) (iblk m c 3 t) := by dsimp only [dats]

theorem before0 {c : Dev nD} (dat : Dat τ (Elt F) Unit ℕ (UR sig nD τ) ℕ cfg0 c) (hA : ∀ w, dat.A w = V m c (Pipeline.arrRef spec0 w)) (t : Fin cfg0.N) :
    ((∀ t, dat.after 0 t = iblk m c 0 t) → ∀ d, dat.before 0 t d = iblk m c 0 t) ∧
    ((∀ t, dat.after 1 t = iblk m c 1 t) → ∀ d, dat.before 1 t d = iblk m c 1 t) ∧
    ((∀ t, dat.after 2 t = iblk m c 2 t) → ∀ d, dat.before 2 t d = iblk m c 2 t) ∧
    ((∀ t, dat.after 3 t = iblk m c 3 t) → ∀ d, dat.before 3 t d = iblk m c 3 t) ∧
    ((∀ t, dat.after 4 t = iblk m c 4 t) → ∀ d, dat.before 4 t d = iblk m c 4 t) ∧
    ((∀ t, dat.after 5 t = iblk m c 5 t) → ∀ d, dat.before 5 t d = iblk m c 5 t) := by
  refine ⟨?_, ?_, ?_, ?_, ?_, ?_⟩ <;> exact fun hafter d =>
    (dat.before_in_eq_fetched _ rfl (fun _ => rfl) (fun _ _ _ => rfl) (fun t => by rw [hafter]; unfold Dat.blockOf iblk; rw [hA]; try rfl) t d).trans
      (by unfold Dat.fetched Dat.blockOf iblk; rw [hA]; try rfl)

def pre (c : Dev nD) (t : Fin cfg0.N) (w : Fin 9) : sProp 𝕄 :=
  iprop(∃ d, owns (c : Thread nD τ) ((cfg0.win w).stage (cfg0.slots t w)) fullShare ((dats m 0 c).before w t d))

def post (c : Dev nD) (t : Fin cfg0.N) (w : Fin 9) : sProp 𝕄 :=
  owns (c : Thread nD τ) ((cfg0.win w).stage (cfg0.slots t w)) fullShare ((dats m 0 c).after w t)

theorem sound_body (c : Dev nD) (t : Fin cfg0.N) :
    iprop((dats m 0 c).Φ t.castSucc ∗ (dats m 0 c).owesAt () t.castSucc ∗ bigSep Finset.univ (pre m c t))
      ⊢ wp frame (wpE (defs₀ (F := F)) Variants.none c none) Set.univ (bodyAt0 t) fun _ =>
        iprop((dats m 0 c).Φ t.succ ∗ (dats m 0 c).owesAt () t.succ ∗ bigSep Finset.univ (post m c t)) := by
  obtain ⟨b0, b1, b2, b3, b4, b5⟩ := before0 m (dats m 0 c) (A_eq m c) t
  rw [bigSep_W0, bigSep_W0]
  unfold pre post bodyAt0
  simp only [b0 (after0_0 m c), b1 (after0_1 m c), b2 (after0_2 m c), b3 (after0_3 m c), b4 (after0_4 m c), b5 (after0_5 m c)]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  iframe H0 H1 H2 H3 H4 H5
  isplitl [H6]; · iexists _; iexact H6
  isplitl [H7]; · iexists _; iexact H7
  isplitl [H8]; · iexists _; iexact H8
  iintro ⟨H0, H1, H2, H3, H4, H5, H6, H7, H8⟩
  iframe

theorem body_obligation (c : Dev nD) : BodyObligation (dats (F := F) m 0 c) (defs₀ (F := F)) Variants.none () Set.univ :=
  fun t => sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := by
      rw [Pipeline.tailRefs_none spec0 launch0.win.arr_unscoped]
      exact fun ops hs op ho => Pipeline.sub_ucRefs op (of_one hostOps1_sub ops hs op ho))
    (hfresh := of_one (by simp only [List.Forall]; repeat' constructor))
    (hkeep := fun ops hs op ho => (of_one post_keeps ops hs op ho).1)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m ρ)

end Cert.Kernel.Frame

end
-- ==== Proof.KIBody.lean ====
import proofs.«128224_j82489141887173_2_alg».proof.Proof.Gen.KernelIdeal.Skeleton

noncomputable section

namespace Cert.KernelIdeal.Body

open Cert.KernelIdeal Cert.KernelIdeal.Gen Idealize.ShloMosaic

variable {F : FTy → Type} [FloatOps F]

variable (x0 : Vec F S512x1024 .f32) (x1 x2 : Vec F S1024x1024 .bf16) (x3 : Vec F S1x1024 .f32)

def logits : FVec F S512x1024 .f32 := k0_pay4 x0 x1 x2 x3
def path1 : FVec F S512x2 .f32 := k0_pay6 x0 x1 x2 x3
def lp3 : FVec F S512x16 .f32 := k0_pay20 (logits x0 x1 x2 x3)
def rep3 : FVec F S512x16 .f32 := k0_pay21 (logits x0 x1 x2 x3) (path1 x0 x1 x2 x3)
def lp5 : FVec F S512x64 .f32 := k0_pay31 (logits x0 x1 x2 x3)
def path6 : FVec F S512x64 .f32 := k0_pay32 (logits x0 x1 x2 x3) (lp3 x0 x1 x2 x3) (rep3 x0 x1 x2 x3)
def rowIota5 : IVec S64x32 32 := iota .tc S64x32 32 [0] iota_S64x32_d0_w32
def twoColIota5 : IVec S64x32 32 := k0_pay33
def lp7 : FVec F S512x256 .f32 := k0_pay42 (logits x0 x1 x2 x3)
def path8 : FVec F S512x256 .f32 := k0_pay43 (logits x0 x1 x2 x3) (path6 x0 x1 x2 x3)
def sel7 : FVec F S256x128 .bf16 := k0_pay44 (F := F)
def path8n : FVec F S512x256 .bf16 := k0_pay45 (logits x0 x1 x2 x3) (path6 x0 x1 x2 x3)
def zero7 : FVec F S512x128 .f32 := constant S512x128 .f32 0x00000000#32
def path10 : FVec F S512x1024 .f32 := k0_pay55 (logits x0 x1 x2 x3) (path8 x0 x1 x2 x3)
def parent9 : FVec F S512x1024 .f32 := k0_pay56 (logits x0 x1 x2 x3) (path8 x0 x1 x2 x3)

def num : FVec F S8x2046 .f32 :=
  k0_pay1 (k0_pay8 x0 x1 x2 x3)
    (k0_pay13 (logits x0 x1 x2 x3) (path1 x0 x1 x2 x3)) (k0_pay18 (logits x0 x1 x2 x3) (path1 x0 x1 x2 x3))
    (k0_pay24 (lp3 x0 x1 x2 x3) (rep3 x0 x1 x2 x3)) (k0_pay29 (logits x0 x1 x2 x3) (lp3 x0 x1 x2 x3) (rep3 x0 x1 x2 x3))
    (k0_pay35 (lp5 x0 x1 x2 x3) (path6 x0 x1 x2 x3) rowIota5 twoColIota5) (k0_pay40 (logits x0 x1 x2 x3) (path6 x0 x1 x2 x3))
    (k0_pay47 (lp7 x0 x1 x2 x3) sel7 (path8n x0 x1 x2 x3) zero7) (k0_pay52 (logits x0 x1 x2 x3) (path8 x0 x1 x2 x3))
    (k0_pay57 (logits x0 x1 x2 x3) (path8 x0 x1 x2 x3))

def den : FVec F S8x2046 .f32 :=
  k0_pay2 (k0_pay9 x0 x1 x2 x3)
    (k0_pay14 (logits x0 x1 x2 x3) (path1 x0 x1 x2 x3)) (k0_pay19 (logits x0 x1 x2 x3) (path1 x0 x1 x2 x3))
    (k0_pay25 (lp3 x0 x1 x2 x3) (rep3 x0 x1 x2 x3)) (k0_pay30 (logits x0 x1 x2 x3) (lp3 x0 x1 x2 x3) (rep3 x0 x1 x2 x3))
    (k0_pay36 (path6 x0 x1 x2 x3) rowIota5 twoColIota5) (k0_pay41 (logits x0 x1 x2 x3) (path6 x0 x1 x2 x3))
    (k0_pay48 sel7 (path8n x0 x1 x2 x3) zero7) (k0_pay53 (logits x0 x1 x2 x3) (path8 x0 x1 x2 x3))
    (parent9 x0 x1 x2 x3)

def pred (x4 x5 : Vec F S1024x1000 .bf16) : FVec F S512x1000 .f32 :=
  k0_pay3 (path10 x0 x1 x2 x3) x4 x5

end Cert.KernelIdeal.Body

end
-- ==== Proof.KIFrame.lean ====
import proofs.«128224_j82489141887173_2_alg».proof.Proof.Gen.KernelIdeal.Launch
import proofs.«128224_j82489141887173_2_alg».proof.Proof.Gen.KernelIdeal.Skeleton
import proofs.«128224_j82489141887173_2_alg».proof.Proof.Gen.KernelIdeal.Points
import proofs.«128224_j82489141887173_2_alg».proof.Proof.KIBody
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]) (fun b => m (c, b))
abbrev V (c : Dev nD) (b : Ref sig .tc) : Buf (Elt F) ((c : Thread nD τ).loc b) := V0 m c (Proc.devRef .tc b)

theorem of_one {α : Type} {P : α → Prop} {l : List α} (h : l.Forall P) : ∀ ops ∈ [l], ∀ a ∈ ops, P a :=
  fun _ hs a ha => List.forall_iff_forall_mem.mp h a (List.mem_singleton.mp hs ▸ ha)

theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1])) :=
  Pipeline.hmain_around cfgs 0 defs₀ 𝒱₀ m main _ [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩)
    (by simp only [List.Forall]; repeat' constructor) main_chain

-- Every operation writes its own result only: before the region none of them is an argument,
theorem pre_keeps : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22] : List (HloOp τ sig (Elt F))).Forall fun op =>
    Proc.devRef .tc main_arg0 ∉ op.writes ∧ Proc.devRef .tc main_arg1 ∉ op.writes ∧ Proc.devRef .tc main_arg2 ∉ op.writes := by
  simp only [List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals first
    | exact fun w => StableHlo.devRef_ne_of_ne (by revert w; decide)
    | exact StableHlo.devRef_ne_of_ne (by decide)

-- and after it none is an array of the region or one of the last two arguments.
theorem post_keeps : (hostOps1 : List (HloOp τ sig (Elt F))).Forall fun op =>
    (∀ w, Proc.devRef .tc (Pipeline.arrRef spec0 w) ∉ op.writes) ∧ Proc.devRef .tc main_arg1 ∉ op.writes ∧ Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals first
    | exact fun w => StableHlo.devRef_ne_of_ne (by revert w; decide)
    | exact StableHlo.devRef_ne_of_ne (by decide)

theorem V_main_arg0 (c : Dev nD) : V m c main_arg0 = m ((c : Thread nD τ).loc main_arg0) :=
  StableHlo.after_of_forall_not_mem (b := Proc.devRef .tc main_arg0) _ _ fun op ho => (List.forall_iff_forall_mem.mp pre_keeps op ho).1

theorem W_arg (dats : (p : Fin _) → (c : Dev nD) → Dat τ (Elt F) Unit ℕ (UR sig nD τ) ℕ (cfgs p) c) (c : Dev nD) (b : Ref sig .tc) (hw : ∀ w, Pipeline.arrRef spec0 w ≠ b)
    (h : ∀ op ∈ (hostOps1 : List (HloOp τ sig (Elt F))), Proc.devRef .tc b ∉ op.writes) (hV : V m c b = m ((c : Thread nD τ).loc b)) :
    Pipeline.afterTail₀ cfgs dats 0 (V0 m) [hostOps1] c b = m ((c : Thread nD τ).loc b) := by
  unfold Pipeline.afterTail₀
  rw [List.flatten_singleton, StableHlo.after_of_forall_not_mem (b := Proc.devRef .tc b) _ _ h, Pipeline.withArrays_of_ne _ c (V0 m c) _ b hw]
  exact hV

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_arg m dats c main_arg1 (by decide) (fun op ho => (List.forall_iff_forall_mem.mp post_keeps op ho).2.1)
    (StableHlo.after_of_forall_not_mem (b := Proc.devRef .tc main_arg1) _ _ fun op ho => (List.forall_iff_forall_mem.mp pre_keeps op ho).2.1)

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_arg m dats c main_arg2 (by decide) (fun op ho => (List.forall_iff_forall_mem.mp post_keeps op ho).2.2)
    (StableHlo.after_of_forall_not_mem (b := Proc.devRef .tc main_arg2) _ _ fun op ho => (List.forall_iff_forall_mem.mp pre_keeps op ho).2.2)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r6 : Rect S512x1000 := Rect.unit (s := S512x1000) ![0, 0] S512x1000.size inb_S512x1000_S512x1000_0_0
abbrev r7 : Rect S8x2046 := Rect.unit (s := S8x2046) ![0, 0] S8x2046.size inb_S8x2046_S8x2046_0_0

def out0_6 (x0 : Vec F S512x1024 .f32) (x1 : Vec F S1024x1024 .bf16) (x2 : Vec F S1024x1024 .bf16) (x3 : Vec F S1x1024 .f32) (x4 : Vec F S1024x1000 .bf16) (x5 : Vec F S1024x1000 .bf16) : Vec F S512x1000 .f32 :=
  View.canon [⟨r6, Body.pred x0 x1 x2 x3 x4 x5⟩]
def out0_7 (x0 : Vec F S512x1024 .f32) (x1 : Vec F S1024x1024 .bf16) (x2 : Vec F S1024x1024 .bf16) (x3 : Vec F S1x1024 .f32) : Vec F S8x2046 .f32 :=
  View.canon [⟨r7, Body.num x0 x1 x2 x3⟩]
def out0_8 (x0 : Vec F S512x1024 .f32) (x1 : Vec F S1024x1024 .bf16) (x2 : Vec F S1024x1024 .bf16) (x3 : Vec F S1x1024 .f32) : Vec F S8x2046 .f32 :=
  View.canon [⟨r7, Body.den x0 x1 x2 x3⟩]

theorem zero2 : (![0, 0] : Fin 2 → ℕ) = fun _ => 0 := by funext a; fin_cases a <;> rfl

theorem cover_whole {sz : Fin 2 → ℕ} {e : EltTy} (inb : ∀ a, (![0, 0] : Fin 2 → ℕ) a + sz a ≤ sz a) (p0 : Vec F ⟨2, sz⟩ e) (y : Shape.Idx ⟨2, sz⟩) :
    ∃ pc ∈ ([⟨Rect.unit (s := ⟨2, sz⟩) ![0, 0] sz inb, p0⟩] : List (View.Piece (Elt F) ⟨2, sz⟩ e)), y ∈ pc.1.set :=
  ⟨_, List.mem_singleton_self _, View.mem_set_unit_zero zero2 inb y⟩

-- A load through the whole rectangle of a block reads the block.
theorem readAt_whole {sz : Fin 2 → ℕ} {e : EltTy} {κ : Kind} {sp : Space} (v : View sig κ sp ⟨2, sz⟩ e) (f : v.ty.Contents (Elt F))
    (inb : ∀ a, (![0, 0] : Fin 2 → ℕ) a + sz a ≤ sz a) :
    View.readAt (Elt F) v (Rect.unit (s := ⟨2, sz⟩) ![0, 0] sz inb).toLoadRect f = View.read (Elt F) v f :=
  View.ld_unit_zero zero2 inb (View.read (Elt F) v f)

set_option maxHeartbeats 4000000 in
theorem sound_kernel (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1000 .bf16) (harg5 : arg5.IsWhole) (arg6 : Memref sig .tc .vmem S1024x1000 .bf16) (harg6 : arg6.IsWhole) (arg7 : Memref sig .tc .vmem S512x1000 .f32) (harg7 : arg7.IsWhole) (arg8 : Memref sig .tc .vmem S8x2046 .f32) (harg8 : arg8.IsWhole) (arg9 : Memref sig .tc .vmem S8x2046 .f32) (harg9 : arg9.IsWhole)
    (x0 : Vec F S512x1024 .f32) (x1 : Vec F S1024x1024 .bf16) (x2 : Vec F S1024x1024 .bf16) (x3 : Vec F S1x1024 .f32) (x4 : Vec F S1024x1000 .bf16) (x5 : Vec F S1024x1000 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3) ∗ owns (c : Thread nD τ) arg9 fullShare (out0_8 x0 x1 x2 x3)) -∗ K ⟨⟩))
      ⊢ wp frame (wpE (defs₀ (F := F)) Variants.none c none) E (cc0__sdt_kernel i arg1 harg1 arg2 harg2 arg3 harg3 arg4 harg4 arg5 harg5 arg6 harg6 arg7 harg7 arg8 harg8 arg9 harg9) K := by
  simp only [cc0__sdt_kernel_eq_skeleton]; unfold cc0__sdt_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    simp only [readAt_whole]
    exact View.read_writes_eq_canon _ _ _ (cover_whole _ _)
  isplitl [H7]
  · iexists _; isplitr
    swap; · iexact H7
    ipureintro
    try dsimp only
    simp only [readAt_whole]
    exact View.read_writes_eq_canon _ _ _ (cover_whole _ _)
  iexists _; isplitr
  swap; · iexact H8
  ipureintro
  try dsimp only
  simp only [readAt_whole]
  exact View.read_writes_eq_canon _ _ _ (cover_whole _ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t)
    | ⟨8, _⟩ => out0_8 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) := by dsimp only [dats]
theorem after0_8 (c : Dev nD) (t : Fin cfg0.N) : (dats m 0 c).after 8 t = out0_8 (iblk m c 0 t) (iblk m c 1 t) (iblk m c 2 t) (iblk m c 3 t) := by dsimp only [dats]

theorem before0 {c : Dev nD} (dat : Dat τ (Elt F) Unit ℕ (UR sig nD τ) ℕ cfg0 c) (hA : ∀ w, dat.A w = V m c (Pipeline.arrRef spec0 w)) (t : Fin cfg0.N) :
    ((∀ t, dat.after 0 t = iblk m c 0 t) → ∀ d, dat.before 0 t d = iblk m c 0 t) ∧
    ((∀ t, dat.after 1 t = iblk m c 1 t) → ∀ d, dat.before 1 t d = iblk m c 1 t) ∧
    ((∀ t, dat.after 2 t = iblk m c 2 t) → ∀ d, dat.before 2 t d = iblk m c 2 t) ∧
    ((∀ t, dat.after 3 t = iblk m c 3 t) → ∀ d, dat.before 3 t d = iblk m c 3 t) ∧
    ((∀ t, dat.after 4 t = iblk m c 4 t) → ∀ d, dat.before 4 t d = iblk m c 4 t) ∧
    ((∀ t, dat.after 5 t = iblk m c 5 t) → ∀ d, dat.before 5 t d = iblk m c 5 t) := by
  refine ⟨?_, ?_, ?_, ?_, ?_, ?_⟩ <;> exact fun hafter d =>
    (dat.before_in_eq_fetched _ rfl (fun _ => rfl) (fun _ _ _ => rfl) (fun t => by rw [hafter]; unfold Dat.blockOf iblk; rw [hA]; try rfl) t d).trans
      (by unfold Dat.fetched Dat.blockOf iblk; rw [hA]; try rfl)

def pre (c : Dev nD) (t : Fin cfg0.N) (w : Fin 9) : sProp 𝕄 :=
  iprop(∃ d, owns (c : Thread nD τ) ((cfg0.win w).stage (cfg0.slots t w)) fullShare ((dats m 0 c).before w t d))

def post (c : Dev nD) (t : Fin cfg0.N) (w : Fin 9) : sProp 𝕄 :=
  owns (c : Thread nD τ) ((cfg0.win w).stage (cfg0.slots t w)) fullShare ((dats m 0 c).after w t)

theorem sound_body (c : Dev nD) (t : Fin cfg0.N) :
    iprop((dats m 0 c).Φ t.castSucc ∗ (dats m 0 c).owesAt () t.castSucc ∗ bigSep Finset.univ (pre m c t))
      ⊢ wp frame (wpE (defs₀ (F := F)) Variants.none c none) Set.univ (bodyAt0 t) fun _ =>
        iprop((dats m 0 c).Φ t.succ ∗ (dats m 0 c).owesAt () t.succ ∗ bigSep Finset.univ (post m c t)) := by
  obtain ⟨b0, b1, b2, b3, b4, b5⟩ := before0 m (dats m 0 c) (A_eq m c) t
  rw [bigSep_W0, bigSep_W0]
  unfold pre post bodyAt0
  simp only [b0 (after0_0 m c), b1 (after0_1 m c), b2 (after0_2 m c), b3 (after0_3 m c), b4 (after0_4 m c), b5 (after0_5 m c)]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  iframe H0 H1 H2 H3 H4 H5
  isplitl [H6]; · iexists _; iexact H6
  isplitl [H7]; · iexists _; iexact H7
  isplitl [H8]; · iexists _; iexact H8
  iintro ⟨H0, H1, H2, H3, H4, H5, H6, H7, H8⟩
  iframe

theorem body_obligation (c : Dev nD) : BodyObligation (dats (F := F) m 0 c) (defs₀ (F := F)) Variants.none () Set.univ :=
  fun t => sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := by
      rw [Pipeline.tailRefs_none spec0 launch0.win.arr_unscoped]
      exact fun ops hs op ho => Pipeline.sub_ucRefs op (of_one hostOps1_sub ops hs op ho))
    (hfresh := of_one (by simp only [List.Forall]; repeat' constructor))
    (hkeep := fun ops hs op ho => (of_one post_keeps ops hs op ho).1)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m ρ)

end Cert.KernelIdeal.Frame

end
-- ==== Proof.RefRun.lean ====
import proofs.«128224_j82489141887173_2_alg».proof.Defs
import proofs.«128224_j82489141887173_2_alg».proof.Proof.Gen.Kernel
import proofs.«128224_j82489141887173_2_alg».proof.Proof.Gen.KernelIdeal
import proofs.«128224_j82489141887173_2_alg».proof.Proof.Gen.ReferenceIdeal
import proofs.«128224_j82489141887173_2_alg».proof.Proof.Gen.Pre_finite_inputs
import proofs.«128224_j82489141887173_2_alg».proof.Proof.Gen.ReferenceIdeal.Run

noncomputable section

open Idealize.ShloMosaic Idealize.ShloMosaic.TcCoe Idealize.SL.Sem

namespace Cert.Proof.RefRun

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal :=
  ⟨IdealRules.truncf_extf.statement _ .f32 .bf16, IdealRules.truncf_extf.statement _ .f32 .bf16⟩

end Cert.Proof.RefRun

end
-- ==== Proof.KIArrays.lean ====
import proofs.«128224_j82489141887173_2_alg».proof.Proof.Gen.KernelIdeal.Launch
import proofs.«128224_j82489141887173_2_alg».proof.Proof.Gen.KernelIdeal.Points
import Idealize.ShloMosaic.Lib.Pipeline.Value
import Idealize.ShloMosaic.Lib.Pipeline.FrameBody
import Idealize.ShloMosaic.Lib.ValueIdx

noncomputable section

namespace Cert.KernelIdeal.Arrays

open Cert.KernelIdeal Cert.KernelIdeal.Gen Idealize.ShloMosaic Idealize.ShloMosaic.TcCoe Idealize.ShloMosaic.ValueIdx
open Idealize.ShloMosaic.Pipeline (Dat)

variable {F : FTy → Type} [FloatOps F]

theorem pt_lt (t : Fin cfg0.N) : t.val < 32 := lt_of_lt_of_eq t.isLt N_0

theorem index_facts : ∀ t : Fin cfg0.N, win0_0.index t (0 : Fin 2) = t.val ∧ win0_6.index t (0 : Fin 2) = t.val
    ∧ win0_7.index t (0 : Fin 2) = t.val ∧ win0_8.index t (0 : Fin 2) = t.val :=
  (by decide +kernel : ∀ t : Fin grid0.N, _)

-- An element of block n along one axis and block 0 along another sits n block lengths further along the first, in place along the second.
theorem emb_rows {G : Pipeline.Grid} (w : Pipeline.Window sig G) (t : Fin G.N) (a0 a1 : Fin w.shape.rank) (n : ℕ)
    (h0 : w.index t a0 = n) (h1 : w.index t a1 = 0) (y : (w.xblock (G.coords t)).Idx) :
    ((w.rect t).emb y a0 : ℕ) = n * w.size a0 + y a0 ∧ ((w.rect t).emb y a1 : ℕ) = y a1 :=
  ⟨h0 ▸ w.rect_emb_val t y a0, w.rect_emb_val_of_index_zero t a1 h1 y⟩

-- An element of block 0 along every axis sits in place.
theorem emb_whole {G : Pipeline.Grid} (w : Pipeline.Window sig G) (t : Fin G.N) (h : ∀ a, w.index t a = 0)
    (y : (w.xblock (G.coords t)).Idx) (k : w.shape.Idx) (hk : ∀ a, (k a).val = (y a).val) : (w.rect t).emb y = k :=
  funext fun a => Fin.ext ((w.rect_emb_val_of_index_zero t a (h a) y).trans (hk a).symm)

theorem blk0_read (A : Vec F S16384x1024 .f32) (t : Fin cfg0.N) (r : Fin 512) (k : Fin 1024) :
    (((cfg0.win 0).blk t).view.read (Elt F) A : Vec F S512x1024 .f32) (ix2 r k)
      = A (ix2 ⟨512 * t.val + r.val, by have := pt_lt t; have := r.isLt; omega⟩ k) := by
  have e := emb_rows win0_0 t (0 : Fin 2) (1 : Fin 2) _ (index_facts t).1 rfl (ix2 r k)
  exact congrArg A (Shape.idx_ext₂ (e.1.trans (congrArg (· + r.val) (Nat.mul_comm _ 512))) e.2)

theorem blk1_read (A : Vec F S1024x1024 .bf16) (t : Fin cfg0.N) :
    (((cfg0.win 1).blk t).view.read (Elt F) A : Vec F S1024x1024 .bf16) = A :=
  funext fun j => congrArg A (emb_whole win0_1 t (Fin.forall_fin_two.2 ⟨rfl, rfl⟩) j j fun _ => rfl)

theorem blk2_read (A : Vec F S1024x1024 .bf16) (t : Fin cfg0.N) :
    (((cfg0.win 2).blk t).view.read (Elt F) A : Vec F S1024x1024 .bf16) = A :=
  funext fun j => congrArg A (emb_whole win0_2 t (Fin.forall_fin_two.2 ⟨rfl, rfl⟩) j j fun _ => rfl)

theorem blk3_read (A : Vec F S1x1024 .f32) (t : Fin cfg0.N) :
    (((cfg0.win 3).blk t).view.read (Elt F) A : Vec F S1x1024 .f32) = A :=
  funext fun j => congrArg A (emb_whole win0_3 t (Fin.forall_fin_two.2 ⟨rfl, rfl⟩) j j fun _ => rfl)

theorem blk4_read (A : Vec F S1024x1000 .bf16) (t : Fin cfg0.N) :
    (((cfg0.win 4).blk t).view.read (Elt F) A : Vec F S1024x1000 .bf16) = A :=
  funext fun j => congrArg A (emb_whole win0_4 t (Fin.forall_fin_two.2 ⟨rfl, rfl⟩) j j fun _ => rfl)

theorem blk5_read (A : Vec F S1024x1000 .bf16) (t : Fin cfg0.N) :
    (((cfg0.win 5).blk t).view.read (Elt F) A : Vec F S1024x1000 .bf16) = A :=
  funext fun j => congrArg A (emb_whole win0_5 t (Fin.forall_fin_two.2 ⟨rfl, rfl⟩) j j fun _ => rfl)

-- 32 blocks of R rows put one under another: row b is row b % R of block b / R.
def stack {R C : Nat} (hR : 0 < R) (blocks : Fin cfg0.N → Vec F ⟨2, ![R, C]⟩ .f32) : Vec F ⟨2, ![R * 32, C]⟩ .f32 :=
  fun i => blocks ⟨(i 0).val / R, lt_of_lt_of_eq (Nat.div_lt_of_lt_mul (i 0).isLt) N_0.symm⟩
    (ix2 ⟨(i 0).val % R, Nat.mod_lt _ hR⟩ (i 1))

theorem stack_at {R C : Nat} (hR : 0 < R) (blocks : Fin cfg0.N → Vec F ⟨2, ![R, C]⟩ .f32) (t : Fin cfg0.N)
    (y : (⟨2, ![R, C]⟩ : Shape).Idx) (i : (⟨2, ![R * 32, C]⟩ : Shape).Idx)
    (h : (i 0).val = t.val * R + (y 0).val ∧ (i 1).val = (y 1).val) : stack hR blocks i = blocks t y := by
  have hr : (y 0).val < R := (y 0).isLt
  have e0 : (i 0).val / R = t.val := by
    rw [h.1, Nat.add_comm, Nat.add_mul_div_right _ _ hR, Nat.div_eq_of_lt hr, Nat.zero_add]
  have e1 : (i 0).val % R = (y 0).val := by
    rw [h.1, Nat.add_comm, Nat.add_mul_mod_self_right, Nat.mod_eq_of_lt hr]
  unfold stack
  congr 1
  · exact Fin.ext e0
  · exact Shape.idx_ext₂ e1 h.2

variable {c : Dev nD} (dat : Dat τ (Elt F) Unit ℕ (UR sig nD τ) ℕ cfg0 c)

theorem flushed6_eq (o6 : Fin cfg0.N → Vec F S512x1000 .f32) (h : ∀ t, dat.after 6 t = o6 t) (t : Fin cfg0.N) :
    dat.flushed 6 t = ((cfg0.win 6).blk t).view.read (Elt F) (stack (R := 512) (by decide) o6 : Vec F S16384x1000 .f32) :=
  funext fun j => (congrFun (h t) _).trans
    (stack_at (by decide) o6 t _ _ (emb_rows win0_6 t (0 : Fin 2) (1 : Fin 2) _ (index_facts t).2.1 rfl j)).symm

theorem arr6_apply (o6 : Fin cfg0.N → Vec F S512x1000 .f32) (h : ∀ t, dat.after 6 t = o6 t) (b : Fin 16384) (o : Fin 1000) :
    (dat.arrAt 6 cfg0.N : Vec F S16384x1000 .f32) (ix2 b o)
      = o6 ⟨b.val / 512, lt_of_lt_of_eq (by have := b.isLt; omega) N_0.symm⟩ (ix2 ⟨b.val % 512, Nat.mod_lt _ (by decide)⟩ o) := by
  let t : Fin cfg0.N := ⟨b.val / 512, lt_of_lt_of_eq (by have := b.isLt; omega) N_0.symm⟩
  let y : S512x1000.Idx := ix2 ⟨b.val % 512, Nat.mod_lt _ (by decide)⟩ o
  have e := emb_rows win0_6 t (0 : Fin 2) (1 : Fin 2) _ (index_facts t).2.1 rfl y
  have hi : ((cfg0.win 6).blk t).view.emb y = ix2 b o := Shape.idx_ext₂ (e.1.trans (Nat.div_add_mod' b.val 512)) e.2
  exact dat.arrAt_apply_of_mem 6 _ (fun t _ => flushed6_eq dat o6 h t) cfg0.N t _ t.isLt (flush0_6 t)
    (hi ▸ View.emb_mem_set _ y)

theorem flushed7_eq (o7 : Fin cfg0.N → Vec F S8x2046 .f32) (h : ∀ t, dat.after 7 t = o7 t) (t : Fin cfg0.N) :
    dat.flushed 7 t = ((cfg0.win 7).blk t).view.read (Elt F) (stack (R := 8) (by decide) o7 : Vec F S256x2046 .f32) :=
  funext fun j => (congrFun (h t) _).trans
    (stack_at (by decide) o7 t _ _ (emb_rows win0_7 t (0 : Fin 2) (1 : Fin 2) _ (index_facts t).2.2.1 rfl j)).symm

theorem arr7_apply (o7 : Fin cfg0.N → Vec F S8x2046 .f32) (h : ∀ t, dat.after 7 t = o7 t) (q : Fin 256) (col : Fin 2046) :
    (dat.arrAt 7 cfg0.N : Vec F S256x2046 .f32) (ix2 q col)
      = o7 ⟨q.val / 8, lt_of_lt_of_eq (by have := q.isLt; omega) N_0.symm⟩ (ix2 ⟨q.val % 8, Nat.mod_lt _ (by decide)⟩ col) := by
  let t : Fin cfg0.N := ⟨q.val / 8, lt_of_lt_of_eq (by have := q.isLt; omega) N_0.symm⟩
  let y : S8x2046.Idx := ix2 ⟨q.val % 8, Nat.mod_lt _ (by decide)⟩ col
  have e := emb_rows win0_7 t (0 : Fin 2) (1 : Fin 2) _ (index_facts t).2.2.1 rfl y
  have hi : ((cfg0.win 7).blk t).view.emb y = ix2 q col := Shape.idx_ext₂ (e.1.trans (Nat.div_add_mod' q.val 8)) e.2
  exact dat.arrAt_apply_of_mem 7 _ (fun t _ => flushed7_eq dat o7 h t) cfg0.N t _ t.isLt (flush0_7 t)
    (hi ▸ View.emb_mem_set _ y)

theorem flushed8_eq (o8 : Fin cfg0.N → Vec F S8x2046 .f32) (h : ∀ t, dat.after 8 t = o8 t) (t : Fin cfg0.N) :
    dat.flushed 8 t = ((cfg0.win 8).blk t).view.read (Elt F) (stack (R := 8) (by decide) o8 : Vec F S256x2046 .f32) :=
  funext fun j => (congrFun (h t) _).trans
    (stack_at (by decide) o8 t _ _ (emb_rows win0_8 t (0 : Fin 2) (1 : Fin 2) _ (index_facts t).2.2.2 rfl j)).symm

theorem arr8_apply (o8 : Fin cfg0.N → Vec F S8x2046 .f32) (h : ∀ t, dat.after 8 t = o8 t) (q : Fin 256) (col : Fin 2046) :
    (dat.arrAt 8 cfg0.N : Vec F S256x2046 .f32) (ix2 q col)
      = o8 ⟨q.val / 8, lt_of_lt_of_eq (by have := q.isLt; omega) N_0.symm⟩ (ix2 ⟨q.val % 8, Nat.mod_lt _ (by decide)⟩ col) := by
  let t : Fin cfg0.N := ⟨q.val / 8, lt_of_lt_of_eq (by have := q.isLt; omega) N_0.symm⟩
  let y : S8x2046.Idx := ix2 ⟨q.val % 8, Nat.mod_lt _ (by decide)⟩ col
  have e := emb_rows win0_8 t (0 : Fin 2) (1 : Fin 2) _ (index_facts t).2.2.2 rfl y
  have hi : ((cfg0.win 8).blk t).view.emb y = ix2 q col := Shape.idx_ext₂ (e.1.trans (Nat.div_add_mod' q.val 8)) e.2
  exact dat.arrAt_apply_of_mem 8 _ (fun t _ => flushed8_eq dat o8 h t) cfg0.N t _ t.isLt (flush0_8 t)
    (hi ▸ View.emb_mem_set _ y)

end Cert.KernelIdeal.Arrays

end
-- ==== Proof.Spec.lean ====
import Mathlib.Data.EReal.Basic
import Mathlib.Data.EReal.Operations
import Mathlib.Algebra.BigOperators.Fin
import Mathlib.Tactic.Ring
import Mathlib.Tactic.Linarith

noncomputable section

namespace SDT

def brev : ℕ → ℕ → ℕ
  | 0, _ => 0
  | d + 1, j => 2 * brev d (j % 2 ^ d) + j / 2 ^ d

def rt (c1 : EReal) (lg : ℕ → EReal) (node s : ℕ) : EReal := if s = 0 then lg node else c1 - lg node

def pR (c1 : EReal) (lg : ℕ → EReal) : ℕ → ℕ → EReal
  | 0, _ => c1
  | d + 1, j => pR c1 lg d (j / 2) * rt c1 lg (2 ^ d - 1 + j / 2) (j % 2)

def lpR (c1 : EReal) (lg : ℕ → EReal) (d j : ℕ) : EReal := rt c1 lg (2 ^ d - 1 + j / 2) (j % 2)

def parR (c1 : EReal) (lg : ℕ → EReal) (d j : ℕ) : EReal := pR c1 lg (d + 1) (j / 2)

def pK (c1 : EReal) (lg : ℕ → EReal) : ℕ → ℕ → EReal
  | 0, _ => c1
  | d + 1, j => pK c1 lg d (j % 2 ^ d) * rt c1 lg (2 ^ d - 1 + j % 2 ^ d) (j / 2 ^ d)

def lpK (c1 : EReal) (lg : ℕ → EReal) (d j : ℕ) : EReal := rt c1 lg (2 ^ d - 1 + j % 2 ^ d) (j / 2 ^ d)

def parK (c1 : EReal) (lg : ℕ → EReal) (d j : ℕ) : EReal := pK c1 lg (d + 1) (2 * (j % 2 ^ d))

theorem brev_lt : ∀ (d j : ℕ), j < 2 ^ d → brev d j < 2 ^ d
  | 0, _, _ => by simp [brev]
  | d + 1, j, hj => by
    have h1 : j % 2 ^ d < 2 ^ d := Nat.mod_lt _ (by positivity)
    have h2 := brev_lt d _ h1
    have h3 : j / 2 ^ d < 2 := by
      rw [Nat.div_lt_iff_lt_mul (by positivity)]; rw [pow_succ] at hj; linarith
    simp only [brev]; rw [pow_succ]; omega

theorem brev_succ_split (d i s : ℕ) (hi : i < 2 ^ d) (hs : s < 2) : brev (d + 1) (i + s * 2 ^ d) = 2 * brev d i + s := by
  have hp : 0 < 2 ^ d := by positivity
  simp only [brev]
  rw [Nat.add_mul_mod_self_right, Nat.mod_eq_of_lt hi, Nat.add_mul_div_right _ _ hp, Nat.div_eq_of_lt hi, zero_add]

theorem brev_double : ∀ (d i : ℕ), i < 2 ^ d → brev (d + 1) (2 * i) = brev d i
  | 0, i, hi => by
    have : i = 0 := by simpa using hi
    subst this; simp [brev]
  | d + 1, i, hi => by
    have hp : 0 < 2 ^ d := by positivity

    have hi' : i % 2 ^ d < 2 ^ d := Nat.mod_lt _ hp
    have hs : i / 2 ^ d < 2 := by
      rw [Nat.div_lt_iff_lt_mul hp]; rw [pow_succ] at hi; linarith
    have hdecomp : i = i % 2 ^ d + (i / 2 ^ d) * 2 ^ d := by
      have := Nat.mod_add_div i (2 ^ d); rw [mul_comm] at this; omega
    have h2i : 2 * i = 2 * (i % 2 ^ d) + (i / 2 ^ d) * 2 ^ (d + 1) := by
      rw [pow_succ]; nlinarith [hdecomp]
    have h2lt : 2 * (i % 2 ^ d) < 2 ^ (d + 1) := by rw [pow_succ]; omega
    rw [h2i, brev_succ_split (d + 1) _ _ h2lt hs, brev_double d _ hi']
    conv_rhs => rw [hdecomp, brev_succ_split d _ _ hi' hs]

theorem two_mul_add_div (a s : ℕ) (hs : s < 2) : (2 * a + s) / 2 = a := by omega
theorem two_mul_add_mod (a s : ℕ) (hs : s < 2) : (2 * a + s) % 2 = s := by omega

theorem div_pow_lt_two (d j : ℕ) (hj : j < 2 ^ (d + 1)) : j / 2 ^ d < 2 := by
  have hp : 0 < 2 ^ d := by positivity
  rw [Nat.div_lt_iff_lt_mul hp]; rw [pow_succ] at hj; linarith

theorem pK_eq_pR (c1 : EReal) (lgK lgR : ℕ → EReal) (D : ℕ)
    (h : ∀ d, d < D → ∀ i, i < 2 ^ d → lgK (2 ^ d - 1 + i) = lgR (2 ^ d - 1 + brev d i)) :
    ∀ (d j : ℕ), d ≤ D → j < 2 ^ d → pK c1 lgK d j = pR c1 lgR d (brev d j)
  | 0, _, _, _ => rfl
  | d + 1, j, hd, hj => by
    have hp : 0 < 2 ^ d := by positivity
    have hi : j % 2 ^ d < 2 ^ d := Nat.mod_lt _ hp
    have hs : j / 2 ^ d < 2 := div_pow_lt_two d j hj
    have e1 : (2 * brev d (j % 2 ^ d) + j / 2 ^ d) / 2 = brev d (j % 2 ^ d) := two_mul_add_div _ _ hs
    have e2 : (2 * brev d (j % 2 ^ d) + j / 2 ^ d) % 2 = j / 2 ^ d := two_mul_add_mod _ _ hs
    simp only [pK, pR, brev]
    rw [e1, e2, pK_eq_pR c1 lgK lgR D h d _ (by omega) hi]
    simp only [rt, h d (by omega) _ hi]

theorem lpK_eq_lpR (c1 : EReal) (lgK lgR : ℕ → EReal) (D : ℕ)
    (h : ∀ d, d < D → ∀ i, i < 2 ^ d → lgK (2 ^ d - 1 + i) = lgR (2 ^ d - 1 + brev d i))
    (d j : ℕ) (hd : d < D) (hj : j < 2 ^ (d + 1)) : lpK c1 lgK d j = lpR c1 lgR d (brev (d + 1) j) := by
  have hp : 0 < 2 ^ d := by positivity
  have hi : j % 2 ^ d < 2 ^ d := Nat.mod_lt _ hp
  have hs : j / 2 ^ d < 2 := div_pow_lt_two d j hj
  have e1 : (2 * brev d (j % 2 ^ d) + j / 2 ^ d) / 2 = brev d (j % 2 ^ d) := two_mul_add_div _ _ hs
  have e2 : (2 * brev d (j % 2 ^ d) + j / 2 ^ d) % 2 = j / 2 ^ d := two_mul_add_mod _ _ hs
  simp only [lpK, lpR, brev]
  rw [e1, e2]
  simp only [rt, h d hd _ hi]

theorem parK_eq_parR (c1 : EReal) (lgK lgR : ℕ → EReal) (D : ℕ)
    (h : ∀ d, d < D → ∀ i, i < 2 ^ d → lgK (2 ^ d - 1 + i) = lgR (2 ^ d - 1 + brev d i))
    (d j : ℕ) (hd : d < D) (hj : j < 2 ^ (d + 1)) : parK c1 lgK d j = parR c1 lgR d (brev (d + 1) j) := by
  have hp : 0 < 2 ^ d := by positivity
  have hi : j % 2 ^ d < 2 ^ d := Nat.mod_lt _ hp
  have hs : j / 2 ^ d < 2 := div_pow_lt_two d j hj
  have e1 : (2 * brev d (j % 2 ^ d) + j / 2 ^ d) / 2 = brev d (j % 2 ^ d) := two_mul_add_div _ _ hs
  have h2 : 2 * (j % 2 ^ d) < 2 ^ (d + 1) := by rw [pow_succ]; omega
  unfold parK parR
  rw [pK_eq_pR c1 lgK lgR D h (d + 1) _ (by omega) h2, brev_double d _ hi]
  congr 1
  simp only [brev]; exact e1.symm

theorem brev_low : ∀ (d b s : ℕ), b < 2 ^ d → s < 2 → brev (d + 1) (2 * b + s) = brev d b + s * 2 ^ d
  | 0, b, s, hb, hs => by
    have : b = 0 := by simpa using hb
    subst this; simp [brev]
  | d + 1, b, s, hb, hs => by
    have hp : 0 < 2 ^ d := by positivity
    have hb' : b % 2 ^ d < 2 ^ d := Nat.mod_lt _ hp
    have hu : b / 2 ^ d < 2 := div_pow_lt_two d b hb
    have hdecomp : b = b % 2 ^ d + (b / 2 ^ d) * 2 ^ d := by
      have := Nat.mod_add_div b (2 ^ d); rw [mul_comm] at this; omega
    have h2 : 2 * b + s = (2 * (b % 2 ^ d) + s) + (b / 2 ^ d) * 2 ^ (d + 1) := by
      rw [pow_succ]; nlinarith [hdecomp]
    have hlt : 2 * (b % 2 ^ d) + s < 2 ^ (d + 1) := by rw [pow_succ]; omega
    rw [h2, brev_succ_split (d + 1) _ _ hlt hu, brev_low d _ _ hb' hs]
    conv_rhs => rw [hdecomp, brev_succ_split d _ _ hb' hu]
    rw [pow_succ]; ring

theorem brev_brev : ∀ (d j : ℕ), j < 2 ^ d → brev d (brev d j) = j
  | 0, j, hj => by
    have : j = 0 := by simpa using hj
    subst this; rfl
  | d + 1, j, hj => by
    have hp : 0 < 2 ^ d := by positivity
    have hi : j % 2 ^ d < 2 ^ d := Nat.mod_lt _ hp
    have hs : j / 2 ^ d < 2 := div_pow_lt_two d j hj
    have hb := brev_lt d _ hi
    have hdecomp : j = j % 2 ^ d + (j / 2 ^ d) * 2 ^ d := by
      have := Nat.mod_add_div j (2 ^ d); rw [mul_comm] at this; omega
    have e : brev (d + 1) j = 2 * brev d (j % 2 ^ d) + j / 2 ^ d := rfl
    rw [e, brev_low d _ _ hb hs, brev_brev d _ hi]
    exact hdecomp.symm

def brevEquiv (d : ℕ) : Fin (2 ^ d) ≃ Fin (2 ^ d) where
  toFun j := ⟨brev d j.val, brev_lt d j.val j.isLt⟩
  invFun j := ⟨brev d j.val, brev_lt d j.val j.isLt⟩
  left_inv j := Fin.ext (brev_brev d j.val j.isLt)
  right_inv j := Fin.ext (brev_brev d j.val j.isLt)

@[simp] theorem brevEquiv_val (d : ℕ) (j : Fin (2 ^ d)) : ((brevEquiv d j : Fin (2 ^ d)) : ℕ) = brev d j.val := rfl

theorem sum_brev {M : Type*} [AddCommMonoid M] (d : ℕ) (f : Fin (2 ^ d) → M) :
    ∑ j : Fin (2 ^ d), f ⟨brev d j.val, brev_lt d j.val j.isLt⟩ = ∑ j : Fin (2 ^ d), f j :=
  Equiv.sum_comp (brevEquiv d) f

def IsFin (x : EReal) : Prop := ∃ r : ℝ, x = (r : EReal)

theorem IsFin.coe (r : ℝ) : IsFin (r : EReal) := ⟨r, rfl⟩
theorem IsFin.zero : IsFin 0 := ⟨0, by simp⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.sub_self {x : EReal} (hx : IsFin x) : x - x = 0 := by
  obtain ⟨a, rfl⟩ := hx; rw [← EReal.coe_sub, _root_.sub_self, EReal.coe_zero]
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

theorem IsFin.rt {c1 : EReal} {lg : ℕ → EReal} (hc : IsFin c1) (node s : ℕ) (h : IsFin (lg node)) : IsFin (rt c1 lg node s) := by
  unfold SDT.rt; split
  · exact h
  · exact hc.sub h

theorem IsFin.pK {c1 : EReal} {lg : ℕ → EReal} (hc : IsFin c1) (D : ℕ) (h : ∀ node, node < 2 ^ D - 1 → IsFin (lg node)) :
    ∀ (d j : ℕ), d ≤ D → j < 2 ^ d → IsFin (SDT.pK c1 lg d j)
  | 0, _, _, _ => hc
  | d + 1, j, hd, hj => by
    have hp : 0 < 2 ^ d := by positivity
    have hi : j % 2 ^ d < 2 ^ d := Nat.mod_lt _ hp
    have hnode : 2 ^ d - 1 + j % 2 ^ d < 2 ^ D - 1 := by
      have h1 : 2 ^ (d + 1) ≤ 2 ^ D := Nat.pow_le_pow_right (by norm_num) hd
      rw [pow_succ] at h1; omega
    simp only [SDT.pK]
    exact (IsFin.pK hc D h d _ (by omega) hi).mul (IsFin.rt hc _ _ (h _ hnode))

end SDT

end
-- ==== Proof.Rows.lean ====
import proofs.«128224_j82489141887173_2_alg».proof.Proof.Spec
import Idealize.ShloMosaic.Lib.ValueIdx

noncomputable section

namespace SDT

open Idealize.ShloMosaic Idealize.ShloMosaic.ValueIdx

def c1 : EReal := Ideal.ofBits .f32 0x3F800000#32

def rowOf {A B : ℕ} (v : (⟨2, ![A, B]⟩ : Shape).Idx → EReal) (r : Fin A) (q : ℕ) : EReal :=
  if h : q < B then v (ix2 r ⟨q, h⟩) else 0

theorem rowOf_lt {A B : ℕ} (v : (⟨2, ![A, B]⟩ : Shape).Idx → EReal) (r : Fin A) (q : ℕ) (h : q < B) :
    rowOf v r q = v (ix2 r ⟨q, h⟩) := dif_pos h

theorem rowOf_val {A B : ℕ} (v : (⟨2, ![A, B]⟩ : Shape).Idx → EReal) (r : Fin A) (q : Fin B) :
    rowOf v r q.val = v (ix2 r q) := by rw [rowOf_lt v r q.val q.isLt]

end SDT

end
-- ==== Proof.KIPrefixL.lean ====
import proofs.«128224_j82489141887173_2_alg».proof.Proof.Gen.KernelIdeal.Launch
import proofs.«128224_j82489141887173_2_alg».proof.Proof.Rows
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout

noncomputable section

namespace Cert.KernelIdeal.PrefixL

open Cert.KernelIdeal Cert.KernelIdeal.Gen Idealize.ShloMosaic Idealize.ShloMosaic.ValueIdx

abbrev pre (W : Valuation τ sig (Elt Ideal)) : Valuation τ sig (Elt Ideal) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22]) W

open StableHlo Idealize.ShloMosaic.StableHlo.Predicate

section Take

def idxCol (tbl : IVec S1024 32) : IVec S1024x1 32 :=
  broadcastInDim S1024x1 ![0] bcast_S1024_S1024x1_0
    (select (cmpi .slt tbl (broadcastInDim S1024 ![] bcast_S_S1024 (constantI S_ 32 0#32)))
      (addi tbl (broadcastInDim S1024 ![] bcast_S_S1024 (constantI S_ 32 1024#32))) tbl)

def mask (tbl : IVec S1024 32) : IVec S1024 1 :=
  Host.reduce IntOp.andi
    (andi (cmpi .sge (idxCol tbl) (broadcastInDim S1024x1 ![] bcast_S_S1024x1 (constantI S_ 32 0#32)))
      (cmpi .sle (idxCol tbl) (broadcastInDim S1024x1 ![0, 1] bcast_S1x1_S1024x1_0_1
        (broadcastInDim S1x1 ![1] bcast_S1_S1x1_1 (constantI S1 32 1023#32)))))
    (constantI S_ 1 1#1) reducesTo_S1024x1_S1024_d1 h_S_

def takeCols (x : FVec Ideal S1000x1024 .f32) (tbl : IVec S1024 32) : FVec Ideal S1000x1024 .f32 :=
  select (broadcastInDim S1000x1024 ![1] bcast_S1024_S1000x1024_1 (mask tbl))
    (Host.gather gather_S1000x1024_S1024x1_S1000x1024_0_1_n_n_1_1_10001 x (idxCol tbl))
    (broadcastInDim S1000x1024 ![] bcast_S_S1000x1024 (constant (F := Ideal) S_ .f32 0x7FC00000#32))

variable (tbl : IVec S1024 32)

-- An entry below the axis length is not negative, so moving negative entries up by the axis length leaves it.
theorem idxCol_apply (p : Fin 1024) (r : Fin 1) (h : (tbl (ix1 p)).toNat < 1024) : idxCol tbl (ix2 p r) = tbl (ix1 p) := by
  have hz : cmpi .slt tbl (broadcastInDim S1024 ![] bcast_S_S1024 (constantI S_ 32 0#32)) (ix1 p) = 0#1 := by
    apply eq_zero_of_ne_one
    show ¬ IntOp.cmpi .slt (tbl (ix1 p)) 0#32 = 1#1
    rw [slt_iff_toNat (by omega) (by decide)]
    simp
  unfold idxCol
  refine (broadcastInDim_apply _ _ _ _ (ix1 p) fun a => match a with | ⟨0, _⟩ => rfl).trans ?_
  rw [select_apply, hz, select_zero]

-- A conjunction over entries that are all set, starting from a set bit, is set.
theorem reduce_andi_one {s t u : Shape} {axes : List (Fin s.rank)} (x : IVec s 1) (init : IVec u 1) (hr : s.ReducesTo axes t)
    (hu : 0 < u.numel) (hinit : init (Shape.Idx.first hu) = 1#1) (hx : ∀ i, x i = 1#1) (j : t.Idx) :
    Host.reduce IntOp.andi x init hr hu j = 1#1 := by
  rw [Host.reduce_eq_foldl, hinit]
  generalize ((List.finRange s.numel).map s.rowMajor.symm).filter (fun i => hr.drop i = j) = l
  induction l with
  | nil => rfl
  | cons a l ih => rw [List.foldl_cons, hx a]; exact ih

-- Every entry lies in [0, 1023], so the range test holds at every entry, and so does its conjunction.
theorem mask_apply (h : ∀ p : Fin 1024, (tbl (ix1 p)).toNat < 1024) (k : S1024.Idx) : mask tbl k = 1#1 := by
  refine reduce_andi_one _ _ _ _ rfl (fun i => ?_) k
  obtain ⟨p, r, rfl⟩ : ∃ (p : Fin 1024) (r : Fin 1), i = ix2 p r := ⟨i 0, i 1, eq_ix2 i⟩
  have hp := h p
  show IntOp.andi (IntOp.cmpi .sge (idxCol tbl (ix2 p r)) 0#32) (IntOp.cmpi .sle (idxCol tbl (ix2 p r)) 1023#32) = 1#1
  rw [idxCol_apply tbl p r hp, (sge_iff_toNat (by omega) (by decide)).2 (by simp),
    (sle_iff_toNat (by omega) (by decide)).2 (by show _ ≤ 1023; omega)]
  rfl

theorem gather_cols_apply {α : Type} {w : Nat} (x : S1000x1024.Idx → α) (idx : IVec S1024x1 w) (o : Fin 1000) (q : Fin 1024) :
    Host.gather gather_S1000x1024_S1024x1_S1000x1024_0_1_n_n_1_1_10001 x idx (ix2 o q)
      = x (ix2 o ⟨min (idx (ix2 q (0 : Fin 1))).toInt.toNat 1023, by omega⟩) := by
  unfold Host.gather
  congr 1
  funext a
  refine Fin.ext ?_
  show gather_S1000x1024_S1024x1_S1000x1024_0_1_n_n_1_1_10001.start (ix2 o q) idx a
    + gather_S1000x1024_S1024x1_S1000x1024_0_1_n_n_1_1_10001.batchCoord (ix2 o q) a
    + gather_S1000x1024_S1024x1_S1000x1024_0_1_n_n_1_1_10001.offCoord (ix2 o q) a = _
  rw [GatherDims.batchCoord_eq_zero _ _ _ List.not_mem_nil, Nat.add_zero]
  have hsi : ∀ c, gather_S1000x1024_S1024x1_S1000x1024_0_1_n_n_1_1_10001.siIdx (ix2 o q) c = ix2 q (0 : Fin 1) :=
    fun c => funext fun b => Fin.ext (match b with
      | ⟨0, _⟩ => rfl
      | ⟨1, _⟩ => Nat.lt_one_iff.mp c.isLt)
  match a with
  | ⟨0, _⟩ =>
    have hs : gather_S1000x1024_S1024x1_S1000x1024_0_1_n_n_1_1_10001.start (ix2 o q) idx 0 = 0 := by
      unfold GatherDims.start; rw [dif_neg (by decide)]
    have ho : gather_S1000x1024_S1024x1_S1000x1024_0_1_n_n_1_1_10001.offCoord (ix2 o q) 0 = o.val := by
      unfold GatherDims.offCoord; rw [dif_pos (by decide)]; rfl
    exact (congrArg₂ (· + ·) hs ho).trans (Nat.zero_add _)
  | ⟨1, _⟩ =>
    have hs : gather_S1000x1024_S1024x1_S1000x1024_0_1_n_n_1_1_10001.start (ix2 o q) idx 1
        = min (idx (ix2 q (0 : Fin 1))).toInt.toNat 1023 := by
      unfold GatherDims.start; rw [dif_pos (by decide), hsi]; rfl
    have ho : gather_S1000x1024_S1024x1_S1000x1024_0_1_n_n_1_1_10001.offCoord (ix2 o q) 1 = 0 :=
      GatherDims.offCoord_eq_zero _ _ _ (by decide)
    exact congrArg₂ (· + ·) hs ho

-- With every entry below 1024 the take reads row o at the column the table's q-th entry names.
theorem takeCols_apply (x : FVec Ideal S1000x1024 .f32) (h : ∀ p : Fin 1024, (tbl (ix1 p)).toNat < 1024) (o : Fin 1000)
    (q : Fin 1024) : takeCols x tbl (ix2 o q) = x (ix2 o ⟨(tbl (ix1 q)).toNat, h q⟩) := by
  have hq := h q
  have hm : broadcastInDim S1000x1024 ![1] bcast_S1024_S1000x1024_1 (mask tbl) (ix2 o q) = 1#1 := mask_apply tbl h _
  unfold takeCols
  rw [select_apply, hm, select_one, gather_cols_apply]
  refine congrArg (fun c => x (ix2 o c)) (Fin.ext ?_)
  show min (idxCol tbl (ix2 q (0 : Fin 1))).toInt.toNat 1023 = (tbl (ix1 q)).toNat
  rw [idxCol_apply tbl q 0 hq, toInt_eq_toNat_of_lt (by omega), Int.toNat_natCast]
  omega

end Take

-- The index table is the reversal of ten bits, entry by entry.
theorem lit9_brev : ∀ i : Fin 1024, (lit9 i).toNat = SDT.brev 10 i.val := by decide +kernel

def tab : IVec S1024 32 := fun i => lit9 (S1024.rowMajor i)

theorem tab_apply (p : Fin 1024) : (tab (ix1 p)).toNat = SDT.brev 10 p.val := by
  have e : S1024.rowMajor (ix1 p) = p := Fin.ext (by rw [Shape.rowMajor_val_one])
  unfold tab
  rw [e]
  exact lit9_brev p

theorem tab_lt (p : Fin 1024) : (tab (ix1 p)).toNat < 1024 := by
  rw [tab_apply]; exact SDT.brev_lt 10 p.val p.isLt

def tailHi (y : FVec Ideal S1000x1024 .f32) : FVec Ideal S1024x1000 .bf16 :=
  truncf .bf16 (transpose S1024x1000 [1, 0] y transposes_S1000x1024_S1024x1000_1_0) bitsLt_bf16_f32

theorem pre_v34 (W : Valuation τ sig (Elt Ideal)) :
    pre W (Proc.devRef .tc main_v34) = tailHi (takeCols (W (Proc.devRef .tc main_arg2)) tab) := by
  show after (List.flatten _) W _ = _
  simp only [List.flatten_cons, List.flatten_nil, List.append_nil, StableHlo.after_append]
  after_results_simp
  rfl

def tailLo (y : FVec Ideal S1000x1024 .f32) : FVec Ideal S1024x1000 .bf16 :=
  truncf .bf16 (subf (transpose S1024x1000 [1, 0] y transposes_S1000x1024_S1024x1000_1_0)
    (extf .f32 (tailHi y) bitsLt_bf16_f32)) bitsLt_bf16_f32

theorem pre_v37 (W : Valuation τ sig (Elt Ideal)) :
    pre W (Proc.devRef .tc main_v37) = tailLo (takeCols (W (Proc.devRef .tc main_arg2)) tab) := by
  show after (List.flatten _) W _ = _
  simp only [List.flatten_cons, List.flatten_nil, List.append_nil, StableHlo.after_append]
  after_results_simp
  rfl

-- The high half at (j, o) is the weight of output o at the leaf whose number is j with its ten bits reversed.
theorem wlhi_apply (W : Valuation τ sig (Elt Ideal)) (j : Fin 1024) (o : Fin 1000) :
    pre W (Proc.devRef .tc main_v34) (ix2 j o)
      = W (Proc.devRef .tc main_arg2) (ix2 o ⟨SDT.brev 10 j.val, SDT.brev_lt 10 j.val j.isLt⟩) := by
  rw [pre_v34, tailHi, truncf_apply, transpose_ix2_apply, takeCols_apply tab _ tab_lt]
  exact congrArg (fun c => W (Proc.devRef .tc main_arg2) (ix2 o c)) (Fin.ext (tab_apply j))

-- The low half is the transposed array minus its high half, entry by entry.
theorem wllo_apply (W : Valuation τ sig (Elt Ideal)) (j : Fin 1024) (o : Fin 1000) :
    pre W (Proc.devRef .tc main_v37) (ix2 j o)
      = HSub.hSub (α := EReal) (β := EReal) (γ := EReal) (pre W (Proc.devRef .tc main_v34) (ix2 j o))
          (pre W (Proc.devRef .tc main_v34) (ix2 j o)) := by
  rw [pre_v37, pre_v34]
  rfl

end Cert.KernelIdeal.PrefixL

end
-- ==== Proof.KIPrefixI.lean ====
import proofs.«128224_j82489141887173_2_alg».proof.Proof.Gen.KernelIdeal.Launch
import proofs.«128224_j82489141887173_2_alg».proof.Proof.Rows
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout

noncomputable section

namespace Cert.KernelIdeal.PrefixI

open Cert.KernelIdeal Cert.KernelIdeal.Gen Idealize.ShloMosaic Idealize.ShloMosaic.ValueIdx

section General

open StableHlo.Predicate

theorem slt_zero_eq (a z : BitVec 32) (hz : z = 0#32) (ha : a.toNat < 2 ^ 31) : IntOp.cmpi .slt a z = 0#1 := by
  subst hz
  refine eq_zero_of_ne_one fun h => ?_
  have := (slt_iff_toNat ha (by decide)).mp h
  simp at this

theorem foldl_andi_ones {ι : Type} (x : ι → BitVec 1) (hx : ∀ k, x k = 1#1) :
    ∀ (L : List ι), L.foldl (fun r n => IntOp.andi r (x n)) 1#1 = 1#1
  | [] => rfl
  | k :: L => by rw [List.foldl_cons, hx k, show IntOp.andi 1#1 1#1 = 1#1 from by decide]; exact foldl_andi_ones x hx L

theorem reduce_andi_ones {s t u : Shape} {axes : List (Fin s.rank)} (x : IVec s 1) (init : IVec u 1)
    (h : s.ReducesTo axes t) (hu : 0 < u.numel) (hx : ∀ k, x k = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

theorem bcast_ones {s t : Shape} (dims : Fin s.rank → Fin t.rank) (h : s.BroadcastsInDim t dims) (m : IVec s 1)
    (hm : ∀ k, m k = 1#1) (j : t.Idx) : broadcastInDim t dims h m j = 1#1 := by
  unfold broadcastInDim; exact hm _

end General

section RowTake
variable {α : Type} {n C w : ℕ}

theorem gather_rows_axis0 (d : GatherDims ⟨2, ![n, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (q : Fin C) :
    (d.operandIdx (ix2 p q) idx 0).val = min (idx (ix2 p (0 : Fin 1))).toInt.toNat (n - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  show d.start (ix2 p q) idx 0 + d.batchCoord (ix2 p q) 0 + d.offCoord (ix2 p q) 0 = _
  rw [GatherDims.batchCoord_eq_zero _ _ _ hb, GatherDims.offCoord_eq_zero _ _ _ hk]
  simp only [Nat.add_zero]
  unfold GatherDims.start
  rw [dif_pos hm, hsl]
  show min (idx _).toInt.toNat (n - 1) = min (idx (ix2 p 0)).toInt.toNat (n - 1)
  congr 3
  congr 1
  funext b
  match b with
  | ⟨0, _⟩ =>
    have e : ∀ X : Fin 2, X ∈ d.batchDims → ((ix2 p q : (⟨2, ![n, C]⟩ : Shape).Idx) X).val = p.val := by
      intro X hX
      simp only [GatherDims.batchDims, Shape.kept, List.mem_filter, hoff, List.mem_singleton, decide_eq_true_eq] at hX
      have hX0 : X = 0 := by
        have h2 := X.isLt
        have h1 : X.val ≠ 1 := fun h => hX.2 (Fin.ext h)
        exact Fin.ext (by show X.val = 0; change X.val < 2 at h2; omega)
      subst hX0; rfl
    unfold GatherDims.siIdx
    rw [dif_neg (by rw [hivd]; simp)]
    unfold GatherDims.siCoord
    apply Fin.ext
    simp only [Fin.val_cast]
    exact e _ (List.getElem_mem _)
  | ⟨1, _⟩ =>
    unfold GatherDims.siIdx
    rw [dif_pos (by rw [hivd])]
    apply Fin.ext
    show List.idxOf (0 : Fin 2) d.startIndexMap = 0
    rw [hsim]; simp

theorem gather_rows_axis1 (d : GatherDims ⟨2, ![n, C]⟩ ⟨2, ![n, 1]⟩ ⟨2, ![n, C]⟩)
    (hoff : d.offsetDims = [1]) (hcoll : d.collapsedSliceDims = [0]) (hob : d.operandBatchingDims = [])
    (hsim : d.startIndexMap = [0])
    (idx : IVec ⟨2, ![n, 1]⟩ w) (p : Fin n) (q : Fin C) :
    (d.operandIdx (ix2 p q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  show d.start (ix2 p q) idx 1 + d.batchCoord (ix2 p q) 1 + d.offCoord (ix2 p q) 1 = _
  rw [GatherDims.batchCoord_eq_zero _ _ _ hb]
  unfold GatherDims.start
  rw [dif_neg hm]
  simp only [Nat.add_zero, Nat.zero_add]
  have e : ∀ X : Fin 2, X ∈ d.offsetDims → ((ix2 p q : (⟨2, ![n, C]⟩ : Shape).Idx) X).val = q.val := by
    intro X hX
    rw [hoff] at hX
    obtain rfl := List.mem_singleton.mp hX
    rfl
  unfold GatherDims.offCoord
  rw [dif_pos hk]
  exact e _ (List.getElem_mem _)

theorem gather_rows_apply (d : GatherDims ⟨2, ![n, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![n, C]⟩ : Shape).Idx → α) (idx : IVec ⟨2, ![n, 1]⟩ w) (p : Fin n) (q : Fin C) :
    Host.gather d x idx (ix2 p q)
      = x (ix2 ⟨min (idx (ix2 p (0 : Fin 1))).toInt.toNat (n - 1), by have := p.isLt; omega⟩ q) := by
  unfold Host.gather
  congr 1
  funext a
  apply Fin.ext
  match a with
  | ⟨0, _⟩ => exact gather_rows_axis0 d hoff hcoll hob hsim hivd idx p q
  | ⟨1, _⟩ => exact gather_rows_axis1 d hoff hcoll hob hsim idx p q

end RowTake

section Take
variable {α : Type} {n : ℕ} {t : Shape}

def normIdx (z1 nn tbl : IVec ⟨1, ![n]⟩ 32) : IVec ⟨1, ![n]⟩ 32 :=
  select (cmpi .slt tbl z1) (addi tbl nn) tbl

def takeTerm (hcol : (⟨1, ![n]⟩ : Shape).BroadcastsInDim ⟨2, ![n, 1]⟩ ![0])
    (hred : (⟨2, ![n, 1]⟩ : Shape).ReducesTo [1] ⟨1, ![n]⟩) (hu : 0 < S_.numel)
    {dims : Fin 1 → Fin t.rank} (hmask : (⟨1, ![n]⟩ : Shape).BroadcastsInDim t dims)
    (d : GatherDims t ⟨2, ![n, 1]⟩ t)
    (z1 nn : IVec ⟨1, ![n]⟩ 32) (z2 hi : IVec ⟨2, ![n, 1]⟩ 32) (one : IVec S_ 1)
    (fill x : t.Idx → α) (tbl : IVec ⟨1, ![n]⟩ 32) : t.Idx → α :=
  select
    (broadcastInDim t dims hmask
      (Host.reduce IntOp.andi
        (andi (cmpi .sge (broadcastInDim ⟨2, ![n, 1]⟩ ![0] hcol (normIdx z1 nn tbl)) z2)
          (cmpi .sle (broadcastInDim ⟨2, ![n, 1]⟩ ![0] hcol (normIdx z1 nn tbl)) hi))
        one hred hu))
    (Host.gather d x (broadcastInDim ⟨2, ![n, 1]⟩ ![0] hcol (normIdx z1 nn tbl)))
    fill

-- The take with its zero words, its extent and its set bit spelled as broadcast constants.
def takeP (hcol : (⟨1, ![n]⟩ : Shape).BroadcastsInDim ⟨2, ![n, 1]⟩ ![0])
    (hred : (⟨2, ![n, 1]⟩ : Shape).ReducesTo [1] ⟨1, ![n]⟩) (hu : 0 < S_.numel)
    {dims : Fin 1 → Fin t.rank} (hmask : (⟨1, ![n]⟩ : Shape).BroadcastsInDim t dims)
    (d : GatherDims t ⟨2, ![n, 1]⟩ t) (hb1 : S_.BroadcastsInDim ⟨1, ![n]⟩ (![] : Fin 0 → Fin 1))
    (hb2 : S_.BroadcastsInDim ⟨2, ![n, 1]⟩ (![] : Fin 0 → Fin 2)) (nw : BitVec 32) (hi : IVec ⟨2, ![n, 1]⟩ 32)
    (fill x : t.Idx → α) (tbl : IVec ⟨1, ![n]⟩ 32) : t.Idx → α :=
  takeTerm hcol hred hu hmask d (broadcastInDim ⟨1, ![n]⟩ ![] hb1 (constantI S_ 32 0#32))
    (broadcastInDim ⟨1, ![n]⟩ ![] hb1 (constantI S_ 32 nw)) (broadcastInDim ⟨2, ![n, 1]⟩ ![] hb2 (constantI S_ 32 0#32)) hi
    (constantI S_ 1 1#1) fill x tbl

open StableHlo.Predicate in
-- With every table entry a valid position the range mask is set everywhere, so the take is the gather at the table.
theorem takeTerm_eq {hcol : (⟨1, ![n]⟩ : Shape).BroadcastsInDim ⟨2, ![n, 1]⟩ ![0]}
    {hred : (⟨2, ![n, 1]⟩ : Shape).ReducesTo [1] ⟨1, ![n]⟩} {hu : 0 < S_.numel}
    {dims : Fin 1 → Fin t.rank} {hmask : (⟨1, ![n]⟩ : Shape).BroadcastsInDim t dims}
    {d : GatherDims t ⟨2, ![n, 1]⟩ t}
    {z1 nn : IVec ⟨1, ![n]⟩ 32} {z2 hi : IVec ⟨2, ![n, 1]⟩ 32} {one : IVec S_ 1}
    {fill x : t.Idx → α} {tbl : IVec ⟨1, ![n]⟩ 32} {T : t.Idx → α}
    (hT : T = takeTerm hcol hred hu hmask d z1 nn z2 hi one fill x tbl)
    (hn : n < 2 ^ 31) (hz1 : ∀ i, z1 i = 0#32) (hz2 : ∀ j, z2 j = 0#32) (hhi : ∀ j, (hi j).toNat = n - 1)
    (hone : ∀ k, one k = 1#1) (htbl : ∀ i : Fin n, (tbl (ix1 i)).toNat < n) :
    ∃ idx : IVec ⟨2, ![n, 1]⟩ 32, (∀ p : Fin n, min (idx (ix2 p (0 : Fin 1))).toInt.toNat (n - 1) = (tbl (ix1 p)).toNat)
      ∧ ∀ j, T j = Host.gather d x idx j := by
  subst hT
  have hsmall : ∀ i : (⟨1, ![n]⟩ : Shape).Idx, (tbl i).toNat < 2 ^ 31 := fun i => by
    rw [eq_ix1 i]
    exact lt_trans (htbl ⟨(i 0).val, (i 0).isLt⟩) hn
  have hnorm : ∀ i, normIdx z1 nn tbl i = tbl i := fun i => by
    unfold normIdx
    rw [select_apply]
    show Scalar.select (IntOp.cmpi .slt (tbl i) (z1 i)) _ _ = _
    rw [slt_zero_eq _ _ (hz1 i) (hsmall i), select_zero]
  have hidx : ∀ j : (⟨2, ![n, 1]⟩ : Shape).Idx,
      broadcastInDim ⟨2, ![n, 1]⟩ ![0] hcol (normIdx z1 nn tbl) j = tbl (ix1 ⟨(j 0).val, idx2_lt0 j⟩) := fun j => by
    rw [broadcastInDim_apply ![0] hcol (normIdx z1 nn tbl) j (ix1 ⟨(j 0).val, idx2_lt0 j⟩) (fun a => by
      match a with
      | ⟨0, _⟩ =>
        split
        · next h1 => change n = 1 at h1; have := idx2_lt0 j; show (j 0).val = 0; omega
        · rfl)]
    exact hnorm _
  refine ⟨broadcastInDim ⟨2, ![n, 1]⟩ ![0] hcol (normIdx z1 nn tbl), fun p => ?_, fun j => ?_⟩
  · rw [hidx]
    show min (tbl (ix1 p)).toInt.toNat (n - 1) = _
    rw [toInt_eq_toNat_of_lt (hsmall _), Int.toNat_natCast]
    have := htbl p
    omega
  · have hm : ∀ j, andi (cmpi .sge (broadcastInDim ⟨2, ![n, 1]⟩ ![0] hcol (normIdx z1 nn tbl)) z2)
        (cmpi .sle (broadcastInDim ⟨2, ![n, 1]⟩ ![0] hcol (normIdx z1 nn tbl)) hi) j = 1#1 := fun j => by
      show IntOp.andi (IntOp.cmpi .sge (broadcastInDim ⟨2, ![n, 1]⟩ ![0] hcol (normIdx z1 nn tbl) j) (z2 j))
        (IntOp.cmpi .sle (broadcastInDim ⟨2, ![n, 1]⟩ ![0] hcol (normIdx z1 nn tbl) j) (hi j)) = 1#1
      have hlt := htbl ⟨(j 0).val, idx2_lt0 j⟩
      rw [hidx j, hz2 j, (sge_iff_toNat (hsmall _) (by decide)).mpr (Nat.zero_le _),
        (sle_iff_toNat (hsmall _) (by rw [hhi]; omega)).mpr (by rw [hhi]; omega)]
      decide
    unfold takeTerm
    rw [select_apply, bcast_ones _ _ _ (reduce_andi_ones _ _ _ _ hm hone), select_one]

end Take

section Level
variable {n C : ℕ}

-- A take of rows at the bit-reversal table reads row `brev d p`.
theorem take_brev (d : ℕ) (hn : n = 2 ^ d) (hd : d < 31)
    {hcol : (⟨1, ![n]⟩ : Shape).BroadcastsInDim ⟨2, ![n, 1]⟩ ![0]}
    {hred : (⟨2, ![n, 1]⟩ : Shape).ReducesTo [1] ⟨1, ![n]⟩} {hu : 0 < S_.numel}
    {hmask : (⟨1, ![n]⟩ : Shape).BroadcastsInDim ⟨2, ![n, C]⟩ ![0]}
    {g : GatherDims ⟨2, ![n, C]⟩ ⟨2, ![n, 1]⟩ ⟨2, ![n, C]⟩}
    {hb1 : S_.BroadcastsInDim ⟨1, ![n]⟩ (![] : Fin 0 → Fin 1)} {hb2 : S_.BroadcastsInDim ⟨2, ![n, 1]⟩ (![] : Fin 0 → Fin 2)}
    {nw : BitVec 32} {hi : IVec ⟨2, ![n, 1]⟩ 32}
    {fill x T : FVec Ideal ⟨2, ![n, C]⟩ .f32} {tbl : IVec ⟨1, ![n]⟩ 32}
    (hT : T = takeP hcol hred hu hmask g hb1 hb2 nw hi fill x tbl)
    (hoff : g.offsetDims = [1]) (hcoll : g.collapsedSliceDims = [0]) (hob : g.operandBatchingDims = [])
    (hsim : g.startIndexMap = [0]) (hivd : g.indexVectorDim = 1)
    (hhi : ∀ j, (hi j).toNat = n - 1)
    (htbl : ∀ i : Fin n, (tbl (ix1 i)).toNat = SDT.brev d i.val) (p : Fin n) (q : Fin C) :
    T (ix2 p q) = x (ix2 ⟨SDT.brev d p.val, hn ▸ SDT.brev_lt d p.val (hn ▸ p.isLt)⟩ q) := by
  have hb : ∀ i : Fin n, SDT.brev d i.val < n := fun i => hn ▸ SDT.brev_lt d i.val (hn ▸ i.isLt)
  obtain ⟨idx, hmin, hg⟩ := takeTerm_eq hT (hn ▸ Nat.pow_lt_pow_right (by decide) hd) (fun _ => rfl) (fun _ => rfl) hhi (fun _ => rfl)
    (fun i => (htbl i).symm ▸ hb i)
  rw [hg, gather_rows_apply g hoff hcoll hob hsim hivd]
  exact congrArg (fun r => x (ix2 r q)) (Fin.ext ((hmin p).trans (htbl p)))

-- A literal table read at its row-major position.
theorem tbl_lit {d : ℕ} {c : IVec ⟨1, ![n]⟩ 32} {lit : Fin (⟨1, ![n]⟩ : Shape).numel → BitVec 32}
    (hc : c = fun j => lit ((⟨1, ![n]⟩ : Shape).rowMajor j)) (hl : ∀ k, (lit k).toNat = SDT.brev d k.val) (i : Fin n) :
    (c (ix1 i)).toNat = SDT.brev d i.val := by
  subst hc
  show (lit _).toNat = _
  rw [hl, Shape.rowMajor_val_one]
  rfl

end Level

open StableHlo in
section
set_option maxRecDepth 8192
set_option maxHeartbeats 2000000

abbrev stages : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

abbrev pre (W : Valuation τ sig (Elt Ideal)) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]) W

def val : ℕ → Valuation τ sig (Elt Ideal) → Valuation τ sig (Elt Ideal)
  | 0, W => W
  | k + 1, W => StableHlo.after (stages.getD k []) (val k W)

theorem pre_eq_val (W : Valuation τ sig (Elt Ideal)) : pre W = val 23 W := by
  simp only [pre, List.flatten_cons, List.flatten_nil, List.append_nil, StableHlo.after_append]
  rfl

abbrev bnd : List ℕ := [3, 15, 37, 38, 61, 62, 85, 86, 109, 110, 133, 134, 157, 158, 181, 182, 205, 206, 229, 230, 253, 266, 289, 294]

abbrev wr (k : ℕ) (r : Ref sig .tc) : Prop := r.space = .hbm ∧ bnd.getD k 0 ≤ r.idx.val ∧ r.idx.val < bnd.getD (k + 1) 0

theorem stage_writes : ∀ k : ℕ, (stages.getD k []).Forall fun op => ∀ r : Ref sig .tc, Proc.devRef (τ := τ) .tc r ∈ op.writes → wr k r
  | 0 | 1 | 2 | 3 | 4 | 5 | 6 | 7 | 8 | 9 | 10 | 11 | 12 | 13 | 14 | 15 | 16 | 17 | 18 | 19 | 20 | 21 | 22 => by
    simp only [stages, List.getD_cons_zero, List.getD_cons_succ]
    simp only [List.Forall, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]
    repeat' apply And.intro
    all_goals (simp only [StableHlo.nullary_writes, StableHlo.unary_writes, StableHlo.binary_writes, StableHlo.ternary_writes, StableHlo.reshape_writes, StableHlo.nary_writes, Finset.mem_singleton]; intro r h; obtain rfl := Proc.devRef_injective _ h; decide)
  | _ + 23 => trivial

theorem val_keep (W : Valuation τ sig (Elt Ideal)) (r : Ref sig .tc) (i : ℕ) :
    ∀ j : ℕ, i ≤ j → (∀ k, k < j → i ≤ k → ¬ wr k r) → val j W (Proc.devRef .tc r) = val i W (Proc.devRef .tc r)
  | 0, hij, _ => by obtain rfl : i = 0 := Nat.le_zero.mp hij; rfl
  | j + 1, hij, h => by
    rcases Nat.eq_or_lt_of_le hij with rfl | hlt
    · rfl
    · have hle : i ≤ j := Nat.lt_succ_iff.mp hlt
      show StableHlo.after (stages.getD j []) (val j W) (Proc.devRef .tc r) = _
      rw [StableHlo.after_of_forall_not_mem _ _ fun op hop hb =>
        h j (Nat.lt_succ_self j) hle (List.forall_iff_forall_mem.mp (stage_writes j) op hop r hb)]
      exact val_keep W r i j hle fun k hk hik => h k (Nat.lt_succ_of_lt hk) hik

abbrev pieces (V : Valuation τ sig (Elt Ideal)) : List ((s : Shape) × (s.Idx → Elt Ideal .f32)) :=
  [⟨S1x1025, V (Proc.devRef .tc main_v1)⟩, ⟨S2x1025, V (Proc.devRef .tc main_v3)⟩, ⟨S4x1025, V (Proc.devRef .tc main_v5)⟩, ⟨S8x1025, V (Proc.devRef .tc main_v7)⟩, ⟨S16x1025, V (Proc.devRef .tc main_v9)⟩, ⟨S32x1025, V (Proc.devRef .tc main_v11)⟩, ⟨S64x1025, V (Proc.devRef .tc main_v13)⟩, ⟨S128x1025, V (Proc.devRef .tc main_v15)⟩, ⟨S256x1025, V (Proc.devRef .tc main_v17)⟩, ⟨S512x1025, V (Proc.devRef .tc main_v19)⟩]

def catTerm (V : Valuation τ sig (Elt Ideal)) : FVec Ideal S1023x1025 .f32 :=
  concatenate S1023x1025 0 (pieces V)
    concatenates_S1x1025_S2x1025_S4x1025_S8x1025_S16x1025_S32x1025_S64x1025_S128x1025_S256x1025_S512x1025_S1023x1025_d0

def padTerm (V : Valuation τ sig (Elt Ideal)) : FVec Ideal S1024x1025 .f32 :=
  concatenate S1024x1025 0 [⟨S1023x1025, catTerm V⟩,
      ⟨S1x1025, broadcastInDim S1x1025 ![] bcast_S_S1x1025 (constant (F := Ideal) S_ .f32 0x00000000#32)⟩]
    concatenates_S1023x1025_S1x1025_S1024x1025_d0

def wT (V : Valuation τ sig (Elt Ideal)) : FVec Ideal S1024x1024 .f32 :=
  transpose S1024x1024 [1, 0] (extractStridedSlice S1024x1024 ![0, 1] (padTerm V) slices_S1024x1025_S1024x1024_0_1)
    transposes_S1024x1024_S1024x1024_1_0

theorem v28_term (V : Valuation τ sig (Elt Ideal)) :
    StableHlo.after (hostOps0_20 (F := Ideal)) V (Proc.devRef .tc main_v28) = truncf .bf16 (wT V) bitsLt_bf16_f32 := by
  simp only [hostOps0_20]
  after_results_simp <;> rfl

theorem v31_term (V : Valuation τ sig (Elt Ideal)) :
    StableHlo.after (hostOps0_20 (F := Ideal)) V (Proc.devRef .tc main_v31)
      = truncf .bf16 (subf (wT V) (extf .f32 (truncf .bf16 (wT V) bitsLt_bf16_f32) bitsLt_bf16_f32)) bitsLt_bf16_f32 := by
  simp only [hostOps0_20]
  after_results_simp <;> rfl

theorem v26_term (V : Valuation τ sig (Elt Ideal)) :
    StableHlo.after (hostOps0_20 (F := Ideal)) V (Proc.devRef .tc main_v26)
      = shapeCast S1x1024 (shapeCast S1024 (extractStridedSlice S1024x1 ![0, 0] (padTerm V) slices_S1024x1025_S1024x1_0_0)
          shapeCasts_S1024x1_S1024) shapeCasts_S1024_S1x1024 := by
  simp only [hostOps0_20]
  after_results_simp <;> rfl

theorem wT_apply (V : Valuation τ sig (Elt Ideal)) (k c : Fin 1024) :
    wT V (ix2 k c) = padTerm V (ix2 c ⟨k.val + 1, by have := k.isLt; omega⟩) := by
  unfold wT
  rw [transpose_ix2_apply, slice2_axis1_eq]
  exact congrArg (fun r => padTerm V (ix2 c r)) (Fin.ext (Nat.add_comm 1 k.val))

theorem bias_apply (V : Valuation τ sig (Elt Ideal)) (c : Fin 1024) :
    (shapeCast S1x1024 (shapeCast S1024 (extractStridedSlice S1024x1 ![0, 0] (padTerm V) slices_S1024x1025_S1024x1_0_0)
        shapeCasts_S1024x1_S1024) shapeCasts_S1024_S1x1024 : FVec Ideal S1x1024 .f32) (ix2 (0 : Fin 1) c)
      = padTerm V (ix2 c (0 : Fin 1025)) := by
  rw [shapeCast_a_1a_apply,
    shapeCast_apply _ shapeCasts_S1024x1_S1024 (ix1 c) (ix2 c (0 : Fin 1)) (by
      rw [Shape.rowMajor_val_two, Shape.rowMajor_val_one]
      show c.val * 1 + 0 = c.val
      omega),
    slice2_axis1_eq]
  rfl

theorem pre_v28 (W : Valuation τ sig (Elt Ideal)) :
    pre W (Proc.devRef .tc main_v28) = truncf .bf16 (wT (val 20 W)) bitsLt_bf16_f32 := by
  rw [pre_eq_val, val_keep W main_v28 21 23 (by omega) (by decide)]
  exact v28_term (val 20 W)

theorem pre_v31 (W : Valuation τ sig (Elt Ideal)) :
    pre W (Proc.devRef .tc main_v31)
      = truncf .bf16 (subf (wT (val 20 W)) (extf .f32 (truncf .bf16 (wT (val 20 W)) bitsLt_bf16_f32) bitsLt_bf16_f32))
          bitsLt_bf16_f32 := by
  rw [pre_eq_val, val_keep W main_v31 21 23 (by omega) (by decide)]
  exact v31_term (val 20 W)

theorem pre_v26 (W : Valuation τ sig (Elt Ideal)) :
    pre W (Proc.devRef .tc main_v26)
      = shapeCast S1x1024 (shapeCast S1024 (extractStridedSlice S1024x1 ![0, 0] (padTerm (val 20 W)) slices_S1024x1025_S1024x1_0_0)
          shapeCasts_S1024x1_S1024) shapeCasts_S1024_S1x1024 := by
  rw [pre_eq_val, val_keep W main_v26 21 23 (by omega) (by decide)]
  exact v26_term (val 20 W)

-- Rows `off ..` of the padded stack are its `k`-th block when the earlier blocks have `off` rows together.
theorem pad_piece (V : Valuation τ sig (Elt Ideal)) {n : ℕ} (k off : ℕ) (x : FVec Ideal ⟨2, ![n, 1025]⟩ .f32)
    (hk : k < (pieces V).length) (hx : (pieces V)[k] = ⟨⟨2, ![n, 1025]⟩, x⟩)
    (hoff : ((((pieces V).take k).map (·.1)).map fun s =>
      if h : s.rank = S1023x1025.rank then s.size ((0 : Fin S1023x1025.rank).cast h.symm) else 0).sum = off)
    (i : Fin n) (q : Fin 1025) (h : off + i.val < 1023) :
    padTerm V (ix2 ⟨off + i.val, Nat.lt_succ_of_lt h⟩ q) = x (ix2 i q) := by
  unfold padTerm
  rw [concatenate_pair_apply_left (t := S1024x1025) (s₁ := S1023x1025) (s₂ := S1x1025) 0 (catTerm V) _
    concatenates_S1023x1025_S1x1025_S1024x1025_d0 _ (rfl : S1023x1025.rank = S1024x1025.rank)
    (ix2 ⟨off + i.val, h⟩ q) (fun b => by match b with | ⟨0, _⟩ => rfl | ⟨1, _⟩ => rfl)]
  exact concatenate_apply_piece (t := S1023x1025) 0 (pieces V) _ _ k hk _ x hx rfl off hoff (ix2 i q)
    (fun b hb => by match b, hb with | ⟨0, _⟩, hb => exact absurd rfl hb | ⟨1, _⟩, _ => rfl) rfl

theorem node_lt {d i : ℕ} (hd : d < 10) (hi : i < 2 ^ d) : 2 ^ d - 1 + i < 1023 := by
  have h : 2 ^ d ≤ 2 ^ 9 := Nat.pow_le_pow_right (by decide) (by omega)
  have h0 : 0 < 2 ^ d := Nat.two_pow_pos d
  omega

theorem take0_term (V : Valuation τ sig (Elt Ideal)) :
    StableHlo.after (hostOps0_1 (F := Ideal)) V (Proc.devRef .tc main_v1) =
      takeP bcast_S1_S1x1_0 reducesTo_S1x1_S1_d1 h_S_ bcast_S1_S1x1025_0
        gather_S1x1025_S1x1_S1x1025_1_0_n_n_0_1_11025 bcast_S_S1 bcast_S_S1x1 1#32
        (broadcastInDim S1x1 ![1] bcast_S1_S1x1_1 (constantI S1 32 0#32))
        (broadcastInDim S1x1025 ![] bcast_S_S1x1025 (constant (F := Ideal) S_ .f32 0x7FC00000#32))
        (V (Proc.devRef .tc main_v0)) (V (Proc.devRef .tc main_c)) := by
  simp only [hostOps0_1]
  after_results_simp
  rfl

theorem take1_term (V : Valuation τ sig (Elt Ideal)) :
    StableHlo.after (hostOps0_3 (F := Ideal)) V (Proc.devRef .tc main_v3) =
      takeP bcast_S2_S2x1_0 reducesTo_S2x1_S2_d1 h_S_ bcast_S2_S2x1025_0
        gather_S2x1025_S2x1_S2x1025_1_0_n_n_0_1_11025 bcast_S_S2 bcast_S_S2x1 2#32
        (broadcastInDim S2x1 ![0, 1] bcast_S1x1_S2x1_0_1 (broadcastInDim S1x1 ![1] bcast_S1_S1x1_1 (constantI S1 32 1#32)))
        (broadcastInDim S2x1025 ![] bcast_S_S2x1025 (constant (F := Ideal) S_ .f32 0x7FC00000#32))
        (V (Proc.devRef .tc main_v2)) (V (Proc.devRef .tc main_c_0)) := by
  simp only [hostOps0_3]
  after_results_simp
  rfl

theorem take2_term (V : Valuation τ sig (Elt Ideal)) :
    StableHlo.after (hostOps0_5 (F := Ideal)) V (Proc.devRef .tc main_v5) =
      takeP bcast_S4_S4x1_0 reducesTo_S4x1_S4_d1 h_S_ bcast_S4_S4x1025_0
        gather_S4x1025_S4x1_S4x1025_1_0_n_n_0_1_11025 bcast_S_S4 bcast_S_S4x1 4#32
        (broadcastInDim S4x1 ![0, 1] bcast_S1x1_S4x1_0_1 (broadcastInDim S1x1 ![1] bcast_S1_S1x1_1 (constantI S1 32 3#32)))
        (broadcastInDim S4x1025 ![] bcast_S_S4x1025 (constant (F := Ideal) S_ .f32 0x7FC00000#32))
        (V (Proc.devRef .tc main_v4)) (V (Proc.devRef .tc main_c_1)) := by
  simp only [hostOps0_5]
  after_results_simp
  rfl

theorem take3_term (V : Valuation τ sig (Elt Ideal)) :
    StableHlo.after (hostOps0_7 (F := Ideal)) V (Proc.devRef .tc main_v7) =
      takeP bcast_S8_S8x1_0 reducesTo_S8x1_S8_d1 h_S_ bcast_S8_S8x1025_0
        gather_S8x1025_S8x1_S8x1025_1_0_n_n_0_1_11025 bcast_S_S8 bcast_S_S8x1 8#32
        (broadcastInDim S8x1 ![0, 1] bcast_S1x1_S8x1_0_1 (broadcastInDim S1x1 ![1] bcast_S1_S1x1_1 (constantI S1 32 7#32)))
        (broadcastInDim S8x1025 ![] bcast_S_S8x1025 (constant (F := Ideal) S_ .f32 0x7FC00000#32))
        (V (Proc.devRef .tc main_v6)) (V (Proc.devRef .tc main_c_2)) := by
  simp only [hostOps0_7]
  after_results_simp
  rfl

theorem take4_term (V : Valuation τ sig (Elt Ideal)) :
    StableHlo.after (hostOps0_9 (F := Ideal)) V (Proc.devRef .tc main_v9) =
      takeP bcast_S16_S16x1_0 reducesTo_S16x1_S16_d1 h_S_ bcast_S16_S16x1025_0
        gather_S16x1025_S16x1_S16x1025_1_0_n_n_0_1_11025 bcast_S_S16 bcast_S_S16x1 16#32
        (broadcastInDim S16x1 ![0, 1] bcast_S1x1_S16x1_0_1 (broadcastInDim S1x1 ![1] bcast_S1_S1x1_1 (constantI S1 32 15#32)))
        (broadcastInDim S16x1025 ![] bcast_S_S16x1025 (constant (F := Ideal) S_ .f32 0x7FC00000#32))
        (V (Proc.devRef .tc main_v8)) (V (Proc.devRef .tc main_c_3)) := by
  simp only [hostOps0_9]
  after_results_simp
  rfl

theorem take5_term (V : Valuation τ sig (Elt Ideal)) :
    StableHlo.after (hostOps0_11 (F := Ideal)) V (Proc.devRef .tc main_v11) =
      takeP bcast_S32_S32x1_0 reducesTo_S32x1_S32_d1 h_S_ bcast_S32_S32x1025_0
        gather_S32x1025_S32x1_S32x1025_1_0_n_n_0_1_11025 bcast_S_S32 bcast_S_S32x1 32#32
        (broadcastInDim S32x1 ![0, 1] bcast_S1x1_S32x1_0_1 (broadcastInDim S1x1 ![1] bcast_S1_S1x1_1 (constantI S1 32 31#32)))
        (broadcastInDim S32x1025 ![] bcast_S_S32x1025 (constant (F := Ideal) S_ .f32 0x7FC00000#32))
        (V (Proc.devRef .tc main_v10)) (V (Proc.devRef .tc main_c_4)) := by
  simp only [hostOps0_11]
  after_results_simp
  rfl

theorem take6_term (V : Valuation τ sig (Elt Ideal)) :
    StableHlo.after (hostOps0_13 (F := Ideal)) V (Proc.devRef .tc main_v13) =
      takeP bcast_S64_S64x1_0 reducesTo_S64x1_S64_d1 h_S_ bcast_S64_S64x1025_0
        gather_S64x1025_S64x1_S64x1025_1_0_n_n_0_1_11025 bcast_S_S64 bcast_S_S64x1 64#32
        (broadcastInDim S64x1 ![0, 1] bcast_S1x1_S64x1_0_1 (broadcastInDim S1x1 ![1] bcast_S1_S1x1_1 (constantI S1 32 63#32)))
        (broadcastInDim S64x1025 ![] bcast_S_S64x1025 (constant (F := Ideal) S_ .f32 0x7FC00000#32))
        (V (Proc.devRef .tc main_v12)) (V (Proc.devRef .tc main_c_5)) := by
  simp only [hostOps0_13]
  after_results_simp
  rfl

theorem take7_term (V : Valuation τ sig (Elt Ideal)) :
    StableHlo.after (hostOps0_15 (F := Ideal)) V (Proc.devRef .tc main_v15) =
      takeP bcast_S128_S128x1_0 reducesTo_S128x1_S128_d1 h_S_ bcast_S128_S128x1025_0
        gather_S128x1025_S128x1_S128x1025_1_0_n_n_0_1_11025 bcast_S_S128 bcast_S_S128x1 128#32
        (broadcastInDim S128x1 ![0, 1] bcast_S1x1_S128x1_0_1 (broadcastInDim S1x1 ![1] bcast_S1_S1x1_1 (constantI S1 32 127#32)))
        (broadcastInDim S128x1025 ![] bcast_S_S128x1025 (constant (F := Ideal) S_ .f32 0x7FC00000#32))
        (V (Proc.devRef .tc main_v14)) (V (Proc.devRef .tc main_c_6)) := by
  simp only [hostOps0_15]
  after_results_simp
  rfl

theorem take8_term (V : Valuation τ sig (Elt Ideal)) :
    StableHlo.after (hostOps0_17 (F := Ideal)) V (Proc.devRef .tc main_v17) =
      takeP bcast_S256_S256x1_0 reducesTo_S256x1_S256_d1 h_S_ bcast_S256_S256x1025_0
        gather_S256x1025_S256x1_S256x1025_1_0_n_n_0_1_11025 bcast_S_S256 bcast_S_S256x1 256#32
        (broadcastInDim S256x1 ![0, 1] bcast_S1x1_S256x1_0_1 (broadcastInDim S1x1 ![1] bcast_S1_S1x1_1 (constantI S1 32 255#32)))
        (broadcastInDim S256x1025 ![] bcast_S_S256x1025 (constant (F := Ideal) S_ .f32 0x7FC00000#32))
        (V (Proc.devRef .tc main_v16)) (V (Proc.devRef .tc main_c_7)) := by
  simp only [hostOps0_17]
  after_results_simp
  rfl

theorem take9_term (V : Valuation τ sig (Elt Ideal)) :
    StableHlo.after (hostOps0_19 (F := Ideal)) V (Proc.devRef .tc main_v19) =
      takeP bcast_S512_S512x1_0 reducesTo_S512x1_S512_d1 h_S_ bcast_S512_S512x1025_0
        gather_S512x1025_S512x1_S512x1025_1_0_n_n_0_1_11025 bcast_S_S512 bcast_S_S512x1 512#32
        (broadcastInDim S512x1 ![0, 1] bcast_S1x1_S512x1_0_1 (broadcastInDim S1x1 ![1] bcast_S1_S1x1_1 (constantI S1 32 511#32)))
        (broadcastInDim S512x1025 ![] bcast_S_S512x1025 (constant (F := Ideal) S_ .f32 0x7FC00000#32))
        (V (Proc.devRef .tc main_v18)) (V (Proc.devRef .tc main_c_8)) := by
  simp only [hostOps0_19]
  after_results_simp
  rfl

-- Row `2^d - 1 + i` of the padded stack is row `2^d - 1 + brev d i` of the weights.
theorem blocks_apply (W : Valuation τ sig (Elt Ideal)) (d : ℕ) (hd : d < 10) (i : ℕ) (hi : i < 2 ^ d) (q : Fin 1025) :
    padTerm (val 20 W) (ix2 ⟨2 ^ d - 1 + i, Nat.lt_succ_of_lt (node_lt hd hi)⟩ q)
      = (W (Proc.devRef .tc main_arg1) : FVec Ideal S1023x1025 .f32)
          (ix2 ⟨2 ^ d - 1 + SDT.brev d i, node_lt hd (SDT.brev_lt d i hi)⟩ q) := by
  match d, hd, hi with
  | 0, _, hi =>
    refine (pad_piece (val 20 W) 0 0 _ (by decide : 0 < 10) rfl rfl ⟨i, hi⟩ q (node_lt (by decide) hi)).trans ?_
    rw [val_keep W main_v1 2 20 (by omega) (by decide)]
    refine (take_brev 0 rfl (by decide) (take0_term (val 1 W)) rfl rfl rfl rfl rfl
      (fun _ => rfl) (fun j => ?_) ⟨i, hi⟩ q).trans ?_
    · show ((StableHlo.after hostOps0 W (Proc.devRef .tc main_c) : IVec S1 32) _).toNat = 0
      simp only [hostOps0]
      after_results_simp
      rfl
    · have h : ∀ V : Valuation τ sig (Elt Ideal), StableHlo.after hostOps0 V (Proc.devRef .tc main_v0)
          = extractStridedSlice S1x1025 ![0, 0] (V (Proc.devRef .tc main_arg1)) slices_S1023x1025_S1x1025_0_0 := fun V => by
        simp only [hostOps0]
        after_results_simp
      show StableHlo.after hostOps0 W _ _ = _
      rw [h]
      exact slice2_axis0_eq 0 _ _ _ q
  | 1, _, hi =>
    refine (pad_piece (val 20 W) 1 1 _ (by decide : 1 < 10) rfl rfl ⟨i, hi⟩ q (node_lt (by decide) hi)).trans ?_
    rw [val_keep W main_v3 4 20 (by omega) (by decide)]
    refine (take_brev 1 rfl (by decide) (take1_term (val 3 W)) rfl rfl rfl rfl rfl
      (fun _ => rfl) (fun j => ?_) ⟨i, hi⟩ q).trans ?_
    · rw [val_keep W main_c_0 1 3 (by omega) (by decide)]
      exact tbl_lit (n := 2) (lit := lit0) (by show StableHlo.after hostOps0 W _ = _; simp only [hostOps0]; after_results_simp <;> rfl)
        (by decide +kernel) j
    · have h : ∀ V : Valuation τ sig (Elt Ideal), StableHlo.after hostOps0_2 V (Proc.devRef .tc main_v2)
          = extractStridedSlice S2x1025 ![1, 0] (V (Proc.devRef .tc main_arg1)) slices_S1023x1025_S2x1025_1_0 := fun V => by
        simp only [hostOps0_2]
        after_results_simp
      show StableHlo.after hostOps0_2 (val 2 W) _ _ = _
      rw [h, val_keep W main_arg1 0 2 (Nat.zero_le _) (by decide)]
      exact slice2_axis0_eq 1 _ _ _ q
  | 2, _, hi =>
    refine (pad_piece (val 20 W) 2 3 _ (by decide : 2 < 10) rfl rfl ⟨i, hi⟩ q (node_lt (by decide) hi)).trans ?_
    rw [val_keep W main_v5 6 20 (by omega) (by decide)]
    refine (take_brev 2 rfl (by decide) (take2_term (val 5 W)) rfl rfl rfl rfl rfl
      (fun _ => rfl) (fun j => ?_) ⟨i, hi⟩ q).trans ?_
    · rw [val_keep W main_c_1 1 5 (by omega) (by decide)]
      exact tbl_lit (n := 4) (lit := lit1) (by show StableHlo.after hostOps0 W _ = _; simp only [hostOps0]; after_results_simp <;> rfl)
        (by decide +kernel) j
    · have h : ∀ V : Valuation τ sig (Elt Ideal), StableHlo.after hostOps0_4 V (Proc.devRef .tc main_v4)
          = extractStridedSlice S4x1025 ![3, 0] (V (Proc.devRef .tc main_arg1)) slices_S1023x1025_S4x1025_3_0 := fun V => by
        simp only [hostOps0_4]
        after_results_simp
      show StableHlo.after hostOps0_4 (val 4 W) _ _ = _
      rw [h, val_keep W main_arg1 0 4 (Nat.zero_le _) (by decide)]
      exact slice2_axis0_eq 3 _ _ _ q
  | 3, _, hi =>
    refine (pad_piece (val 20 W) 3 7 _ (by decide : 3 < 10) rfl rfl ⟨i, hi⟩ q (node_lt (by decide) hi)).trans ?_
    rw [val_keep W main_v7 8 20 (by omega) (by decide)]
    refine (take_brev 3 rfl (by decide) (take3_term (val 7 W)) rfl rfl rfl rfl rfl
      (fun _ => rfl) (fun j => ?_) ⟨i, hi⟩ q).trans ?_
    · rw [val_keep W main_c_2 1 7 (by omega) (by decide)]
      exact tbl_lit (n := 8) (lit := lit2) (by show StableHlo.after hostOps0 W _ = _; simp only [hostOps0]; after_results_simp <;> rfl)
        (by decide +kernel) j
    · have h : ∀ V : Valuation τ sig (Elt Ideal), StableHlo.after hostOps0_6 V (Proc.devRef .tc main_v6)
          = extractStridedSlice S8x1025 ![7, 0] (V (Proc.devRef .tc main_arg1)) slices_S1023x1025_S8x1025_7_0 := fun V => by
        simp only [hostOps0_6]
        after_results_simp
      show StableHlo.after hostOps0_6 (val 6 W) _ _ = _
      rw [h, val_keep W main_arg1 0 6 (Nat.zero_le _) (by decide)]
      exact slice2_axis0_eq 7 _ _ _ q
  | 4, _, hi =>
    refine (pad_piece (val 20 W) 4 15 _ (by decide : 4 < 10) rfl rfl ⟨i, hi⟩ q (node_lt (by decide) hi)).trans ?_
    rw [val_keep W main_v9 10 20 (by omega) (by decide)]
    refine (take_brev 4 rfl (by decide) (take4_term (val 9 W)) rfl rfl rfl rfl rfl
      (fun _ => rfl) (fun j => ?_) ⟨i, hi⟩ q).trans ?_
    · rw [val_keep W main_c_3 1 9 (by omega) (by decide)]
      exact tbl_lit (n := 16) (lit := lit3) (by show StableHlo.after hostOps0 W _ = _; simp only [hostOps0]; after_results_simp <;> rfl)
        (by decide +kernel) j
    · have h : ∀ V : Valuation τ sig (Elt Ideal), StableHlo.after hostOps0_8 V (Proc.devRef .tc main_v8)
          = extractStridedSlice S16x1025 ![15, 0] (V (Proc.devRef .tc main_arg1)) slices_S1023x1025_S16x1025_15_0 := fun V => by
        simp only [hostOps0_8]
        after_results_simp
      show StableHlo.after hostOps0_8 (val 8 W) _ _ = _
      rw [h, val_keep W main_arg1 0 8 (Nat.zero_le _) (by decide)]
      exact slice2_axis0_eq 15 _ _ _ q
  | 5, _, hi =>
    refine (pad_piece (val 20 W) 5 31 _ (by decide : 5 < 10) rfl rfl ⟨i, hi⟩ q (node_lt (by decide) hi)).trans ?_
    rw [val_keep W main_v11 12 20 (by omega) (by decide)]
    refine (take_brev 5 rfl (by decide) (take5_term (val 11 W)) rfl rfl rfl rfl rfl
      (fun _ => rfl) (fun j => ?_) ⟨i, hi⟩ q).trans ?_
    · rw [val_keep W main_c_4 1 11 (by omega) (by decide)]
      exact tbl_lit (n := 32) (lit := lit4) (by show StableHlo.after hostOps0 W _ = _; simp only [hostOps0]; after_results_simp <;> rfl)
        (by decide +kernel) j
    · have h : ∀ V : Valuation τ sig (Elt Ideal), StableHlo.after hostOps0_10 V (Proc.devRef .tc main_v10)
          = extractStridedSlice S32x1025 ![31, 0] (V (Proc.devRef .tc main_arg1)) slices_S1023x1025_S32x1025_31_0 := fun V => by
        simp only [hostOps0_10]
        after_results_simp
      show StableHlo.after hostOps0_10 (val 10 W) _ _ = _
      rw [h, val_keep W main_arg1 0 10 (Nat.zero_le _) (by decide)]
      exact slice2_axis0_eq 31 _ _ _ q
  | 6, _, hi =>
    refine (pad_piece (val 20 W) 6 63 _ (by decide : 6 < 10) rfl rfl ⟨i, hi⟩ q (node_lt (by decide) hi)).trans ?_
    rw [val_keep W main_v13 14 20 (by omega) (by decide)]
    refine (take_brev 6 rfl (by decide) (take6_term (val 13 W)) rfl rfl rfl rfl rfl
      (fun _ => rfl) (fun j => ?_) ⟨i, hi⟩ q).trans ?_
    · rw [val_keep W main_c_5 1 13 (by omega) (by decide)]
      exact tbl_lit (n := 64) (lit := lit5) (by show StableHlo.after hostOps0 W _ = _; simp only [hostOps0]; after_results_simp <;> rfl)
        (by decide +kernel) j
    · have h : ∀ V : Valuation τ sig (Elt Ideal), StableHlo.after hostOps0_12 V (Proc.devRef .tc main_v12)
          = extractStridedSlice S64x1025 ![63, 0] (V (Proc.devRef .tc main_arg1)) slices_S1023x1025_S64x1025_63_0 := fun V => by
        simp only [hostOps0_12]
        after_results_simp
      show StableHlo.after hostOps0_12 (val 12 W) _ _ = _
      rw [h, val_keep W main_arg1 0 12 (Nat.zero_le _) (by decide)]
      exact slice2_axis0_eq 63 _ _ _ q
  | 7, _, hi =>
    refine (pad_piece (val 20 W) 7 127 _ (by decide : 7 < 10) rfl rfl ⟨i, hi⟩ q (node_lt (by decide) hi)).trans ?_
    rw [val_keep W main_v15 16 20 (by omega) (by decide)]
    refine (take_brev 7 rfl (by decide) (take7_term (val 15 W)) rfl rfl rfl rfl rfl
      (fun _ => rfl) (fun j => ?_) ⟨i, hi⟩ q).trans ?_
    · rw [val_keep W main_c_6 1 15 (by omega) (by decide)]
      exact tbl_lit (n := 128) (lit := lit6) (by show StableHlo.after hostOps0 W _ = _; simp only [hostOps0]; after_results_simp <;> rfl)
        (by decide +kernel) j
    · have h : ∀ V : Valuation τ sig (Elt Ideal), StableHlo.after hostOps0_14 V (Proc.devRef .tc main_v14)
          = extractStridedSlice S128x1025 ![127, 0] (V (Proc.devRef .tc main_arg1)) slices_S1023x1025_S128x1025_127_0 := fun V => by
        simp only [hostOps0_14]
        after_results_simp
      show StableHlo.after hostOps0_14 (val 14 W) _ _ = _
      rw [h, val_keep W main_arg1 0 14 (Nat.zero_le _) (by decide)]
      exact slice2_axis0_eq 127 _ _ _ q
  | 8, _, hi =>
    refine (pad_piece (val 20 W) 8 255 _ (by decide : 8 < 10) rfl rfl ⟨i, hi⟩ q (node_lt (by decide) hi)).trans ?_
    rw [val_keep W main_v17 18 20 (by omega) (by decide)]
    refine (take_brev 8 rfl (by decide) (take8_term (val 17 W)) rfl rfl rfl rfl rfl
      (fun _ => rfl) (fun j => ?_) ⟨i, hi⟩ q).trans ?_
    · rw [val_keep W main_c_7 1 17 (by omega) (by decide)]
      exact tbl_lit (n := 256) (lit := lit7) (by show StableHlo.after hostOps0 W _ = _; simp only [hostOps0]; after_results_simp <;> rfl)
        (by decide +kernel) j
    · have h : ∀ V : Valuation τ sig (Elt Ideal), StableHlo.after hostOps0_16 V (Proc.devRef .tc main_v16)
          = extractStridedSlice S256x1025 ![255, 0] (V (Proc.devRef .tc main_arg1)) slices_S1023x1025_S256x1025_255_0 := fun V => by
        simp only [hostOps0_16]
        after_results_simp
      show StableHlo.after hostOps0_16 (val 16 W) _ _ = _
      rw [h, val_keep W main_arg1 0 16 (Nat.zero_le _) (by decide)]
      exact slice2_axis0_eq 255 _ _ _ q
  | 9, _, hi =>
    refine (pad_piece (val 20 W) 9 511 _ (by decide : 9 < 10) rfl rfl ⟨i, hi⟩ q (node_lt (by decide) hi)).trans ?_
    rw [val_keep W main_v19 20 20 (by omega) (by decide)]
    refine (take_brev 9 rfl (by decide) (take9_term (val 19 W)) rfl rfl rfl rfl rfl
      (fun _ => rfl) (fun j => ?_) ⟨i, hi⟩ q).trans ?_
    · rw [val_keep W main_c_8 1 19 (by omega) (by decide)]
      exact tbl_lit (n := 512) (lit := lit8) (by show StableHlo.after hostOps0 W _ = _; simp only [hostOps0]; after_results_simp <;> rfl)
        (by decide +kernel) j
    · have h : ∀ V : Valuation τ sig (Elt Ideal), StableHlo.after hostOps0_18 V (Proc.devRef .tc main_v18)
          = extractStridedSlice S512x1025 ![511, 0] (V (Proc.devRef .tc main_arg1)) slices_S1023x1025_S512x1025_511_0 := fun V => by
        simp only [hostOps0_18]
        after_results_simp
      show StableHlo.after hostOps0_18 (val 18 W) _ _ = _
      rw [h, val_keep W main_arg1 0 18 (Nat.zero_le _) (by decide)]
      exact slice2_axis0_eq 511 _ _ _ q
  | d + 10, hd, _ => exact absurd hd (by omega)

theorem wilo_eq (W : Valuation τ sig (Elt Ideal)) :
    pre W (Proc.devRef .tc main_v31)
      = subf (F := Ideal) (s := S1024x1024) (φ := .bf16) (pre W (Proc.devRef .tc main_v28)) (pre W (Proc.devRef .tc main_v28)) := by
  rw [pre_v31, pre_v28]
  rfl

theorem wilo_apply (W : Valuation τ sig (Elt Ideal)) (k j : Fin 1024) (lo hi : FVec Ideal S1024x1024 .bf16)
    (hlo : lo = pre W (Proc.devRef .tc main_v31)) (hhi : hi = pre W (Proc.devRef .tc main_v28)) :
    lo (ix2 k j) = hi (ix2 k j) - hi (ix2 k j) := by
  subst hlo hhi
  rw [wilo_eq]
  rfl

theorem wihi_apply (W : Valuation τ sig (Elt Ideal)) (k : Fin 1024) (d : ℕ) (hd : d < 10) (i : ℕ) (hi : i < 2 ^ d) :
    (pre W (Proc.devRef .tc main_v28) : FVec Ideal S1024x1024 .bf16)
        (ix2 k ⟨2 ^ d - 1 + i, Nat.lt_succ_of_lt (node_lt hd hi)⟩)
      = (W (Proc.devRef .tc main_arg1) : FVec Ideal S1023x1025 .f32)
          (ix2 ⟨2 ^ d - 1 + SDT.brev d i, node_lt hd (SDT.brev_lt d i hi)⟩ ⟨k.val + 1, Nat.succ_lt_succ k.isLt⟩) := by
  rw [pre_v28]
  show wT (val 20 W) (ix2 k _) = _
  rw [wT_apply]
  exact blocks_apply W d hd i hi ⟨k.val + 1, Nat.succ_lt_succ k.isLt⟩

theorem wib_apply (W : Valuation τ sig (Elt Ideal)) (d : ℕ) (hd : d < 10) (i : ℕ) (hi : i < 2 ^ d) :
    (pre W (Proc.devRef .tc main_v26) : FVec Ideal S1x1024 .f32)
        (ix2 (0 : Fin 1) ⟨2 ^ d - 1 + i, Nat.lt_succ_of_lt (node_lt hd hi)⟩)
      = (W (Proc.devRef .tc main_arg1) : FVec Ideal S1023x1025 .f32)
          (ix2 ⟨2 ^ d - 1 + SDT.brev d i, node_lt hd (SDT.brev_lt d i hi)⟩ (0 : Fin 1025)) := by
  rw [pre_v26, bias_apply]
  exact blocks_apply W d hd i hi (0 : Fin 1025)

end

end Cert.KernelIdeal.PrefixI

end
-- ==== Proof.KITail.lean ====
import proofs.«128224_j82489141887173_2_alg».proof.Proof.Gen.KernelIdeal.Launch
import proofs.«128224_j82489141887173_2_alg».proof.Proof.Rows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

def numTot (a : (⟨S256x2046, .f32⟩ : BufTy).Contents (Elt F)) : (⟨S2046, .f32⟩ : BufTy).Contents (Elt F) :=
  Host.reduceAdd
    (shapeCast S32x2046
      (extractStridedSlice S32x1x2046 ![0, 0, 0] (shapeCast S32x8x2046 a shapeCasts_S256x2046_S32x8x2046)
        slices_S32x8x2046_S32x1x2046_0_0_0)
      shapeCasts_S32x1x2046_S32x2046)
    (constant S_ .f32 0x00000000#32) reducesTo_S32x2046_S2046_d0 h_S_

def denTot (a : (⟨S256x2046, .f32⟩ : BufTy).Contents (Elt F)) : (⟨S2046, .f32⟩ : BufTy).Contents (Elt F) :=
  addf (numTot a) (broadcastInDim S2046 ![] bcast_S_S2046 (constant S_ .f32 0x322BCC77#32))

def alphaK_0 (nt dt : (⟨S2046, .f32⟩ : BufTy).Contents (Elt F)) : (⟨S2, .f32⟩ : BufTy).Contents (Elt F) :=
  Host.divf (extractStridedSlice S2 ![0] nt slices_S2046_S2_0) (extractStridedSlice S2 ![0] dt slices_S2046_S2_0)
def alphaK_1 (nt dt : (⟨S2046, .f32⟩ : BufTy).Contents (Elt F)) : (⟨S4, .f32⟩ : BufTy).Contents (Elt F) :=
  Host.divf (extractStridedSlice S4 ![2] nt slices_S2046_S4_2) (extractStridedSlice S4 ![2] dt slices_S2046_S4_2)
def alphaK_2 (nt dt : (⟨S2046, .f32⟩ : BufTy).Contents (Elt F)) : (⟨S8, .f32⟩ : BufTy).Contents (Elt F) :=
  Host.divf (extractStridedSlice S8 ![6] nt slices_S2046_S8_6) (extractStridedSlice S8 ![6] dt slices_S2046_S8_6)
def alphaK_3 (nt dt : (⟨S2046, .f32⟩ : BufTy).Contents (Elt F)) : (⟨S16, .f32⟩ : BufTy).Contents (Elt F) :=
  Host.divf (extractStridedSlice S16 ![14] nt slices_S2046_S16_14) (extractStridedSlice S16 ![14] dt slices_S2046_S16_14)
def alphaK_4 (nt dt : (⟨S2046, .f32⟩ : BufTy).Contents (Elt F)) : (⟨S32, .f32⟩ : BufTy).Contents (Elt F) :=
  Host.divf (extractStridedSlice S32 ![30] nt slices_S2046_S32_30) (extractStridedSlice S32 ![30] dt slices_S2046_S32_30)
def alphaK_5 (nt dt : (⟨S2046, .f32⟩ : BufTy).Contents (Elt F)) : (⟨S64, .f32⟩ : BufTy).Contents (Elt F) :=
  Host.divf (extractStridedSlice S64 ![62] nt slices_S2046_S64_62) (extractStridedSlice S64 ![62] dt slices_S2046_S64_62)
def alphaK_6 (nt dt : (⟨S2046, .f32⟩ : BufTy).Contents (Elt F)) : (⟨S128, .f32⟩ : BufTy).Contents (Elt F) :=
  Host.divf (extractStridedSlice S128 ![126] nt slices_S2046_S128_126) (extractStridedSlice S128 ![126] dt slices_S2046_S128_126)
def alphaK_7 (nt dt : (⟨S2046, .f32⟩ : BufTy).Contents (Elt F)) : (⟨S256, .f32⟩ : BufTy).Contents (Elt F) :=
  Host.divf (extractStridedSlice S256 ![254] nt slices_S2046_S256_254) (extractStridedSlice S256 ![254] dt slices_S2046_S256_254)
def alphaK_8 (nt dt : (⟨S2046, .f32⟩ : BufTy).Contents (Elt F)) : (⟨S512, .f32⟩ : BufTy).Contents (Elt F) :=
  Host.divf (extractStridedSlice S512 ![510] nt slices_S2046_S512_510) (extractStridedSlice S512 ![510] dt slices_S2046_S512_510)
def alphaK_9 (nt dt : (⟨S2046, .f32⟩ : BufTy).Contents (Elt F)) : (⟨S1024, .f32⟩ : BufTy).Contents (Elt F) :=
  Host.divf (extractStridedSlice S1024 ![1022] nt slices_S2046_S1024_1022) (extractStridedSlice S1024 ![1022] dt slices_S2046_S1024_1022)

def term (n : ℕ) (hb : S_.BroadcastsInDim ⟨1, ![n]⟩ (![] : Fin 0 → Fin 1)) (hr : Shape.ReducesTo ⟨1, ![n]⟩ [0] S_)
    (α : (⟨⟨1, ![n]⟩, .f32⟩ : BufTy).Contents (Elt F)) : (⟨S_, .f32⟩ : BufTy).Contents (Elt F) :=
  Host.reduceAdd
    (mulf (broadcastInDim ⟨1, ![n]⟩ ![] hb (constant S_ .f32 0xBF000000#32))
      (addf (Host.log α) (Host.log (subf (broadcastInDim ⟨1, ![n]⟩ ![] hb (constant S_ .f32 0x3F800000#32)) α))))
    (constant S_ .f32 0x00000000#32) hr h_S_

def reg (nt dt : (⟨S2046, .f32⟩ : BufTy).Contents (Elt F)) : (⟨S_, .f32⟩ : BufTy).Contents (Elt F) :=
  addf (addf (addf (addf (addf (addf (addf (addf (addf (addf (constant S_ .f32 0x00000000#32)
    (mulf (constant S_ .f32 0x3A83126F#32) (term 2 bcast_S_S2 reducesTo_S2_S_d0 (alphaK_0 nt dt))))
    (mulf (constant S_ .f32 0x3A03126F#32) (term 4 bcast_S_S4 reducesTo_S4_S_d0 (alphaK_1 nt dt))))
    (mulf (constant S_ .f32 0x3983126F#32) (term 8 bcast_S_S8 reducesTo_S8_S_d0 (alphaK_2 nt dt))))
    (mulf (constant S_ .f32 0x3903126F#32) (term 16 bcast_S_S16 reducesTo_S16_S_d0 (alphaK_3 nt dt))))
    (mulf (constant S_ .f32 0x3883126F#32) (term 32 bcast_S_S32 reducesTo_S32_S_d0 (alphaK_4 nt dt))))
    (mulf (constant S_ .f32 0x3803126F#32) (term 64 bcast_S_S64 reducesTo_S64_S_d0 (alphaK_5 nt dt))))
    (mulf (constant S_ .f32 0x3783126F#32) (term 128 bcast_S_S128 reducesTo_S128_S_d0 (alphaK_6 nt dt))))
    (mulf (constant S_ .f32 0x3703126F#32) (term 256 bcast_S_S256 reducesTo_S256_S_d0 (alphaK_7 nt dt))))
    (mulf (constant S_ .f32 0x3683126F#32) (term 512 bcast_S_S512 reducesTo_S512_S_d0 (alphaK_8 nt dt))))
    (mulf (constant S_ .f32 0x3603126F#32) (term 1024 bcast_S_S1024 reducesTo_S1024_S_d0 (alphaK_9 nt dt)))

set_option maxHeartbeats 4000000 in
theorem reg_term (Wt : Valuation τ sig (Elt F)) :
    StableHlo.after hostOps1 Wt (Proc.devRef .tc main_v178)
      = reg (numTot (Wt (Proc.devRef .tc main_v38_1))) (denTot (Wt (Proc.devRef .tc main_v38_2))) := by
  show StableHlo.after hostOps1 Wt (Proc.devRef .tc main_v178) = _
  simp only [hostOps1]
  after_results_simp
  rfl

-- Row t of the 32 kept rows is row 8 t of the 256: row 8 t + s of the array is row s of tile t, and s = 0 is kept.
theorem tileRow0_apply {α : Type} (a : S256x2046.Idx → α) (t : Fin 32) (q : Fin 2046) :
    shapeCast S32x2046
        (extractStridedSlice S32x1x2046 ![0, 0, 0] (shapeCast S32x8x2046 a shapeCasts_S256x2046_S32x8x2046)
          slices_S32x8x2046_S32x1x2046_0_0_0)
        shapeCasts_S32x1x2046_S32x2046 (ix2 t q)
      = a (ix2 ⟨8 * t.val, by omega⟩ q) := by
  rw [shapeCast_apply _ shapeCasts_S32x1x2046_S32x2046 (ix2 t q) (ix3 t (0 : Fin 1) q) (by
        rw [Shape.rowMajor_val_three, Shape.rowMajor_val_two]
        show (t.val * 1 + 0) * 2046 + q.val = t.val * 2046 + q.val
        omega),
    slice3_axis1_apply 0 _ slices_S32x8x2046_S32x1x2046_0_0_0 t (0 : Fin 1) q (0 : Fin 8) rfl,
    shapeCast_apply a shapeCasts_S256x2046_S32x8x2046 (ix3 t (0 : Fin 8) q) (ix2 ⟨8 * t.val, by omega⟩ q) (by
        rw [Shape.rowMajor_val_two, Shape.rowMajor_val_three]
        show (8 * t.val) * 2046 + q.val = (t.val * 8 + 0) * 2046 + q.val
        omega)]

theorem numTot_apply (a : FVec Ideal S256x2046 .f32) (q : Fin 2046) :
    numTot (F := Ideal) a (ix1 q)
      = Ideal.ofBits .f32 0x00000000#32 + ∑ t : Fin 32, a (ix2 ⟨8 * t.val, by omega⟩ q) := by
  unfold numTot Host.reduceAdd
  rw [Ideal.hostReduceAdd_def,
    Ideal.hostReduceAdd_single reducesTo_S32x2046_S2046_d0 (by decide : S32x2046.Reduces [0] S2046)]
  exact congrArg₂ (· + ·) rfl (Finset.sum_congr rfl fun t _ =>
    (congrArg _ (Shape.idx_ext₂ rfl rfl)).trans (tileRow0_apply a t q))

theorem denTot_apply (a : FVec Ideal S256x2046 .f32) (q : Fin 2046) :
    denTot (F := Ideal) a (ix1 q)
      = (Ideal.ofBits .f32 0x00000000#32 + ∑ t : Fin 32, a (ix2 ⟨8 * t.val, by omega⟩ q))
        + Ideal.ofBits .f32 0x322BCC77#32 := by
  unfold denTot
  rw [addf_apply, numTot_apply]
  rfl

-- The quotient of two rows cut from o on reads, at j, the quotient of the sources at o + j.
theorem divSlice_apply {N n : ℕ} (o : ℕ) (nt dt : FVec Ideal ⟨1, ![N]⟩ .f32)
    (h : (⟨1, ![N]⟩ : Shape).Slices ![o] ⟨1, ![n]⟩) (j : Fin n) (k : Fin N) (hk : k.val = o + j.val) :
    Host.divf (F := Ideal) (extractStridedSlice ⟨1, ![n]⟩ ![o] nt h) (extractStridedSlice ⟨1, ![n]⟩ ![o] dt h) (ix1 j)
      = FloatOps.hostDivf (nt (ix1 k)) (dt (ix1 k)) := by
  have e := fun X : FVec Ideal ⟨1, ![N]⟩ .f32 => extractStridedSlice_apply ![o] X h (ix1 j) (ix1 k) fun a => by
    match a with
    | ⟨0, _⟩ => exact hk
  exact congrArg₂ FloatOps.hostDivf (e nt) (e dt)

theorem alphaK_0_apply (nt dt : FVec Ideal S2046 .f32) (j : Fin 2) :
    alphaK_0 (F := Ideal) nt dt (ix1 j)
      = FloatOps.hostDivf (nt (ix1 ⟨0 + j.val, by omega⟩)) (dt (ix1 ⟨0 + j.val, by omega⟩)) :=
  divSlice_apply 0 nt dt slices_S2046_S2_0 j _ rfl
theorem alphaK_1_apply (nt dt : FVec Ideal S2046 .f32) (j : Fin 4) :
    alphaK_1 (F := Ideal) nt dt (ix1 j)
      = FloatOps.hostDivf (nt (ix1 ⟨2 + j.val, by omega⟩)) (dt (ix1 ⟨2 + j.val, by omega⟩)) :=
  divSlice_apply 2 nt dt slices_S2046_S4_2 j _ rfl
theorem alphaK_2_apply (nt dt : FVec Ideal S2046 .f32) (j : Fin 8) :
    alphaK_2 (F := Ideal) nt dt (ix1 j)
      = FloatOps.hostDivf (nt (ix1 ⟨6 + j.val, by omega⟩)) (dt (ix1 ⟨6 + j.val, by omega⟩)) :=
  divSlice_apply 6 nt dt slices_S2046_S8_6 j _ rfl
theorem alphaK_3_apply (nt dt : FVec Ideal S2046 .f32) (j : Fin 16) :
    alphaK_3 (F := Ideal) nt dt (ix1 j)
      = FloatOps.hostDivf (nt (ix1 ⟨14 + j.val, by omega⟩)) (dt (ix1 ⟨14 + j.val, by omega⟩)) :=
  divSlice_apply 14 nt dt slices_S2046_S16_14 j _ rfl
theorem alphaK_4_apply (nt dt : FVec Ideal S2046 .f32) (j : Fin 32) :
    alphaK_4 (F := Ideal) nt dt (ix1 j)
      = FloatOps.hostDivf (nt (ix1 ⟨30 + j.val, by omega⟩)) (dt (ix1 ⟨30 + j.val, by omega⟩)) :=
  divSlice_apply 30 nt dt slices_S2046_S32_30 j _ rfl
theorem alphaK_5_apply (nt dt : FVec Ideal S2046 .f32) (j : Fin 64) :
    alphaK_5 (F := Ideal) nt dt (ix1 j)
      = FloatOps.hostDivf (nt (ix1 ⟨62 + j.val, by omega⟩)) (dt (ix1 ⟨62 + j.val, by omega⟩)) :=
  divSlice_apply 62 nt dt slices_S2046_S64_62 j _ rfl
theorem alphaK_6_apply (nt dt : FVec Ideal S2046 .f32) (j : Fin 128) :
    alphaK_6 (F := Ideal) nt dt (ix1 j)
      = FloatOps.hostDivf (nt (ix1 ⟨126 + j.val, by omega⟩)) (dt (ix1 ⟨126 + j.val, by omega⟩)) :=
  divSlice_apply 126 nt dt slices_S2046_S128_126 j _ rfl
theorem alphaK_7_apply (nt dt : FVec Ideal S2046 .f32) (j : Fin 256) :
    alphaK_7 (F := Ideal) nt dt (ix1 j)
      = FloatOps.hostDivf (nt (ix1 ⟨254 + j.val, by omega⟩)) (dt (ix1 ⟨254 + j.val, by omega⟩)) :=
  divSlice_apply 254 nt dt slices_S2046_S256_254 j _ rfl
theorem alphaK_8_apply (nt dt : FVec Ideal S2046 .f32) (j : Fin 512) :
    alphaK_8 (F := Ideal) nt dt (ix1 j)
      = FloatOps.hostDivf (nt (ix1 ⟨510 + j.val, by omega⟩)) (dt (ix1 ⟨510 + j.val, by omega⟩)) :=
  divSlice_apply 510 nt dt slices_S2046_S512_510 j _ rfl
theorem alphaK_9_apply (nt dt : FVec Ideal S2046 .f32) (j : Fin 1024) :
    alphaK_9 (F := Ideal) nt dt (ix1 j)
      = FloatOps.hostDivf (nt (ix1 ⟨1022 + j.val, by omega⟩)) (dt (ix1 ⟨1022 + j.val, by omega⟩)) :=
  divSlice_apply 1022 nt dt slices_S2046_S1024_1022 j _ rfl

end Cert.KernelIdeal.Tail

end
-- ==== Proof.KICat.lean ====
import proofs.«128224_j82489141887173_2_alg».proof.Proof.Gen.KernelIdeal.Skeleton
import proofs.«128224_j82489141887173_2_alg».proof.Proof.Rows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Cat

open Cert.KernelIdeal Cert.KernelIdeal.Gen Idealize.ShloMosaic Idealize.ShloMosaic.ValueIdx

-- An [m, K] block times a [K, n] block into zero reads, at (r, c), row r against column c.
theorem mm_apply {m K n : ℕ} {φ₁ φ₂ : FTy} (d : DotDims ⟨2, ![m, K]⟩ ⟨2, ![K, n]⟩ ⟨2, ![m, n]⟩)
    (hr : d.contr.rank = 1) (hs : d.contr.size ⟨0, by omega⟩ = K)
    (hd : ∀ j k, d.lhsIdx j k = ix2 (j 0) (contrEquiv1 d K hr hs k) ∧ d.rhsIdx j k = ix2 (contrEquiv1 d K hr hs k) (j 1))
    (lhs : FVec Ideal ⟨2, ![m, K]⟩ φ₁) (rhs : FVec Ideal ⟨2, ![K, n]⟩ φ₂) (r : Fin m) (c : Fin n) :
    matmul d none lhs rhs (constant (F := Ideal) ⟨2, ![m, n]⟩ .f32 0x00000000#32) (ix2 r c)
      = ∑ k : Fin K, lhs (ix2 r k) * rhs (ix2 k c) := by
  refine (Ideal.matmul_constant_zero_apply d none lhs rhs (ix2 r c)).trans ?_
  refine (Finset.sum_congr rfl fun k _ => ?_).trans
    (Equiv.sum_comp (contrEquiv1 d K hr hs) fun i => lhs (ix2 r i) * rhs (ix2 i c))
  exact congrArg₂ (fun a b => lhs a * rhs b) (hd _ k).1 (hd _ k).2

theorem logits_apply (x0 : Vec Ideal S512x1024 .f32) (x1 x2 : Vec Ideal S1024x1024 .bf16) (x3 : Vec Ideal S1x1024 .f32)
    (r : Fin 512) (j : Fin 1024) :
    k0_pay4 x0 x1 x2 x3 (ix2 r j)
      = Ideal.logistic ((((∑ k : Fin 1024, x0 (ix2 r k) * x1 (ix2 k j)) + ∑ k : Fin 1024, x0 (ix2 r k) * x2 (ix2 k j))
          + ∑ k : Fin 1024, (x0 (ix2 r k) - x0 (ix2 r k)) * x1 (ix2 k j)) + x3 (ix2 (0 : Fin 1) j)) := by
  have mm := fun l w => mm_apply dot_S512x1024_S1024x1024_S512x1024_1_0_0_1_n_n rfl rfl
    (fun _ _ => ⟨Shape.idx_ext₂ rfl rfl, Shape.idx_ext₂ rfl rfl⟩) (φ₁ := .bf16) (φ₂ := .bf16) l w r j
  unfold k0_pay4
  refine congrArg Ideal.logistic (congrArg₂ (· + ·) (congrArg₂ (· + ·) (congrArg₂ (· + ·) ?_ ?_) ?_) ?_)
  iterate 3 exact (mm _ _).trans (by rw [shapeCast_self]; rfl)
  exact (broadcastTo_1b_ab_apply _ _ r j).trans (by rw [shapeCast_self])

theorem pred_apply (P : FVec Ideal S512x1024 .f32) (x4 x5 : Vec Ideal S1024x1000 .bf16) (r : Fin 512) (o : Fin 1000) :
    k0_pay3 P x4 x5 (ix2 r o)
      = ((∑ j : Fin 1024, P (ix2 r j) * x4 (ix2 j o)) + ∑ j : Fin 1024, P (ix2 r j) * x5 (ix2 j o))
          + ∑ j : Fin 1024, (P (ix2 r j) - P (ix2 r j)) * x4 (ix2 j o) := by
  have mm := fun l w => mm_apply dot_S512x1024_S1024x1000_S512x1000_1_0_0_1_n_n rfl rfl
    (fun _ _ => ⟨Shape.idx_ext₂ rfl rfl, Shape.idx_ext₂ rfl rfl⟩) (φ₁ := .bf16) (φ₂ := .bf16) l w r o
  unfold k0_pay3
  refine congrArg₂ (· + ·) (congrArg₂ (· + ·) ?_ ?_) ?_
  iterate 3 exact (mm _ _).trans (by rw [shapeCast_self]; rfl)

-- Rows laid end to end, then repeated on every row: column o + j reads row k at column j, o the widths before k added up.
theorem bcastCat_apply {α : Type} {a N n : ℕ} (xs : List ((s : Shape) × (s.Idx → α)))
    (h : Shape.Concatenates (xs.map (·.1)) ⟨2, ![1, N]⟩ 1) (hc : (⟨2, ![1, N]⟩ : Shape).ShapeCasts ⟨2, ![1, N]⟩)
    (hb : (⟨2, ![1, N]⟩ : Shape).Broadcasts ⟨2, ![a, N]⟩) (k : ℕ)
    (v : (⟨2, ![1, n]⟩ : Shape).Idx → α) (hv : xs[k]? = some ⟨⟨2, ![1, n]⟩, v⟩) (o : ℕ)
    (ho : (((xs.take k).map (·.1)).map fun s : Shape => if h : s.rank = 2 then s.size ((1 : Fin 2).cast h.symm) else 0).sum = o)
    (q : Fin a) (j : Fin n) (c : Fin N) (hcj : o + j.val = c.val) :
    broadcastTo ⟨2, ![a, N]⟩ (shapeCast ⟨2, ![1, N]⟩ (concatenate ⟨2, ![1, N]⟩ 1 xs h) hc) hb (ix2 q c)
      = v (ix2 (0 : Fin 1) j) := by
  obtain ⟨hk, hv⟩ := List.getElem_of_getElem? hv
  rw [broadcastTo_1b_ab_apply, shapeCast_self]
  exact concatenate_apply_piece (t := ⟨2, ![1, N]⟩) 1 xs h _ k hk _ v hv rfl o ho (ix2 (0 : Fin 1) j) (fun b hb => by
    match b, hb with
    | ⟨0, _⟩, _ => rfl
    | ⟨1, _⟩, hb => exact absurd rfl hb) hcj

section Num

variable (v39 : FVec Ideal S1x2 .f32) (v61 : FVec Ideal S1x4 .f32) (v83 : FVec Ideal S1x8 .f32) (v105 : FVec Ideal S1x16 .f32) (v127 : FVec Ideal S1x32 .f32) (v149 : FVec Ideal S1x64 .f32) (v171 : FVec Ideal S1x128 .f32) (v193 : FVec Ideal S1x256 .f32) (v215 : FVec Ideal S1x512 .f32) (v237 : FVec Ideal S1x1024 .f32)

theorem num_cat_0 (q : Fin 8) (j : Fin 2) :
    k0_pay1 v39 v61 v83 v105 v127 v149 v171 v193 v215 v237 (ix2 q (⟨0 + j.val, by omega⟩ : Fin 2046)) = v39 (ix2 (0 : Fin 1) j) :=
  bcastCat_apply _ _ _ broadcasts_S1x2046_S8x2046 0 v39 rfl 0 rfl q j _ rfl

theorem num_cat_1 (q : Fin 8) (j : Fin 4) :
    k0_pay1 v39 v61 v83 v105 v127 v149 v171 v193 v215 v237 (ix2 q (⟨2 + j.val, by omega⟩ : Fin 2046)) = v61 (ix2 (0 : Fin 1) j) :=
  bcastCat_apply _ _ _ broadcasts_S1x2046_S8x2046 1 v61 rfl 2 rfl q j _ rfl

theorem num_cat_2 (q : Fin 8) (j : Fin 8) :
    k0_pay1 v39 v61 v83 v105 v127 v149 v171 v193 v215 v237 (ix2 q (⟨6 + j.val, by omega⟩ : Fin 2046)) = v83 (ix2 (0 : Fin 1) j) :=
  bcastCat_apply _ _ _ broadcasts_S1x2046_S8x2046 2 v83 rfl 6 rfl q j _ rfl

theorem num_cat_3 (q : Fin 8) (j : Fin 16) :
    k0_pay1 v39 v61 v83 v105 v127 v149 v171 v193 v215 v237 (ix2 q (⟨14 + j.val, by omega⟩ : Fin 2046)) = v105 (ix2 (0 : Fin 1) j) :=
  bcastCat_apply _ _ _ broadcasts_S1x2046_S8x2046 3 v105 rfl 14 rfl q j _ rfl

theorem num_cat_4 (q : Fin 8) (j : Fin 32) :
    k0_pay1 v39 v61 v83 v105 v127 v149 v171 v193 v215 v237 (ix2 q (⟨30 + j.val, by omega⟩ : Fin 2046)) = v127 (ix2 (0 : Fin 1) j) :=
  bcastCat_apply _ _ _ broadcasts_S1x2046_S8x2046 4 v127 rfl 30 rfl q j _ rfl

theorem num_cat_5 (q : Fin 8) (j : Fin 64) :
    k0_pay1 v39 v61 v83 v105 v127 v149 v171 v193 v215 v237 (ix2 q (⟨62 + j.val, by omega⟩ : Fin 2046)) = v149 (ix2 (0 : Fin 1) j) :=
  bcastCat_apply _ _ _ broadcasts_S1x2046_S8x2046 5 v149 rfl 62 rfl q j _ rfl

theorem num_cat_6 (q : Fin 8) (j : Fin 128) :
    k0_pay1 v39 v61 v83 v105 v127 v149 v171 v193 v215 v237 (ix2 q (⟨126 + j.val, by omega⟩ : Fin 2046)) = v171 (ix2 (0 : Fin 1) j) :=
  bcastCat_apply _ _ _ broadcasts_S1x2046_S8x2046 6 v171 rfl 126 rfl q j _ rfl

theorem num_cat_7 (q : Fin 8) (j : Fin 256) :
    k0_pay1 v39 v61 v83 v105 v127 v149 v171 v193 v215 v237 (ix2 q (⟨254 + j.val, by omega⟩ : Fin 2046)) = v193 (ix2 (0 : Fin 1) j) :=
  bcastCat_apply _ _ _ broadcasts_S1x2046_S8x2046 7 v193 rfl 254 rfl q j _ rfl

theorem num_cat_8 (q : Fin 8) (j : Fin 512) :
    k0_pay1 v39 v61 v83 v105 v127 v149 v171 v193 v215 v237 (ix2 q (⟨510 + j.val, by omega⟩ : Fin 2046)) = v215 (ix2 (0 : Fin 1) j) :=
  bcastCat_apply _ _ _ broadcasts_S1x2046_S8x2046 8 v215 rfl 510 rfl q j _ rfl

theorem num_cat_9 (q : Fin 8) (j : Fin 1024) :
    k0_pay1 v39 v61 v83 v105 v127 v149 v171 v193 v215 v237 (ix2 q (⟨1022 + j.val, by omega⟩ : Fin 2046)) = v237 (ix2 (0 : Fin 1) j) :=
  bcastCat_apply _ _ _ broadcasts_S1x2046_S8x2046 9 v237 rfl 1022 rfl q j _ rfl

end Num

section Den

-- The sum over the rows of a block, as one row, read at a column.
theorem colsum_apply (v : FVec Ideal S512x1024 .f32) (j : Fin 1024) :
    shapeCast S1x1024 (multiReduction (F := Ideal) .add [0] S1024 v 0x00000000#32 reduces_S512x1024_S1024 (.inl rfl) rfl)
        shapeCasts_S1024_S1x1024 (ix2 (0 : Fin 1) j) = ∑ r : Fin 512, v (ix2 r j) := by
  exact (shapeCast_a_1a_apply _ _ 0 j).trans ((Ideal.multiReduction_add_single v _ reduces_S512x1024_S1024 _ _ (ix1 j)).trans
    (Finset.sum_congr rfl fun r _ => congrArg v (Shape.idx_ext₂ rfl rfl)))

variable (v41 : FVec Ideal S1x2 .f32) (v63 : FVec Ideal S1x4 .f32) (v85 : FVec Ideal S1x8 .f32) (v107 : FVec Ideal S1x16 .f32) (v129 : FVec Ideal S1x32 .f32) (v151 : FVec Ideal S1x64 .f32) (v173 : FVec Ideal S1x128 .f32) (v195 : FVec Ideal S1x256 .f32) (v217 : FVec Ideal S1x512 .f32) (v234 : FVec Ideal S512x1024 .f32)

theorem den_cat_0 (q : Fin 8) (j : Fin 2) :
    k0_pay2 v41 v63 v85 v107 v129 v151 v173 v195 v217 v234 (ix2 q (⟨0 + j.val, by omega⟩ : Fin 2046)) = v41 (ix2 (0 : Fin 1) j) :=
  bcastCat_apply _ _ _ broadcasts_S1x2046_S8x2046 0 v41 rfl 0 rfl q j _ rfl

theorem den_cat_1 (q : Fin 8) (j : Fin 4) :
    k0_pay2 v41 v63 v85 v107 v129 v151 v173 v195 v217 v234 (ix2 q (⟨2 + j.val, by omega⟩ : Fin 2046)) = v63 (ix2 (0 : Fin 1) j) :=
  bcastCat_apply _ _ _ broadcasts_S1x2046_S8x2046 1 v63 rfl 2 rfl q j _ rfl

theorem den_cat_2 (q : Fin 8) (j : Fin 8) :
    k0_pay2 v41 v63 v85 v107 v129 v151 v173 v195 v217 v234 (ix2 q (⟨6 + j.val, by omega⟩ : Fin 2046)) = v85 (ix2 (0 : Fin 1) j) :=
  bcastCat_apply _ _ _ broadcasts_S1x2046_S8x2046 2 v85 rfl 6 rfl q j _ rfl

theorem den_cat_3 (q : Fin 8) (j : Fin 16) :
    k0_pay2 v41 v63 v85 v107 v129 v151 v173 v195 v217 v234 (ix2 q (⟨14 + j.val, by omega⟩ : Fin 2046)) = v107 (ix2 (0 : Fin 1) j) :=
  bcastCat_apply _ _ _ broadcasts_S1x2046_S8x2046 3 v107 rfl 14 rfl q j _ rfl

theorem den_cat_4 (q : Fin 8) (j : Fin 32) :
    k0_pay2 v41 v63 v85 v107 v129 v151 v173 v195 v217 v234 (ix2 q (⟨30 + j.val, by omega⟩ : Fin 2046)) = v129 (ix2 (0 : Fin 1) j) :=
  bcastCat_apply _ _ _ broadcasts_S1x2046_S8x2046 4 v129 rfl 30 rfl q j _ rfl

theorem den_cat_5 (q : Fin 8) (j : Fin 64) :
    k0_pay2 v41 v63 v85 v107 v129 v151 v173 v195 v217 v234 (ix2 q (⟨62 + j.val, by omega⟩ : Fin 2046)) = v151 (ix2 (0 : Fin 1) j) :=
  bcastCat_apply _ _ _ broadcasts_S1x2046_S8x2046 5 v151 rfl 62 rfl q j _ rfl

theorem den_cat_6 (q : Fin 8) (j : Fin 128) :
    k0_pay2 v41 v63 v85 v107 v129 v151 v173 v195 v217 v234 (ix2 q (⟨126 + j.val, by omega⟩ : Fin 2046)) = v173 (ix2 (0 : Fin 1) j) :=
  bcastCat_apply _ _ _ broadcasts_S1x2046_S8x2046 6 v173 rfl 126 rfl q j _ rfl

theorem den_cat_7 (q : Fin 8) (j : Fin 256) :
    k0_pay2 v41 v63 v85 v107 v129 v151 v173 v195 v217 v234 (ix2 q (⟨254 + j.val, by omega⟩ : Fin 2046)) = v195 (ix2 (0 : Fin 1) j) :=
  bcastCat_apply _ _ _ broadcasts_S1x2046_S8x2046 7 v195 rfl 254 rfl q j _ rfl

theorem den_cat_8 (q : Fin 8) (j : Fin 512) :
    k0_pay2 v41 v63 v85 v107 v129 v151 v173 v195 v217 v234 (ix2 q (⟨510 + j.val, by omega⟩ : Fin 2046)) = v217 (ix2 (0 : Fin 1) j) :=
  bcastCat_apply _ _ _ broadcasts_S1x2046_S8x2046 8 v217 rfl 510 rfl q j _ rfl

theorem den_cat_9 (q : Fin 8) (j : Fin 1024) :
    k0_pay2 v41 v63 v85 v107 v129 v151 v173 v195 v217 v234 (ix2 q (⟨1022 + j.val, by omega⟩ : Fin 2046)) = ∑ r : Fin 512, v234 (ix2 r j) :=
  (bcastCat_apply _ _ _ broadcasts_S1x2046_S8x2046 9 _ rfl 1022 rfl q j _ rfl).trans (colsum_apply v234 j)

end Den

end Cert.KernelIdeal.Cat

end
-- ==== Proof.KILayersLib.lean ====
import proofs.«128224_j82489141887173_2_alg».proof.Proof.Gen.KernelIdeal.Skeleton
import proofs.«128224_j82489141887173_2_alg».proof.Proof.Rows
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.StackMember
import Idealize.ShloMosaic.PureOps.Ideal.Laws

noncomputable section

namespace Cert.KernelIdeal.Layers

open Cert.KernelIdeal Cert.KernelIdeal.Gen Idealize.ShloMosaic Idealize.ShloMosaic.ValueIdx
open scoped BigOperators

section Layout
variable {α : Type} {A n m : ℕ} (x₁ x₂ : (⟨2, ![A, n]⟩ : Shape).Idx → α)
  (h : Shape.Concatenates [⟨2, ![A, n]⟩, ⟨2, ![A, n]⟩] ⟨2, ![A, m]⟩ 1) (r : Fin A) (j : Fin m) (i : Fin n)

theorem concat2_left (hi : i.val = j.val) :
    concatenate ⟨2, ![A, m]⟩ 1 [⟨⟨2, ![A, n]⟩, x₁⟩, ⟨⟨2, ![A, n]⟩, x₂⟩] h (ix2 r j) = x₁ (ix2 r i) :=
  concatenate_pair_apply_left 1 x₁ x₂ h (ix2 r j) rfl (ix2 r i) fun b => by
    match b with
    | ⟨0, _⟩ => rfl
    | ⟨1, _⟩ => exact hi

theorem concat2_right (hi : i.val + n = j.val) :
    concatenate ⟨2, ![A, m]⟩ 1 [⟨⟨2, ![A, n]⟩, x₁⟩, ⟨⟨2, ![A, n]⟩, x₂⟩] h (ix2 r j) = x₂ (ix2 r i) :=
  concatenate_pair_apply_right 1 x₁ x₂ h (ix2 r j) rfl rfl (ix2 r i) (fun b hb => by
    match b with
    | ⟨0, _⟩ => rfl
    | ⟨1, _⟩ => exact absurd rfl hb) hi

-- A block beside itself repeats with period its width.
theorem concat2_self (hm : m = n + n) (hi : i.val = j.val % n) :
    concatenate ⟨2, ![A, m]⟩ 1 [⟨⟨2, ![A, n]⟩, x₁⟩, ⟨⟨2, ![A, n]⟩, x₁⟩] h (ix2 r j) = x₁ (ix2 r i) := by
  have hj := j.isLt
  by_cases hlt : j.val < n
  · exact concat2_left x₁ x₁ h r j i (by rw [hi, Nat.mod_eq_of_lt hlt])
  · have h1 : j.val % n = j.val - n := by
      rw [Nat.mod_eq_sub_mod (by omega), Nat.mod_eq_of_lt (by omega)]
    exact concat2_right x₁ x₁ h r j i (by omega)

end Layout

section Select

theorem muli_two_ofNat (b : ℕ) : IntOp.muli 2#32 (BitVec.ofNat 32 b) = BitVec.ofNat 32 (2 * b) := by
  apply BitVec.eq_of_toNat_eq
  simp only [IntOp.muli, BitVec.toNat_mul, BitVec.toNat_ofNat]
  omega

-- Both numbers are below 2 ^ 32, so comparing their 32-bit forms decides a = 2 b.
theorem sel_word (a b : ℕ) (ha : a < 2 ^ 31) (hb : b < 2 ^ 30) :
    (FloatOps.sitofp (F := Ideal) .f32
        ((IntOp.cmpi .eq (BitVec.ofNat 32 a) (IntOp.muli 2#32 (BitVec.ofNat 32 b))).setWidth 32) : EReal)
      = if a = 2 * b then 1 else 0 := by
  rw [muli_two_ofNat]
  show (((((IntOp.cmpi .eq (BitVec.ofNat 32 a) (BitVec.ofNat 32 (2 * b))).setWidth 32).toInt : ℝ)) : EReal) = _
  by_cases h : a = 2 * b
  · have hc : IntOp.cmpi .eq (BitVec.ofNat 32 a) (BitVec.ofNat 32 (2 * b)) = 1#1 :=
      StableHlo.Predicate.cmpi_eq_iff.mpr (by rw [h])
    rw [hc, if_pos h]
    norm_num
  · have hc : IntOp.cmpi .eq (BitVec.ofNat 32 a) (BitVec.ofNat 32 (2 * b)) = 0#1 := by
      refine eq_zero_of_ne_one fun h1 => h ?_
      have e := congrArg BitVec.toNat (StableHlo.Predicate.cmpi_eq_iff.mp h1)
      simp only [BitVec.toNat_ofNat] at e
      omega
    rw [hc, if_neg h]
    norm_num

theorem sel_apply {M N : ℕ} (h0 : (⟨2, ![M, N]⟩ : Shape).Iotas .tc 32 [0]) (h1 : (⟨2, ![M, N]⟩ : Shape).Iotas .tc 32 [1])
    (hw : 1 < 32) (hb : FTy.bits .bf16 < FTy.bits .f32) (hM : M < 2 ^ 31) (hN : N < 2 ^ 30) (a : Fin M) (b : Fin N) :
    (truncf (F := Ideal) .bf16 (sitofp .f32 (extui 32 (cmpi .eq (iota .tc ⟨2, ![M, N]⟩ 32 [0] h0)
        (muli (broadcast ⟨2, ![M, N]⟩ 2#32) (iota .tc ⟨2, ![M, N]⟩ 32 [1] h1))) hw)) hb) (ix2 a b)
      = if a.val = 2 * b.val then 1 else 0 := by
  rw [truncf_apply, sitofp_apply, extui_apply]
  show (FloatOps.sitofp (F := Ideal) .f32 ((IntOp.cmpi .eq (iota .tc ⟨2, ![M, N]⟩ 32 [0] h0 (ix2 a b))
      (IntOp.muli 2#32 (iota .tc ⟨2, ![M, N]⟩ 32 [1] h1 (ix2 a b)))).setWidth 32) : EReal) = _
  rw [iota_single_apply, iota_single_apply]
  exact sel_word a.val b.val (by have := a.isLt; omega) (by have := b.isLt; omega)

-- Against a column that is one at row 2 k and zero elsewhere, the sum keeps one term.
theorem sum_mul_sel {M N : ℕ} (f : Fin M → EReal) (g : Fin M → Fin N → EReal)
    (hg : ∀ a b, g a b = if a.val = 2 * b.val then 1 else 0) (k : Fin N) (k2 : Fin M) (hk2 : k2.val = 2 * k.val) :
    ∑ a : Fin M, f a * g a k = f k2 := by
  rw [Finset.sum_eq_single k2]
  · rw [hg, if_pos hk2, mul_one]
  · intro a _ hne
    rw [hg, if_neg (fun h => hne (Fin.ext (by omega))), mul_zero]
  · intro h; exact absurd (Finset.mem_univ _) h

end Select

section Contract

theorem matmul_zero_ix2 {A K N : ℕ} {φ₁ φ₂ : FTy} (lhs : FVec Ideal ⟨2, ![A, K]⟩ φ₁) (rhs : FVec Ideal ⟨2, ![K, N]⟩ φ₂)
    (r : Fin A) (c : Fin N) :
    matmul (DotDims.plain A K N) none lhs rhs (constant (F := Ideal) ⟨2, ![A, N]⟩ .f32 0x00000000#32) (ix2 r c)
      = ∑ k : Fin K, lhs (ix2 r k) * rhs (ix2 k c) :=
  (Ideal.matmul_constant_zero_apply _ none lhs rhs _).trans
    ((Ideal.dotGeneral_apply _ none _ lhs rhs _).symm.trans (StackMember.dotGeneral_plain_apply none lhs rhs r c))

variable {A N : ℕ} (h : (⟨2, ![A, N]⟩ : Shape).Reduces [0] ⟨1, ![N]⟩) (hφ : FKind.Formats .f32)
  (hacc : (0x00000000#32 : BitVec 32) = FKind.add.neutral .f32 hφ) (hc : (⟨1, ![N]⟩ : Shape).ShapeCasts ⟨2, ![1, N]⟩)
  (j : Fin N) {f g : Fin A → EReal}

theorem den_gen (y : FVec Ideal ⟨2, ![A, N]⟩ .f32) (hg : ∀ r, y (ix2 r j) = g r) :
    shapeCast ⟨2, ![1, N]⟩ (multiReduction (F := Ideal) .add [0] ⟨1, ![N]⟩ y 0x00000000#32 h hφ hacc) hc (ix2 (0 : Fin 1) j)
      = ∑ r : Fin A, g r := by
  rw [shapeCast_a_1a_apply]
  refine (Ideal.multiReduction_add_single y 0x00000000#32 h hφ hacc (ix1 j)).trans ?_
  show ∑ k : Fin A, y (h.lift (ix1 j) k) = _
  refine Finset.sum_congr rfl fun k _ => (congrArg y (funext fun a => Fin.ext ?_)).trans (hg k)
  match a with
  | ⟨0, _⟩ => rfl
  | ⟨1, _⟩ => rfl

theorem num_gen (x y : FVec Ideal ⟨2, ![A, N]⟩ .f32) (hf : ∀ r, x (ix2 r j) = f r) (hg : ∀ r, y (ix2 r j) = g r) :
    shapeCast ⟨2, ![1, N]⟩ (multiReduction (F := Ideal) .add [0] ⟨1, ![N]⟩ (mulf x y) 0x00000000#32 h hφ hacc) hc
      (ix2 (0 : Fin 1) j) = ∑ r : Fin A, f r * g r :=
  den_gen h hφ hacc hc j (mulf x y) fun r => by rw [mulf_apply, hf, hg]

end Contract

section Level
variable (d : ℕ) {n m o : ℕ} (hn : n = 2 ^ d) (hm : m = n + n) (c1 : EReal) (lg : ℕ → EReal)
  (hc : Shape.Concatenates [⟨2, ![512, n]⟩, ⟨2, ![512, n]⟩] ⟨2, ![512, m]⟩ 1) (r : Fin 512)

theorem one_eq : (Scalar.ofBits (F := Ideal) .f32 0x3F800000#32 : EReal) = SDT.c1 := rfl

include hn hm in
theorem lp_gen (ho : o + 1 = n) (L : FVec Ideal S512x1024 .f32) (hs : S512x1024.Slices ![0, o] ⟨2, ![512, n]⟩)
    (j : Fin m) :
    concatenate ⟨2, ![512, m]⟩ 1
        [⟨⟨2, ![512, n]⟩, extractStridedSlice ⟨2, ![512, n]⟩ ![0, o] L hs⟩,
         ⟨⟨2, ![512, n]⟩, subf (broadcast ⟨2, ![512, n]⟩ (Scalar.ofBits (F := Ideal) .f32 0x3F800000#32))
            (extractStridedSlice ⟨2, ![512, n]⟩ ![0, o] L hs)⟩] hc (ix2 r j)
      = SDT.lpK SDT.c1 (SDT.rowOf (A := 512) (B := 1024) L r) d j.val := by
  have hj := j.isLt
  have hb : o + n ≤ 1024 := hs.2 1
  unfold SDT.lpK SDT.rt
  rw [← hn]
  by_cases hlt : j.val < n
  · rw [concat2_left _ _ hc r j ⟨j.val, hlt⟩ rfl,
      slice2_axis1_apply o L hs r ⟨j.val, hlt⟩ ⟨o + j.val, by omega⟩ rfl,
      Nat.div_eq_of_lt hlt, if_pos rfl, Nat.mod_eq_of_lt hlt,
      show n - 1 + j.val = o + j.val by omega, SDT.rowOf_lt _ _ _ (by omega)]
  · have h1 : j.val % n = j.val - n := by
      rw [Nat.mod_eq_sub_mod (by omega), Nat.mod_eq_of_lt (by omega)]
    have h2 : j.val / n = 1 := Nat.div_eq_of_lt_le (by omega) (by omega)
    rw [concat2_right _ _ hc r j ⟨j.val - n, by omega⟩ (by show j.val - n + n = j.val; omega),
      subf_apply, broadcast_apply, one_eq,
      slice2_axis1_apply o L hs r ⟨j.val - n, by omega⟩ ⟨o + (j.val - n), by omega⟩ rfl,
      h2, if_neg (by decide), h1,
      show n - 1 + (j.val - n) = o + (j.val - n) by omega, SDT.rowOf_lt _ _ _ (by omega)]

include hn in
theorem path_of_rep (REP LP : FVec Ideal ⟨2, ![512, m]⟩ .f32)
    (hREP : ∀ j : Fin m, REP (ix2 r j) = SDT.pK c1 lg d (j.val % n))
    (hLP : ∀ j : Fin m, LP (ix2 r j) = SDT.lpK c1 lg d j.val) (j : Fin m) :
    mulf REP LP (ix2 r j) = SDT.pK c1 lg (d + 1) j.val := by
  rw [mulf_apply, hREP, hLP]
  subst hn
  simp only [SDT.pK, SDT.lpK]

include hn hm in
theorem rep_gen (P : FVec Ideal ⟨2, ![512, n]⟩ .f32) (hP : ∀ i : Fin n, P (ix2 r i) = SDT.pK c1 lg d i.val) (j : Fin m) :
    concatenate ⟨2, ![512, m]⟩ 1 [⟨⟨2, ![512, n]⟩, P⟩, ⟨⟨2, ![512, n]⟩, P⟩] hc (ix2 r j)
      = SDT.pK c1 lg d (j.val % n) := by
  have hpos : 0 < n := by rw [hn]; positivity
  rw [concat2_self P hc r j ⟨j.val % n, Nat.mod_lt _ hpos⟩ hm rfl, hP]

include hn hm in
theorem path_gen (P : FVec Ideal ⟨2, ![512, n]⟩ .f32) (LP : FVec Ideal ⟨2, ![512, m]⟩ .f32)
    (hP : ∀ i : Fin n, P (ix2 r i) = SDT.pK c1 lg d i.val)
    (hLP : ∀ j : Fin m, LP (ix2 r j) = SDT.lpK c1 lg d j.val) (j : Fin m) :
    mulf (concatenate ⟨2, ![512, m]⟩ 1 [⟨⟨2, ![512, n]⟩, P⟩, ⟨⟨2, ![512, n]⟩, P⟩] hc) LP (ix2 r j)
      = SDT.pK c1 lg (d + 1) j.val :=
  path_of_rep d hn c1 lg r _ LP (rep_gen d hn hm c1 lg hc r P hP) hLP j

include hn hm in
-- The product with the 0/1 matrix keeps the even columns of the new path probabilities.
theorem parent_gen (hM : m < 2 ^ 30) (PB : FVec Ideal ⟨2, ![512, m]⟩ .bf16)
    (h0 : (⟨2, ![m, n]⟩ : Shape).Iotas .tc 32 [0]) (h1 : (⟨2, ![m, n]⟩ : Shape).Iotas .tc 32 [1])
    (hw : 1 < 32) (hb : FTy.bits .bf16 < FTy.bits .f32)
    (hPB : ∀ j : Fin m, PB (ix2 r j) = SDT.pK c1 lg (d + 1) j.val) (j : Fin m) :
    concatenate ⟨2, ![512, m]⟩ 1
        [⟨⟨2, ![512, n]⟩, matmul (DotDims.plain 512 m n) none PB
            (truncf (F := Ideal) .bf16 (sitofp .f32 (extui 32 (cmpi .eq (iota .tc ⟨2, ![m, n]⟩ 32 [0] h0)
              (muli (broadcast ⟨2, ![m, n]⟩ 2#32) (iota .tc ⟨2, ![m, n]⟩ 32 [1] h1))) hw)) hb)
            (constant (F := Ideal) ⟨2, ![512, n]⟩ .f32 0x00000000#32)⟩,
         ⟨⟨2, ![512, n]⟩, matmul (DotDims.plain 512 m n) none PB
            (truncf (F := Ideal) .bf16 (sitofp .f32 (extui 32 (cmpi .eq (iota .tc ⟨2, ![m, n]⟩ 32 [0] h0)
              (muli (broadcast ⟨2, ![m, n]⟩ 2#32) (iota .tc ⟨2, ![m, n]⟩ 32 [1] h1))) hw)) hb)
            (constant (F := Ideal) ⟨2, ![512, n]⟩ .f32 0x00000000#32)⟩] hc (ix2 r j)
      = SDT.parK c1 lg d j.val := by
  have hpos : 0 < n := by rw [hn]; positivity
  have hj := j.isLt
  have hlt : j.val % n < n := Nat.mod_lt _ hpos
  rw [concat2_self _ hc r j ⟨j.val % n, hlt⟩ hm rfl, matmul_zero_ix2 _ _ r ⟨j.val % n, hlt⟩,
    sum_mul_sel (fun a => PB (ix2 r a)) _
      (fun a b => sel_apply h0 h1 hw hb (by omega) (by omega) a b) ⟨j.val % n, hlt⟩ ⟨2 * (j.val % n), by omega⟩ rfl,
    hPB]
  subst hn
  rfl

end Level

section Shared
variable (L : FVec Ideal S512x1024 .f32) (r : Fin 512)

theorem path_4 (v89 v90 : FVec Ideal S512x16 .f32)
    (hlp : ∀ j : Fin 16, v89 (ix2 r j) = SDT.lpK SDT.c1 (SDT.rowOf (A := 512) (B := 1024) L r) 3 j.val)
    (hrep : ∀ j : Fin 16, v90 (ix2 r j) = SDT.pK SDT.c1 (SDT.rowOf (A := 512) (B := 1024) L r) 3 (j.val % 8))
    (j : Fin 16) :
    k0_pay22 v89 v90 (ix2 r j) = SDT.pK SDT.c1 (SDT.rowOf (A := 512) (B := 1024) L r) 4 j.val :=
  path_of_rep 3 (n := 8) (by norm_num) _ _ r v90 v89 hrep hlp j

theorem lp_6 (j : Fin 128) :
    k0_pay37 L (ix2 r j) = SDT.lpK SDT.c1 (SDT.rowOf (A := 512) (B := 1024) L r) 6 j.val :=
  lp_gen 6 (n := 64) (m := 128) (o := 63) (by norm_num) rfl concatenates_S512x64_S512x64_S512x128_d1 r rfl L _ j

theorem path_7 (v135 : FVec Ideal S512x64 .f32)
    (hprev : ∀ j : Fin 64, v135 (ix2 r j) = SDT.pK SDT.c1 (SDT.rowOf (A := 512) (B := 1024) L r) 6 j.val) (j : Fin 128) :
    k0_pay38 L v135 (ix2 r j) = SDT.pK SDT.c1 (SDT.rowOf (A := 512) (B := 1024) L r) 7 j.val :=
  path_gen 6 (n := 64) (by norm_num) rfl _ _ _ r v135 _ hprev (lp_6 L r) j

end Shared

end Cert.KernelIdeal.Layers

end
-- ==== Proof.KILayersA.lean ====
import proofs.«128224_j82489141887173_2_alg».proof.Proof.KILayersLib

noncomputable section

namespace Cert.KernelIdeal.LayersA

open Cert.KernelIdeal Cert.KernelIdeal.Gen Cert.KernelIdeal.Layers Idealize.ShloMosaic Idealize.ShloMosaic.ValueIdx
open scoped BigOperators

section Level0
variable (x0 : Vec Ideal S512x1024 .f32) (x1 x2 : Vec Ideal S1024x1024 .bf16) (x3 : Vec Ideal S1x1024 .f32)

theorem lp_0 (r : Fin 512) (j : Fin 2) :
    k0_pay5 x0 x1 x2 x3 (ix2 r j)
      = SDT.lpK SDT.c1 (SDT.rowOf (A := 512) (B := 1024) (k0_pay4 x0 x1 x2 x3) r) 0 j.val :=
  lp_gen 0 (n := 1) (m := 2) (o := 0) (by norm_num) rfl concatenates_S512x1_S512x1_S512x2_d1 r rfl (k0_pay4 x0 x1 x2 x3) _ j

theorem path_1 (r : Fin 512) (j : Fin 2) :
    k0_pay6 x0 x1 x2 x3 (ix2 r j)
      = SDT.pK SDT.c1 (SDT.rowOf (A := 512) (B := 1024) (k0_pay4 x0 x1 x2 x3) r) 1 j.val :=
  path_gen 0 (n := 1) (m := 2) (by norm_num) rfl _ _ _ r
    (broadcast S512x1 (Scalar.ofBits (F := Ideal) .f32 0x3F800000#32)) _ (fun _ => one_eq) (lp_0 x0 x1 x2 x3 r) j

theorem parent_0 (r : Fin 512) (j : Fin 2) :
    k0_pay7 x0 x1 x2 x3 (ix2 r j)
      = SDT.parK SDT.c1 (SDT.rowOf (A := 512) (B := 1024) (k0_pay4 x0 x1 x2 x3) r) 0 j.val :=
  parent_gen 0 (n := 1) (m := 2) (by norm_num) rfl _ _ concatenates_S512x1_S512x1_S512x2_d1 r (by norm_num) _ _ _ _ _ (path_1 x0 x1 x2 x3 r) j

theorem num_0 (j : Fin 2) :
    k0_pay8 x0 x1 x2 x3 (ix2 (0 : Fin 1) j)
      = ∑ r : Fin 512, SDT.lpK SDT.c1 (SDT.rowOf (A := 512) (B := 1024) (k0_pay4 x0 x1 x2 x3) r) 0 j.val
          * SDT.parK SDT.c1 (SDT.rowOf (A := 512) (B := 1024) (k0_pay4 x0 x1 x2 x3) r) 0 j.val :=
  num_gen _ _ _ _ j _ _ (lp_0 x0 x1 x2 x3 · j) (parent_0 x0 x1 x2 x3 · j)

theorem den_0 (j : Fin 2) :
    k0_pay9 x0 x1 x2 x3 (ix2 (0 : Fin 1) j)
      = ∑ r : Fin 512, SDT.parK SDT.c1 (SDT.rowOf (A := 512) (B := 1024) (k0_pay4 x0 x1 x2 x3) r) 0 j.val :=
  den_gen _ _ _ _ j _ (parent_0 x0 x1 x2 x3 · j)

end Level0

section Factors
variable (L : FVec Ideal S512x1024 .f32) (r : Fin 512)

theorem lp_1 (j : Fin 4) : k0_pay10 L (ix2 r j) = SDT.lpK SDT.c1 (SDT.rowOf (A := 512) (B := 1024) L r) 1 j.val :=
  lp_gen 1 (n := 2) (m := 4) (o := 1) (by norm_num) rfl concatenates_S512x2_S512x2_S512x4_d1 r rfl L _ j

theorem lp_2 (j : Fin 8) : k0_pay15 L (ix2 r j) = SDT.lpK SDT.c1 (SDT.rowOf (A := 512) (B := 1024) L r) 2 j.val :=
  lp_gen 2 (n := 4) (m := 8) (o := 3) (by norm_num) rfl concatenates_S512x4_S512x4_S512x8_d1 r rfl L _ j

theorem lp_3 (j : Fin 16) : k0_pay20 L (ix2 r j) = SDT.lpK SDT.c1 (SDT.rowOf (A := 512) (B := 1024) L r) 3 j.val :=
  lp_gen 3 (n := 8) (m := 16) (o := 7) (by norm_num) rfl concatenates_S512x8_S512x8_S512x16_d1 r rfl L _ j

end Factors

section Row
variable (L : FVec Ideal S512x1024 .f32) (P1 : FVec Ideal S512x2 .f32) (r : Fin 512)
  (hprev : ∀ i : Fin 2, P1 (ix2 r i) = SDT.pK SDT.c1 (SDT.rowOf (A := 512) (B := 1024) L r) 1 i.val)
include hprev

theorem path_2 (j : Fin 4) : k0_pay11 L P1 (ix2 r j) = SDT.pK SDT.c1 (SDT.rowOf (A := 512) (B := 1024) L r) 2 j.val :=
  path_gen 1 (n := 2) (m := 4) (by norm_num) rfl _ _ _ r P1 _ hprev (lp_1 L r) j

theorem parent_1 (j : Fin 4) : k0_pay12 L P1 (ix2 r j) = SDT.parK SDT.c1 (SDT.rowOf (A := 512) (B := 1024) L r) 1 j.val :=
  parent_gen 1 (n := 2) (m := 4) (by norm_num) rfl _ _ concatenates_S512x2_S512x2_S512x4_d1 r (by norm_num) _ _ _ _ _ (path_2 L P1 r hprev) j

theorem path_3 (j : Fin 8) : k0_pay16 L P1 (ix2 r j) = SDT.pK SDT.c1 (SDT.rowOf (A := 512) (B := 1024) L r) 3 j.val :=
  path_gen 2 (n := 4) (m := 8) (by norm_num) rfl _ _ _ r _ _ (path_2 L P1 r hprev) (lp_2 L r) j

theorem parent_2 (j : Fin 8) : k0_pay17 L P1 (ix2 r j) = SDT.parK SDT.c1 (SDT.rowOf (A := 512) (B := 1024) L r) 2 j.val :=
  parent_gen 2 (n := 4) (m := 8) (by norm_num) rfl _ _ concatenates_S512x4_S512x4_S512x8_d1 r (by norm_num) _ _ _ _ _ (path_3 L P1 r hprev) j

theorem rep_3 (j : Fin 16) : k0_pay21 L P1 (ix2 r j) = SDT.pK SDT.c1 (SDT.rowOf (A := 512) (B := 1024) L r) 3 (j.val % 8) :=
  rep_gen 3 (n := 8) (m := 16) (by norm_num) rfl _ _ concatenates_S512x8_S512x8_S512x16_d1 r _ (path_3 L P1 r hprev) j

end Row

section Sums
variable (L : FVec Ideal S512x1024 .f32) (P1 : FVec Ideal S512x2 .f32)
  (hprev : ∀ (r : Fin 512) (i : Fin 2), P1 (ix2 r i) = SDT.pK SDT.c1 (SDT.rowOf (A := 512) (B := 1024) L r) 1 i.val)
include hprev

theorem num_1 (j : Fin 4) :
    k0_pay13 L P1 (ix2 (0 : Fin 1) j)
      = ∑ r : Fin 512, SDT.lpK SDT.c1 (SDT.rowOf (A := 512) (B := 1024) L r) 1 j.val * SDT.parK SDT.c1 (SDT.rowOf (A := 512) (B := 1024) L r) 1 j.val :=
  num_gen _ _ _ _ j _ _ (lp_1 L · j) fun r => parent_1 L P1 r (hprev r) j

theorem den_1 (j : Fin 4) :
    k0_pay14 L P1 (ix2 (0 : Fin 1) j) = ∑ r : Fin 512, SDT.parK SDT.c1 (SDT.rowOf (A := 512) (B := 1024) L r) 1 j.val :=
  den_gen _ _ _ _ j _ fun r => parent_1 L P1 r (hprev r) j

theorem num_2 (j : Fin 8) :
    k0_pay18 L P1 (ix2 (0 : Fin 1) j)
      = ∑ r : Fin 512, SDT.lpK SDT.c1 (SDT.rowOf (A := 512) (B := 1024) L r) 2 j.val
          * SDT.parK SDT.c1 (SDT.rowOf (A := 512) (B := 1024) L r) 2 j.val :=
  num_gen _ _ _ _ j _ _ (lp_2 L · j) fun r => parent_2 L P1 r (hprev r) j

theorem den_2 (j : Fin 8) :
    k0_pay19 L P1 (ix2 (0 : Fin 1) j) = ∑ r : Fin 512, SDT.parK SDT.c1 (SDT.rowOf (A := 512) (B := 1024) L r) 2 j.val :=
  den_gen _ _ _ _ j _ fun r => parent_2 L P1 r (hprev r) j

end Sums

section Level3
variable (v89 v90 : FVec Ideal S512x16 .f32) (L : FVec Ideal S512x1024 .f32)
  (hlp : ∀ (r : Fin 512) (j : Fin 16), v89 (ix2 r j) = SDT.lpK SDT.c1 (SDT.rowOf (A := 512) (B := 1024) L r) 3 j.val)
  (hrep : ∀ (r : Fin 512) (j : Fin 16),
    v90 (ix2 r j) = SDT.pK SDT.c1 (SDT.rowOf (A := 512) (B := 1024) L r) 3 (j.val % 8))
include hlp hrep

theorem parent_3 (r : Fin 512) (j : Fin 16) :
    k0_pay23 v89 v90 (ix2 r j) = SDT.parK SDT.c1 (SDT.rowOf (A := 512) (B := 1024) L r) 3 j.val :=
  parent_gen 3 (n := 8) (m := 16) (by norm_num) rfl _ _ concatenates_S512x8_S512x8_S512x16_d1 r (by norm_num) _ _ _ _ _
    (path_4 L r v89 v90 (hlp r) (hrep r)) j

theorem num_3 (j : Fin 16) :
    k0_pay24 v89 v90 (ix2 (0 : Fin 1) j)
      = ∑ r : Fin 512, SDT.lpK SDT.c1 (SDT.rowOf (A := 512) (B := 1024) L r) 3 j.val
          * SDT.parK SDT.c1 (SDT.rowOf (A := 512) (B := 1024) L r) 3 j.val :=
  num_gen _ _ _ _ j _ _ (hlp · j) (parent_3 v89 v90 L hlp hrep · j)

theorem den_3 (j : Fin 16) :
    k0_pay25 v89 v90 (ix2 (0 : Fin 1) j) = ∑ r : Fin 512, SDT.parK SDT.c1 (SDT.rowOf (A := 512) (B := 1024) L r) 3 j.val :=
  den_gen _ _ _ _ j _ (parent_3 v89 v90 L hlp hrep · j)

end Level3

end Cert.KernelIdeal.LayersA

end
-- ==== Proof.KILayersB.lean ====
import proofs.«128224_j82489141887173_2_alg».proof.Proof.KILayersLib

noncomputable section

namespace Cert.KernelIdeal.LayersB

open Cert.KernelIdeal Cert.KernelIdeal.Gen Cert.KernelIdeal.Layers Idealize.ShloMosaic Idealize.ShloMosaic.ValueIdx
open scoped BigOperators

section Factors
variable (L : FVec Ideal S512x1024 .f32) (r : Fin 512)

theorem lp_4 (j : Fin 32) : k0_pay26 L (ix2 r j) = SDT.lpK SDT.c1 (SDT.rowOf (A := 512) (B := 1024) L r) 4 j.val :=
  lp_gen 4 (n := 16) (m := 32) (o := 15) (by norm_num) rfl concatenates_S512x16_S512x16_S512x32_d1 r rfl L _ j

theorem lp_5 (j : Fin 64) : k0_pay31 L (ix2 r j) = SDT.lpK SDT.c1 (SDT.rowOf (A := 512) (B := 1024) L r) 5 j.val :=
  lp_gen 5 (n := 32) (m := 64) (o := 31) (by norm_num) rfl concatenates_S512x32_S512x32_S512x64_d1 r rfl L _ j

end Factors

section Row
variable (L : FVec Ideal S512x1024 .f32) (v89 v90 : FVec Ideal S512x16 .f32) (r : Fin 512)
  (hlp3 : ∀ j : Fin 16, v89 (ix2 r j) = SDT.lpK SDT.c1 (SDT.rowOf (A := 512) (B := 1024) L r) 3 j.val)
  (hrep3 : ∀ j : Fin 16, v90 (ix2 r j) = SDT.pK SDT.c1 (SDT.rowOf (A := 512) (B := 1024) L r) 3 (j.val % 8))
include hlp3 hrep3

theorem path_5 (j : Fin 32) : k0_pay27 L v89 v90 (ix2 r j) = SDT.pK SDT.c1 (SDT.rowOf (A := 512) (B := 1024) L r) 5 j.val :=
  path_gen 4 (n := 16) (m := 32) (by norm_num) rfl _ _ _ r _ _ (path_4 L r v89 v90 hlp3 hrep3) (lp_4 L r) j

theorem parent_4 (j : Fin 32) : k0_pay28 L v89 v90 (ix2 r j) = SDT.parK SDT.c1 (SDT.rowOf (A := 512) (B := 1024) L r) 4 j.val :=
  parent_gen 4 (n := 16) (m := 32) (by norm_num) rfl _ _ concatenates_S512x16_S512x16_S512x32_d1 r (by norm_num) _ _ _ _ _
    (path_5 L v89 v90 r hlp3 hrep3) j

theorem path_6 (j : Fin 64) : k0_pay32 L v89 v90 (ix2 r j) = SDT.pK SDT.c1 (SDT.rowOf (A := 512) (B := 1024) L r) 6 j.val :=
  path_gen 5 (n := 32) (m := 64) (by norm_num) rfl _ _ _ r _ _ (path_5 L v89 v90 r hlp3 hrep3) (lp_5 L r) j

end Row

section Sums4
variable (L : FVec Ideal S512x1024 .f32) (v89 v90 : FVec Ideal S512x16 .f32)
  (hlp3 : ∀ (r : Fin 512) (j : Fin 16), v89 (ix2 r j) = SDT.lpK SDT.c1 (SDT.rowOf (A := 512) (B := 1024) L r) 3 j.val)
  (hrep3 : ∀ (r : Fin 512) (j : Fin 16), v90 (ix2 r j) = SDT.pK SDT.c1 (SDT.rowOf (A := 512) (B := 1024) L r) 3 (j.val % 8))
include hlp3 hrep3

theorem num_4 (j : Fin 32) :
    k0_pay29 L v89 v90 (ix2 (0 : Fin 1) j)
      = ∑ r : Fin 512, SDT.lpK SDT.c1 (SDT.rowOf (A := 512) (B := 1024) L r) 4 j.val
          * SDT.parK SDT.c1 (SDT.rowOf (A := 512) (B := 1024) L r) 4 j.val :=
  num_gen _ _ _ _ j _ _ (lp_4 L · j) fun r => parent_4 L v89 v90 r (hlp3 r) (hrep3 r) j

theorem den_4 (j : Fin 32) :
    k0_pay30 L v89 v90 (ix2 (0 : Fin 1) j)
      = ∑ r : Fin 512, SDT.parK SDT.c1 (SDT.rowOf (A := 512) (B := 1024) L r) 4 j.val :=
  den_gen _ _ _ _ j _ fun r => parent_4 L v89 v90 r (hlp3 r) (hrep3 r) j

end Sums4

section Sums56
variable (L : FVec Ideal S512x1024 .f32) (v135 : FVec Ideal S512x64 .f32)

section
variable (hprev : ∀ (r : Fin 512) (j : Fin 64), v135 (ix2 r j) = SDT.pK SDT.c1 (SDT.rowOf (A := 512) (B := 1024) L r) 6 j.val)
include hprev

theorem parent_5 (r : Fin 512) (j : Fin 64) :
    k0_pay34 v135 (iota .tc S64x32 32 [0] iota_S64x32_d0_w32) k0_pay33 (ix2 r j)
      = SDT.parK SDT.c1 (SDT.rowOf (A := 512) (B := 1024) L r) 5 j.val :=
  parent_gen 5 (n := 32) (m := 64) (by norm_num) rfl _ _ concatenates_S512x32_S512x32_S512x64_d1 r (by norm_num) _ _ _ _ _ (hprev r) j

theorem den_5 (j : Fin 64) :
    k0_pay36 v135 (iota .tc S64x32 32 [0] iota_S64x32_d0_w32) k0_pay33 (ix2 (0 : Fin 1) j)
      = ∑ r : Fin 512, SDT.parK SDT.c1 (SDT.rowOf (A := 512) (B := 1024) L r) 5 j.val :=
  den_gen _ _ _ _ j _ (parent_5 L v135 hprev · j)

theorem parent_6 (r : Fin 512) (j : Fin 128) :
    k0_pay39 L v135 (ix2 r j) = SDT.parK SDT.c1 (SDT.rowOf (A := 512) (B := 1024) L r) 6 j.val :=
  parent_gen 6 (n := 64) (m := 128) (by norm_num) rfl _ _ concatenates_S512x64_S512x64_S512x128_d1 r (by norm_num) _ _ _ _ _
    (path_7 L r v135 (hprev r)) j

theorem num_6 (j : Fin 128) :
    k0_pay40 L v135 (ix2 (0 : Fin 1) j)
      = ∑ r : Fin 512, SDT.lpK SDT.c1 (SDT.rowOf (A := 512) (B := 1024) L r) 6 j.val
          * SDT.parK SDT.c1 (SDT.rowOf (A := 512) (B := 1024) L r) 6 j.val :=
  num_gen _ _ _ _ j _ _ (lp_6 L · j) (parent_6 L v135 hprev · j)

theorem den_6 (j : Fin 128) :
    k0_pay41 L v135 (ix2 (0 : Fin 1) j)
      = ∑ r : Fin 512, SDT.parK SDT.c1 (SDT.rowOf (A := 512) (B := 1024) L r) 6 j.val :=
  den_gen _ _ _ _ j _ (parent_6 L v135 hprev · j)

end

theorem num_5 (v133 : FVec Ideal S512x64 .f32)
    (hlp5 : ∀ (r : Fin 512) (j : Fin 64), v133 (ix2 r j) = SDT.lpK SDT.c1 (SDT.rowOf (A := 512) (B := 1024) L r) 5 j.val)
    (hprev : ∀ (r : Fin 512) (j : Fin 64), v135 (ix2 r j) = SDT.pK SDT.c1 (SDT.rowOf (A := 512) (B := 1024) L r) 6 j.val)
    (j : Fin 64) :
    k0_pay35 v133 v135 (iota .tc S64x32 32 [0] iota_S64x32_d0_w32) k0_pay33 (ix2 (0 : Fin 1) j)
      = ∑ r : Fin 512, SDT.lpK SDT.c1 (SDT.rowOf (A := 512) (B := 1024) L r) 5 j.val
          * SDT.parK SDT.c1 (SDT.rowOf (A := 512) (B := 1024) L r) 5 j.val :=
  num_gen _ _ _ _ j _ _ (hlp5 · j) (parent_5 L v135 hprev · j)

end Sums56

end Cert.KernelIdeal.LayersB

end
-- ==== Proof.KILayersC.lean ====
import proofs.«128224_j82489141887173_2_alg».proof.Proof.KILayersLib

noncomputable section

namespace Cert.KernelIdeal.LayersC

open Cert.KernelIdeal Cert.KernelIdeal.Gen Cert.KernelIdeal.Layers Idealize.ShloMosaic Idealize.ShloMosaic.ValueIdx
open scoped BigOperators

section Factors
variable (L : FVec Ideal S512x1024 .f32) (r : Fin 512)

theorem lp_7 (j : Fin 256) : k0_pay42 L (ix2 r j) = SDT.lpK SDT.c1 (SDT.rowOf (A := 512) (B := 1024) L r) 7 j.val :=
  lp_gen 7 (n := 128) (m := 256) (o := 127) (by norm_num) rfl concatenates_S512x128_S512x128_S512x256_d1 r rfl L _ j

theorem lp_8 (j : Fin 512) : k0_pay49 L (ix2 r j) = SDT.lpK SDT.c1 (SDT.rowOf (A := 512) (B := 1024) L r) 8 j.val :=
  lp_gen 8 (n := 256) (m := 512) (o := 255) (by norm_num) rfl concatenates_S512x256_S512x256_S512x512_d1 r rfl L _ j

theorem lp_9 (j : Fin 1024) : k0_pay54 L (ix2 r j) = SDT.lpK SDT.c1 (SDT.rowOf (A := 512) (B := 1024) L r) 9 j.val :=
  lp_gen 9 (n := 512) (m := 1024) (o := 511) (by norm_num) rfl concatenates_S512x512_S512x512_S512x1024_d1 r rfl L _ j

end Factors

section Row7
variable (L : FVec Ideal S512x1024 .f32) (v135 : FVec Ideal S512x64 .f32) (r : Fin 512)
  (hprev : ∀ i : Fin 64, v135 (ix2 r i) = SDT.pK SDT.c1 (SDT.rowOf (A := 512) (B := 1024) L r) 6 i.val)
include hprev

theorem path_8 (j : Fin 256) : k0_pay43 L v135 (ix2 r j) = SDT.pK SDT.c1 (SDT.rowOf (A := 512) (B := 1024) L r) 8 j.val :=
  path_gen 7 (n := 128) (m := 256) (by norm_num) rfl _ _ _ r _ _ (path_7 L r v135 hprev) (lp_7 L r) j

theorem path_8n (j : Fin 256) : k0_pay45 L v135 (ix2 r j) = SDT.pK SDT.c1 (SDT.rowOf (A := 512) (B := 1024) L r) 8 j.val :=
  path_8 L v135 r hprev j

end Row7

section Row89
variable (L : FVec Ideal S512x1024 .f32) (v179 : FVec Ideal S512x256 .f32) (r : Fin 512)
  (hprev : ∀ i : Fin 256, v179 (ix2 r i) = SDT.pK SDT.c1 (SDT.rowOf (A := 512) (B := 1024) L r) 8 i.val)
include hprev

theorem path_9 (j : Fin 512) : k0_pay50 L v179 (ix2 r j) = SDT.pK SDT.c1 (SDT.rowOf (A := 512) (B := 1024) L r) 9 j.val :=
  path_gen 8 (n := 256) (m := 512) (by norm_num) rfl _ _ _ r v179 _ hprev (lp_8 L r) j

theorem parent_8 (j : Fin 512) : k0_pay51 L v179 (ix2 r j) = SDT.parK SDT.c1 (SDT.rowOf (A := 512) (B := 1024) L r) 8 j.val :=
  parent_gen 8 (n := 256) (m := 512) (by norm_num) rfl _ _ concatenates_S512x256_S512x256_S512x512_d1 r (by norm_num) _ _ _ _ _
    (path_9 L v179 r hprev) j

theorem path_10 (j : Fin 1024) : k0_pay55 L v179 (ix2 r j) = SDT.pK SDT.c1 (SDT.rowOf (A := 512) (B := 1024) L r) 10 j.val :=
  path_gen 9 (n := 512) (m := 1024) (by norm_num) rfl _ _ _ r _ _ (path_9 L v179 r hprev) (lp_9 L r) j

theorem parent_9 (j : Fin 1024) : k0_pay56 L v179 (ix2 r j) = SDT.parK SDT.c1 (SDT.rowOf (A := 512) (B := 1024) L r) 9 j.val :=
  parent_gen 9 (n := 512) (m := 1024) (by norm_num) rfl _ _ concatenates_S512x512_S512x512_S512x1024_d1 r (by norm_num) _ _ _ _ _
    (path_10 L v179 r hprev) j

end Row89

section Sums89
variable (L : FVec Ideal S512x1024 .f32) (v179 : FVec Ideal S512x256 .f32)
  (hprev : ∀ (r : Fin 512) (i : Fin 256), v179 (ix2 r i) = SDT.pK SDT.c1 (SDT.rowOf (A := 512) (B := 1024) L r) 8 i.val)
include hprev

theorem num_8 (j : Fin 512) :
    k0_pay52 L v179 (ix2 (0 : Fin 1) j)
      = ∑ r : Fin 512, SDT.lpK SDT.c1 (SDT.rowOf (A := 512) (B := 1024) L r) 8 j.val
          * SDT.parK SDT.c1 (SDT.rowOf (A := 512) (B := 1024) L r) 8 j.val :=
  num_gen _ _ _ _ j _ _ (lp_8 L · j) fun r => parent_8 L v179 r (hprev r) j

theorem den_8 (j : Fin 512) :
    k0_pay53 L v179 (ix2 (0 : Fin 1) j)
      = ∑ r : Fin 512, SDT.parK SDT.c1 (SDT.rowOf (A := 512) (B := 1024) L r) 8 j.val :=
  den_gen _ _ _ _ j _ fun r => parent_8 L v179 r (hprev r) j

theorem num_9 (j : Fin 1024) :
    k0_pay57 L v179 (ix2 (0 : Fin 1) j)
      = ∑ r : Fin 512, SDT.lpK SDT.c1 (SDT.rowOf (A := 512) (B := 1024) L r) 9 j.val
          * SDT.parK SDT.c1 (SDT.rowOf (A := 512) (B := 1024) L r) 9 j.val :=
  num_gen _ _ _ _ j _ _ (lp_9 L · j) fun r => parent_9 L v179 r (hprev r) j

end Sums89

section Sums7
variable (L : FVec Ideal S512x1024 .f32)

theorem parent_7 (v188 : FVec Ideal S512x256 .bf16)
    (h188 : ∀ (r : Fin 512) (i : Fin 256), v188 (ix2 r i) = SDT.pK SDT.c1 (SDT.rowOf (A := 512) (B := 1024) L r) 8 i.val)
    (r : Fin 512) (j : Fin 256) :
    k0_pay46 (k0_pay44 (F := Ideal)) v188 (constant (F := Ideal) S512x128 .f32 0x00000000#32) (ix2 r j)
      = SDT.parK SDT.c1 (SDT.rowOf (A := 512) (B := 1024) L r) 7 j.val :=
  parent_gen 7 (n := 128) (m := 256) (by norm_num) rfl _ _ concatenates_S512x128_S512x128_S512x256_d1 r (by norm_num) v188 _ _ _ _ (h188 r) j

theorem num_7 (v177 : FVec Ideal S512x256 .f32) (v188 : FVec Ideal S512x256 .bf16)
    (hlp : ∀ (r : Fin 512) (i : Fin 256), v177 (ix2 r i) = SDT.lpK SDT.c1 (SDT.rowOf (A := 512) (B := 1024) L r) 7 i.val)
    (h188 : ∀ (r : Fin 512) (i : Fin 256), v188 (ix2 r i) = SDT.pK SDT.c1 (SDT.rowOf (A := 512) (B := 1024) L r) 8 i.val)
    (j : Fin 256) :
    k0_pay47 v177 (k0_pay44 (F := Ideal)) v188 (constant (F := Ideal) S512x128 .f32 0x00000000#32) (ix2 (0 : Fin 1) j)
      = ∑ r : Fin 512, SDT.lpK SDT.c1 (SDT.rowOf (A := 512) (B := 1024) L r) 7 j.val
          * SDT.parK SDT.c1 (SDT.rowOf (A := 512) (B := 1024) L r) 7 j.val :=
  num_gen _ _ _ _ j _ _ (hlp · j) (parent_7 L v188 h188 · j)

theorem den_7 (v188 : FVec Ideal S512x256 .bf16)
    (h188 : ∀ (r : Fin 512) (i : Fin 256), v188 (ix2 r i) = SDT.pK SDT.c1 (SDT.rowOf (A := 512) (B := 1024) L r) 8 i.val)
    (j : Fin 256) :
    k0_pay48 (k0_pay44 (F := Ideal)) v188 (constant (F := Ideal) S512x128 .f32 0x00000000#32) (ix2 (0 : Fin 1) j)
      = ∑ r : Fin 512, SDT.parK SDT.c1 (SDT.rowOf (A := 512) (B := 1024) L r) 7 j.val :=
  den_gen _ _ _ _ j _ (parent_7 L v188 h188 · j)

end Sums7

end Cert.KernelIdeal.LayersC

end
-- ==== Proof.KIValue.lean ====
import proofs.«128224_j82489141887173_2_alg».proof.Proof.KIBody
import proofs.«128224_j82489141887173_2_alg».proof.Proof.KICat
import proofs.«128224_j82489141887173_2_alg».proof.Proof.KILayersA
import proofs.«128224_j82489141887173_2_alg».proof.Proof.KILayersB
import proofs.«128224_j82489141887173_2_alg».proof.Proof.KILayersC

noncomputable section

namespace Cert.KernelIdeal.KValue

open Cert.KernelIdeal Cert.KernelIdeal.Gen Idealize.ShloMosaic Idealize.ShloMosaic.ValueIdx SDT

variable (x0 : Vec Ideal S512x1024 .f32) (x1 x2 : Vec Ideal S1024x1024 .bf16) (x3 : Vec Ideal S1x1024 .f32)

abbrev lgK (r : Fin 512) : ℕ → EReal := rowOf (A := 512) (B := 1024) (k0_pay4 x0 x1 x2 x3) r

local notation "L" => k0_pay4 x0 x1 x2 x3
local notation "P1" => k0_pay6 x0 x1 x2 x3
local notation "v89" => k0_pay20 (k0_pay4 x0 x1 x2 x3)
local notation "v90" => k0_pay21 (k0_pay4 x0 x1 x2 x3) (k0_pay6 x0 x1 x2 x3)
local notation "v133" => k0_pay31 (k0_pay4 x0 x1 x2 x3)
local notation "v135" => k0_pay32 (k0_pay4 x0 x1 x2 x3) (k0_pay20 (k0_pay4 x0 x1 x2 x3)) (k0_pay21 (k0_pay4 x0 x1 x2 x3) (k0_pay6 x0 x1 x2 x3))
local notation "v177" => k0_pay42 (k0_pay4 x0 x1 x2 x3)
local notation "v179" => k0_pay43 (k0_pay4 x0 x1 x2 x3) (k0_pay32 (k0_pay4 x0 x1 x2 x3) (k0_pay20 (k0_pay4 x0 x1 x2 x3)) (k0_pay21 (k0_pay4 x0 x1 x2 x3) (k0_pay6 x0 x1 x2 x3)))
local notation "v188" => k0_pay45 (k0_pay4 x0 x1 x2 x3) (k0_pay32 (k0_pay4 x0 x1 x2 x3) (k0_pay20 (k0_pay4 x0 x1 x2 x3)) (k0_pay21 (k0_pay4 x0 x1 x2 x3) (k0_pay6 x0 x1 x2 x3)))

theorem hP1 (r : Fin 512) (i : Fin 2) : P1 (ix2 r i) = pK c1 (lgK x0 x1 x2 x3 r) 1 i.val := LayersA.path_1 x0 x1 x2 x3 r i
theorem hlp3 (r : Fin 512) (j : Fin 16) : v89 (ix2 r j) = lpK c1 (lgK x0 x1 x2 x3 r) 3 j.val := LayersA.lp_3 _ r j
theorem hrep3 (r : Fin 512) (j : Fin 16) : v90 (ix2 r j) = pK c1 (lgK x0 x1 x2 x3 r) 3 (j.val % 8) :=
  LayersA.rep_3 _ _ r (hP1 x0 x1 x2 x3 r) j
theorem hlp5 (r : Fin 512) (j : Fin 64) : v133 (ix2 r j) = lpK c1 (lgK x0 x1 x2 x3 r) 5 j.val := LayersB.lp_5 _ r j
theorem hP6 (r : Fin 512) (j : Fin 64) : v135 (ix2 r j) = pK c1 (lgK x0 x1 x2 x3 r) 6 j.val :=
  LayersB.path_6 _ _ _ r (hlp3 x0 x1 x2 x3 r) (hrep3 x0 x1 x2 x3 r) j
theorem hlp7 (r : Fin 512) (j : Fin 256) : v177 (ix2 r j) = lpK c1 (lgK x0 x1 x2 x3 r) 7 j.val := LayersC.lp_7 _ r j
theorem hP8 (r : Fin 512) (j : Fin 256) : v179 (ix2 r j) = pK c1 (lgK x0 x1 x2 x3 r) 8 j.val :=
  LayersC.path_8 _ _ r (hP6 x0 x1 x2 x3 r) j
theorem h188 (r : Fin 512) (j : Fin 256) : v188 (ix2 r j) = pK c1 (lgK x0 x1 x2 x3 r) 8 j.val :=
  LayersC.path_8n _ _ r (hP6 x0 x1 x2 x3 r) j

theorem path10 (r : Fin 512) (j : Fin 1024) : Body.path10 x0 x1 x2 x3 (ix2 r j) = pK c1 (lgK x0 x1 x2 x3 r) 10 j.val :=
  LayersC.path_10 _ _ r (hP8 x0 x1 x2 x3 r) j

theorem num_unfold : Body.num x0 x1 x2 x3 = k0_pay1 (k0_pay8 x0 x1 x2 x3) (k0_pay13 L P1) (k0_pay18 L P1) (k0_pay24 v89 v90) (k0_pay29 L v89 v90) (k0_pay35 v133 v135 (iota .tc S64x32 32 [0] iota_S64x32_d0_w32) k0_pay33) (k0_pay40 L v135) (k0_pay47 v177 (k0_pay44 (F := Ideal)) v188 (constant (F := Ideal) S512x128 .f32 0x00000000#32)) (k0_pay52 L v179) (k0_pay57 L v179) := rfl
theorem den_unfold : Body.den x0 x1 x2 x3 = k0_pay2 (k0_pay9 x0 x1 x2 x3) (k0_pay14 L P1) (k0_pay19 L P1) (k0_pay25 v89 v90) (k0_pay30 L v89 v90) (k0_pay36 v135 (iota .tc S64x32 32 [0] iota_S64x32_d0_w32) k0_pay33) (k0_pay41 L v135) (k0_pay48 (k0_pay44 (F := Ideal)) v188 (constant (F := Ideal) S512x128 .f32 0x00000000#32)) (k0_pay53 L v179) (k0_pay56 L v179) := rfl

theorem num_0 (q : Fin 8) (j : Fin 2) : Body.num x0 x1 x2 x3 (ix2 q ⟨0 + j.val, by omega⟩)
    = ∑ r : Fin 512, lpK c1 (lgK x0 x1 x2 x3 r) 0 j.val * parK c1 (lgK x0 x1 x2 x3 r) 0 j.val := by
  rw [num_unfold, Cat.num_cat_0]
  exact LayersA.num_0 x0 x1 x2 x3 j
theorem den_0 (q : Fin 8) (j : Fin 2) : Body.den x0 x1 x2 x3 (ix2 q ⟨0 + j.val, by omega⟩)
    = ∑ r : Fin 512, parK c1 (lgK x0 x1 x2 x3 r) 0 j.val := by
  rw [den_unfold, Cat.den_cat_0]
  exact LayersA.den_0 x0 x1 x2 x3 j

theorem num_1 (q : Fin 8) (j : Fin 4) : Body.num x0 x1 x2 x3 (ix2 q ⟨2 + j.val, by omega⟩)
    = ∑ r : Fin 512, lpK c1 (lgK x0 x1 x2 x3 r) 1 j.val * parK c1 (lgK x0 x1 x2 x3 r) 1 j.val := by
  rw [num_unfold, Cat.num_cat_1]
  exact LayersA.num_1 _ _ (hP1 x0 x1 x2 x3) j
theorem den_1 (q : Fin 8) (j : Fin 4) : Body.den x0 x1 x2 x3 (ix2 q ⟨2 + j.val, by omega⟩)
    = ∑ r : Fin 512, parK c1 (lgK x0 x1 x2 x3 r) 1 j.val := by
  rw [den_unfold, Cat.den_cat_1]
  exact LayersA.den_1 _ _ (hP1 x0 x1 x2 x3) j

theorem num_2 (q : Fin 8) (j : Fin 8) : Body.num x0 x1 x2 x3 (ix2 q ⟨6 + j.val, by omega⟩)
    = ∑ r : Fin 512, lpK c1 (lgK x0 x1 x2 x3 r) 2 j.val * parK c1 (lgK x0 x1 x2 x3 r) 2 j.val := by
  rw [num_unfold, Cat.num_cat_2]
  exact LayersA.num_2 _ _ (hP1 x0 x1 x2 x3) j
theorem den_2 (q : Fin 8) (j : Fin 8) : Body.den x0 x1 x2 x3 (ix2 q ⟨6 + j.val, by omega⟩)
    = ∑ r : Fin 512, parK c1 (lgK x0 x1 x2 x3 r) 2 j.val := by
  rw [den_unfold, Cat.den_cat_2]
  exact LayersA.den_2 _ _ (hP1 x0 x1 x2 x3) j

theorem num_3 (q : Fin 8) (j : Fin 16) : Body.num x0 x1 x2 x3 (ix2 q ⟨14 + j.val, by omega⟩)
    = ∑ r : Fin 512, lpK c1 (lgK x0 x1 x2 x3 r) 3 j.val * parK c1 (lgK x0 x1 x2 x3 r) 3 j.val := by
  rw [num_unfold, Cat.num_cat_3]
  exact LayersA.num_3 _ _ _ (hlp3 x0 x1 x2 x3) (hrep3 x0 x1 x2 x3) j
theorem den_3 (q : Fin 8) (j : Fin 16) : Body.den x0 x1 x2 x3 (ix2 q ⟨14 + j.val, by omega⟩)
    = ∑ r : Fin 512, parK c1 (lgK x0 x1 x2 x3 r) 3 j.val := by
  rw [den_unfold, Cat.den_cat_3]
  exact LayersA.den_3 _ _ _ (hlp3 x0 x1 x2 x3) (hrep3 x0 x1 x2 x3) j

theorem num_4 (q : Fin 8) (j : Fin 32) : Body.num x0 x1 x2 x3 (ix2 q ⟨30 + j.val, by omega⟩)
    = ∑ r : Fin 512, lpK c1 (lgK x0 x1 x2 x3 r) 4 j.val * parK c1 (lgK x0 x1 x2 x3 r) 4 j.val := by
  rw [num_unfold, Cat.num_cat_4]
  exact LayersB.num_4 _ _ _ (hlp3 x0 x1 x2 x3) (hrep3 x0 x1 x2 x3) j
theorem den_4 (q : Fin 8) (j : Fin 32) : Body.den x0 x1 x2 x3 (ix2 q ⟨30 + j.val, by omega⟩)
    = ∑ r : Fin 512, parK c1 (lgK x0 x1 x2 x3 r) 4 j.val := by
  rw [den_unfold, Cat.den_cat_4]
  exact LayersB.den_4 _ _ _ (hlp3 x0 x1 x2 x3) (hrep3 x0 x1 x2 x3) j

theorem num_5 (q : Fin 8) (j : Fin 64) : Body.num x0 x1 x2 x3 (ix2 q ⟨62 + j.val, by omega⟩)
    = ∑ r : Fin 512, lpK c1 (lgK x0 x1 x2 x3 r) 5 j.val * parK c1 (lgK x0 x1 x2 x3 r) 5 j.val := by
  rw [num_unfold, Cat.num_cat_5]
  exact LayersB.num_5 _ _ _ (hlp5 x0 x1 x2 x3) (hP6 x0 x1 x2 x3) j
theorem den_5 (q : Fin 8) (j : Fin 64) : Body.den x0 x1 x2 x3 (ix2 q ⟨62 + j.val, by omega⟩)
    = ∑ r : Fin 512, parK c1 (lgK x0 x1 x2 x3 r) 5 j.val := by
  rw [den_unfold, Cat.den_cat_5]
  exact LayersB.den_5 _ _ (hP6 x0 x1 x2 x3) j

theorem num_6 (q : Fin 8) (j : Fin 128) : Body.num x0 x1 x2 x3 (ix2 q ⟨126 + j.val, by omega⟩)
    = ∑ r : Fin 512, lpK c1 (lgK x0 x1 x2 x3 r) 6 j.val * parK c1 (lgK x0 x1 x2 x3 r) 6 j.val := by
  rw [num_unfold, Cat.num_cat_6]
  exact LayersB.num_6 _ _ (hP6 x0 x1 x2 x3) j
theorem den_6 (q : Fin 8) (j : Fin 128) : Body.den x0 x1 x2 x3 (ix2 q ⟨126 + j.val, by omega⟩)
    = ∑ r : Fin 512, parK c1 (lgK x0 x1 x2 x3 r) 6 j.val := by
  rw [den_unfold, Cat.den_cat_6]
  exact LayersB.den_6 _ _ (hP6 x0 x1 x2 x3) j

theorem num_7 (q : Fin 8) (j : Fin 256) : Body.num x0 x1 x2 x3 (ix2 q ⟨254 + j.val, by omega⟩)
    = ∑ r : Fin 512, lpK c1 (lgK x0 x1 x2 x3 r) 7 j.val * parK c1 (lgK x0 x1 x2 x3 r) 7 j.val := by
  rw [num_unfold, Cat.num_cat_7]
  exact LayersC.num_7 _ _ _ (hlp7 x0 x1 x2 x3) (h188 x0 x1 x2 x3) j
theorem den_7 (q : Fin 8) (j : Fin 256) : Body.den x0 x1 x2 x3 (ix2 q ⟨254 + j.val, by omega⟩)
    = ∑ r : Fin 512, parK c1 (lgK x0 x1 x2 x3 r) 7 j.val := by
  rw [den_unfold, Cat.den_cat_7]
  exact LayersC.den_7 _ _ (h188 x0 x1 x2 x3) j

theorem num_8 (q : Fin 8) (j : Fin 512) : Body.num x0 x1 x2 x3 (ix2 q ⟨510 + j.val, by omega⟩)
    = ∑ r : Fin 512, lpK c1 (lgK x0 x1 x2 x3 r) 8 j.val * parK c1 (lgK x0 x1 x2 x3 r) 8 j.val := by
  rw [num_unfold, Cat.num_cat_8]
  exact LayersC.num_8 _ _ (hP8 x0 x1 x2 x3) j
theorem den_8 (q : Fin 8) (j : Fin 512) : Body.den x0 x1 x2 x3 (ix2 q ⟨510 + j.val, by omega⟩)
    = ∑ r : Fin 512, parK c1 (lgK x0 x1 x2 x3 r) 8 j.val := by
  rw [den_unfold, Cat.den_cat_8]
  exact LayersC.den_8 _ _ (hP8 x0 x1 x2 x3) j

theorem num_9 (q : Fin 8) (j : Fin 1024) : Body.num x0 x1 x2 x3 (ix2 q ⟨1022 + j.val, by omega⟩)
    = ∑ r : Fin 512, lpK c1 (lgK x0 x1 x2 x3 r) 9 j.val * parK c1 (lgK x0 x1 x2 x3 r) 9 j.val := by
  rw [num_unfold, Cat.num_cat_9]
  exact LayersC.num_9 _ _ (hP8 x0 x1 x2 x3) j
theorem den_9 (q : Fin 8) (j : Fin 1024) : Body.den x0 x1 x2 x3 (ix2 q ⟨1022 + j.val, by omega⟩)
    = ∑ r : Fin 512, parK c1 (lgK x0 x1 x2 x3 r) 9 j.val := by
  rw [den_unfold, Cat.den_cat_9]
  exact Finset.sum_congr rfl fun r _ => LayersC.parent_9 _ _ r (hP8 x0 x1 x2 x3 r) j

end Cert.KernelIdeal.KValue

end
-- ==== Proof.MathGlue.lean ====
import proofs.«128224_j82489141887173_2_alg».proof.Proof.Spec
import Idealize.ShloMosaic.PureOps.Ideal

noncomputable section

namespace SDT

open Idealize.ShloMosaic

theorem split_sum {ι : Type*} [Fintype ι] (x a : ι → EReal) (hx : ∀ k, IsFin (x k)) (ha : ∀ k, IsFin (a k)) :
    ((∑ k, x k * a k) + ∑ k, x k * (a k - a k)) + ∑ k, (x k - x k) * a k = ∑ k, x k * a k := by
  have h1 : ∑ k, x k * (a k - a k) = 0 := Finset.sum_eq_zero fun k _ => by rw [(ha k).sub_self, mul_zero]
  have h2 : ∑ k, (x k - x k) * a k = 0 := Finset.sum_eq_zero fun k _ => by rw [(hx k).sub_self, zero_mul]
  rw [h1, h2, add_zero, add_zero]

theorem sum_tiles {M : Type*} [AddCommMonoid M] (f : Fin 16384 → M) :
    ∑ t : Fin 32, ∑ r : Fin 512, f ⟨512 * t.val + r.val, by have := t.isLt; have := r.isLt; omega⟩ = ∑ b : Fin 16384, f b := by
  rw [← Finset.sum_product']
  refine Finset.sum_bij' (fun p _ => (⟨512 * p.1.val + p.2.val, by have := p.1.isLt; have := p.2.isLt; omega⟩ : Fin 16384))
    (fun b _ => ((⟨b.val / 512, by have := b.isLt; omega⟩ : Fin 32), (⟨b.val % 512, Nat.mod_lt _ (by norm_num)⟩ : Fin 512)))
    (fun _ _ => Finset.mem_univ _) (fun _ _ => Finset.mem_univ _) ?_ ?_ (fun _ _ => rfl)
  · rintro ⟨t, r⟩ _
    have := t.isLt; have := r.isLt
    ext <;> simp <;> omega
  · rintro b _
    apply Fin.ext
    show 512 * (b.val / 512) + b.val % 512 = b.val
    exact Nat.div_add_mod b.val 512

theorem IsFin.logistic {x : EReal} (hx : IsFin x) : IsFin (Ideal.logistic x) := by
  obtain ⟨r, rfl⟩ := hx
  exact ⟨_, Ideal.logistic_coe r⟩

end SDT

end
-- ==== Proof.LogitsBridge.lean ====
import proofs.«128224_j82489141887173_2_alg».proof.Proof.KICat
import proofs.«128224_j82489141887173_2_alg».proof.Proof.MathGlue

noncomputable section

namespace Cert.KernelIdeal.LogitsBridge

open Cert.KernelIdeal Cert.KernelIdeal.Gen Idealize.ShloMosaic Idealize.ShloMosaic.ValueIdx SDT

theorem logits_col (X : FVec Ideal S16384x1024 .f32) (W1 : FVec Ideal S1023x1025 .f32)
    (hX : ∀ i, IsFin (X i)) (hW1 : ∀ i, IsFin (W1 i))
    (x0 : Vec Ideal S512x1024 .f32) (A1 A2 : Vec Ideal S1024x1024 .bf16) (A3 : Vec Ideal S1x1024 .f32)
    (b : Fin 16384) (r : Fin 512) (hx0 : ∀ k : Fin 1024, x0 (ix2 r k) = X (ix2 b k))
    (j : Fin 1024) (node : Fin 1023)
    (hA1 : ∀ k : Fin 1024, A1 (ix2 k j) = W1 (ix2 node ⟨k.val + 1, by omega⟩))
    (hA2 : ∀ k : Fin 1024, A2 (ix2 k j) = A1 (ix2 k j) - A1 (ix2 k j))
    (hA3 : A3 (ix2 (0 : Fin 1) j) = W1 (ix2 node (0 : Fin 1025))) :
    k0_pay4 x0 A1 A2 A3 (ix2 r j)
      = Ideal.logistic (W1 (ix2 node (0 : Fin 1025)) + ∑ k : Fin 1024, X (ix2 b k) * W1 (ix2 node ⟨k.val + 1, by omega⟩)) := by
  rw [Cat.logits_apply]
  have e2 : ∀ k : Fin 1024, (x0 (ix2 r k) : EReal) * A2 (ix2 k j) = x0 (ix2 r k) * (A1 (ix2 k j) - A1 (ix2 k j)) := fun k => by rw [hA2 k]
  simp only [e2]
  rw [split_sum (fun k : Fin 1024 => (x0 (ix2 r k) : EReal)) (fun k : Fin 1024 => (A1 (ix2 k j) : EReal))
    (fun k => by rw [hx0 k]; exact hX _) (fun k => by rw [hA1 k]; exact hW1 _)]
  simp only [hx0, hA1, hA3]
  rw [add_comm]

end Cert.KernelIdeal.LogitsBridge

end
-- ==== Proof.LevelSums.lean ====
import proofs.«128224_j82489141887173_2_alg».proof.Proof.MathGlue

noncomputable section

namespace SDT

open Idealize.ShloMosaic

def LogitsAgree (lgK : Fin 32 → Fin 512 → ℕ → EReal) (lgR : Fin 16384 → ℕ → EReal) : Prop :=
  ∀ (t : Fin 32) (r : Fin 512) (d : ℕ), d < 10 → ∀ i, i < 2 ^ d →
    lgK t r (2 ^ d - 1 + i) = lgR ⟨512 * t.val + r.val, by have := t.isLt; have := r.isLt; omega⟩ (2 ^ d - 1 + brev d i)

/-- With logits that agree up to the reversal of the nodes, a level's sums over the batch agree up to the reversal of the children. -/
theorem num_level (c1 : EReal) (lgK : Fin 32 → Fin 512 → ℕ → EReal) (lgR : Fin 16384 → ℕ → EReal)
    (h : LogitsAgree lgK lgR) (d : ℕ) (hd : d < 10) (j : ℕ) (hj : j < 2 ^ (d + 1)) :
    ∑ t : Fin 32, ∑ r : Fin 512, lpK c1 (lgK t r) d j * parK c1 (lgK t r) d j
      = ∑ b : Fin 16384, lpR c1 (lgR b) d (brev (d + 1) j) * parR c1 (lgR b) d (brev (d + 1) j) := by
  rw [← sum_tiles (fun b => lpR c1 (lgR b) d (brev (d + 1) j) * parR c1 (lgR b) d (brev (d + 1) j))]
  refine Finset.sum_congr rfl fun t _ => Finset.sum_congr rfl fun r _ => ?_
  rw [lpK_eq_lpR c1 (lgK t r) _ 10 (fun d' hd' i hi => h t r d' hd' i hi) d j hd hj,
    parK_eq_parR c1 (lgK t r) _ 10 (fun d' hd' i hi => h t r d' hd' i hi) d j hd hj]

theorem den_level (c1 : EReal) (lgK : Fin 32 → Fin 512 → ℕ → EReal) (lgR : Fin 16384 → ℕ → EReal)
    (h : LogitsAgree lgK lgR) (d : ℕ) (hd : d < 10) (j : ℕ) (hj : j < 2 ^ (d + 1)) :
    ∑ t : Fin 32, ∑ r : Fin 512, parK c1 (lgK t r) d j
      = ∑ b : Fin 16384, parR c1 (lgR b) d (brev (d + 1) j) := by
  rw [← sum_tiles (fun b => parR c1 (lgR b) d (brev (d + 1) j))]
  refine Finset.sum_congr rfl fun t _ => Finset.sum_congr rfl fun r _ => ?_
  rw [parK_eq_parR c1 (lgK t r) _ 10 (fun d' hd' i hi => h t r d' hd' i hi) d j hd hj]

end SDT

end
-- ==== Proof.KernelPred.lean ====
import proofs.«128224_j82489141887173_2_alg».proof.Proof.KIValue
import proofs.«128224_j82489141887173_2_alg».proof.Proof.MathGlue
import Idealize.ShloMosaic.Lib.IdealHost

noncomputable section

namespace Cert.Proof.KernelPred

open Cert.KernelIdeal Cert.KernelIdeal.Gen Idealize.ShloMosaic Idealize.ShloMosaic.ValueIdx SDT

theorem isFin_c1 : IsFin c1 := ⟨1, by unfold c1; rw [Ideal.ofBits_one_f32]; rfl⟩

theorem pred_eq (x0 : Vec Ideal S512x1024 .f32) (x1 x2 : Vec Ideal S1024x1024 .bf16) (x3 : Vec Ideal S1x1024 .f32)
    (x4 x5 : Vec Ideal S1024x1000 .bf16) (W2 : FVec Ideal S1000x1024 .f32) (hW2 : ∀ i, IsFin (W2 i))
    (hx4 : ∀ (j : Fin 1024) (o : Fin 1000), x4 (ix2 j o) = W2 (ix2 o ⟨brev 10 j.val, brev_lt 10 j.val j.isLt⟩))
    (hx5 : ∀ (j : Fin 1024) (o : Fin 1000), (x5 (ix2 j o) : EReal) = x4 (ix2 j o) - x4 (ix2 j o))
    (r : Fin 512) (lgRb : ℕ → EReal)
    (hfin : ∀ node, node < 2 ^ 10 - 1 → IsFin (KValue.lgK x0 x1 x2 x3 r node))
    (hagree : ∀ d, d < 10 → ∀ i, i < 2 ^ d → KValue.lgK x0 x1 x2 x3 r (2 ^ d - 1 + i) = lgRb (2 ^ d - 1 + brev d i))
    (o : Fin 1000) :
    Body.pred x0 x1 x2 x3 x4 x5 (ix2 r o) = ∑ j : Fin 1024, pR c1 lgRb 10 j.val * W2 (ix2 o j) := by
  show k0_pay3 (Body.path10 x0 x1 x2 x3) x4 x5 (ix2 r o) = _
  rw [Cat.pred_apply]
  have e5 : ∀ j : Fin 1024, (Body.path10 x0 x1 x2 x3 (ix2 r j) : EReal) * x5 (ix2 j o)
      = Body.path10 x0 x1 x2 x3 (ix2 r j) * (x4 (ix2 j o) - x4 (ix2 j o)) := fun j => by rw [hx5 j o]
  simp only [e5]
  rw [split_sum (fun j : Fin 1024 => (Body.path10 x0 x1 x2 x3 (ix2 r j) : EReal)) (fun j : Fin 1024 => (x4 (ix2 j o) : EReal))
    (fun j => by rw [KValue.path10]; exact IsFin.pK isFin_c1 10 hfin 10 j.val le_rfl j.isLt)
    (fun j => by rw [hx4 j o]; exact hW2 _)]
  simp only [KValue.path10, hx4]
  have hp : ∀ j : Fin 1024, pK c1 (KValue.lgK x0 x1 x2 x3 r) 10 j.val = pR c1 lgRb 10 (brev 10 j.val) := fun j =>
    pK_eq_pR c1 _ _ 10 hagree 10 j.val le_rfl j.isLt
  simp only [hp]
  exact sum_brev 10 (fun j : Fin (2 ^ 10) => pR c1 lgRb 10 j.val * W2 (ix2 o j))

end Cert.Proof.KernelPred

end
-- ==== Proof.RefLayersA.lean ====
import proofs.«128224_j82489141887173_2_alg».proof.Proof.Gen.ReferenceIdeal.Run
import proofs.«128224_j82489141887173_2_alg».proof.Proof.Rows
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Layers

open Cert.ReferenceIdeal Cert.ReferenceIdeal.Gen Cert.ReferenceIdeal.Value Idealize.ShloMosaic Idealize.ShloMosaic.ValueIdx

section Layout
variable {α : Type} {A n m : ℕ}

-- Row-major positions agree: (b n + i) 2 + s = b (2 n) + (2 i + s).
theorem cast_pairs_apply (x : (⟨3, ![A, n, 2]⟩ : Shape).Idx → α)
    (h : (⟨3, ![A, n, 2]⟩ : Shape).ShapeCasts ⟨2, ![A, m]⟩) (hm : m = 2 * n)
    (b : Fin A) (j : Fin m) (i : Fin n) (s : Fin 2) (hj : j.val = 2 * i.val + s.val) :
    shapeCast ⟨2, ![A, m]⟩ x h (ix2 b j) = x (ix3 b i s) :=
  shapeCast_apply x h _ _ (by
    rw [Shape.rowMajor_val_three, Shape.rowMajor_val_two]
    show (b.val * n + i.val) * 2 + s.val = b.val * m + j.val
    rw [hj, hm]; ring)

theorem unit_axis {k : ℕ} (i : Fin k) : i.val = if k = 1 then 0 else i.val := by
  have := i.isLt; split <;> omega

-- Every column doubled along a new last axis, read row-major: column j is the old column j / 2.
theorem rep_pairs_apply (P : (⟨2, ![A, n]⟩ : Shape).Idx → α)
    (hb : (⟨2, ![A, n]⟩ : Shape).BroadcastsInDim ⟨3, ![A, n, 2]⟩ ![0, 1])
    (hc : (⟨3, ![A, n, 2]⟩ : Shape).ShapeCasts ⟨2, ![A, m]⟩) (hm : m = 2 * n)
    (b : Fin A) (j : Fin m) (i : Fin n) (hi : i.val = j.val / 2) :
    shapeCast ⟨2, ![A, m]⟩ (broadcastInDim ⟨3, ![A, n, 2]⟩ ![0, 1] hb P) hc (ix2 b j) = P (ix2 b i) := by
  rw [cast_pairs_apply _ hc hm b j i ⟨j.val % 2, Nat.mod_lt _ (by decide)⟩ (by show j.val = 2 * i.val + j.val % 2; omega)]
  exact broadcastInDim_apply _ hb P _ (ix2 b i) fun a => match a with
    | ⟨0, _⟩ => unit_axis b
    | ⟨1, _⟩ => unit_axis i

end Layout

theorem half_lt {d : ℕ} (j : Fin (2 ^ (d + 1))) : j.val / 2 < 2 ^ d := by
  have := j.isLt; have e := pow_succ 2 d; omega

variable (V0 : Valuation τ sig (Elt Ideal))

abbrev lgR (b : Fin 16384) : ℕ → EReal := SDT.rowOf (A := 16384) (B := 1023) (res_main_v9 (F := Ideal) V0) b

-- The pairs (p, 1 - p): side 0 of node q is its routing probability, side 1 the constant one less it.
theorem pairs_apply (b : Fin 16384) (q : Fin 1023) (s : Fin 2) :
    res_main_v14 (F := Ideal) V0 (ix3 b q s) = SDT.rt SDT.c1 (lgR V0 b) q.val s.val := by
  have hbc : ∀ Q : FVec Ideal S16384x1023 .f32,
      broadcastInDim S16384x1023x1 ![0, 1] bcast_S16384x1023_S16384x1023x1_0_1 Q (ix3 b q (0 : Fin 1)) = Q (ix2 b q) :=
    fun Q => broadcastInDim_apply _ _ Q _ (ix2 b q) fun a => match a with
      | ⟨0, _⟩ => rfl
      | ⟨1, _⟩ => rfl
  have e : lgR V0 b q.val = res_main_v9 (F := Ideal) V0 (ix2 b q) := SDT.rowOf_val _ b q
  unfold res_main_v14 SDT.rt SDT.c1
  rw [e]
  match s with
  | ⟨0, _⟩ =>
    refine (concatenate_pair_apply_left (s₁ := S16384x1023x1) (s₂ := S16384x1023x1) 2 _ _ _ (ix3 b q (0 : Fin 2)) rfl
      (ix3 b q (0 : Fin 1)) fun a => ?_).trans (hbc _)
    match a with
    | ⟨0, _⟩ => rfl
    | ⟨1, _⟩ => rfl
    | ⟨2, _⟩ => rfl
  | ⟨1, _⟩ =>
    refine (concatenate_pair_apply_right (s₁ := S16384x1023x1) (s₂ := S16384x1023x1) 2 _ _ _ (ix3 b q (1 : Fin 2)) rfl rfl
      (ix3 b q (0 : Fin 1)) (fun a ha => ?_) rfl).trans ((hbc _).trans (subf_apply _ _ _))
    match a with
    | ⟨0, _⟩ => rfl
    | ⟨1, _⟩ => rfl
    | ⟨2, _⟩ => exact absurd rfl ha

-- Level d cuts its 2^d nodes out from node 2^d - 1: child j reads side j % 2 of node 2^d - 1 + j / 2.
theorem lp_apply (d : ℕ)
    {hs : (⟨3, ![16384, 1023, 2]⟩ : Shape).Slices ![0, 2 ^ d - 1, 0] ⟨3, ![16384, 2 ^ d, 2]⟩}
    {hc : (⟨3, ![16384, 2 ^ d, 2]⟩ : Shape).ShapeCasts ⟨2, ![16384, 2 ^ (d + 1)]⟩} (b : Fin 16384) (j : Fin (2 ^ (d + 1))) :
    shapeCast ⟨2, ![16384, 2 ^ (d + 1)]⟩
        (extractStridedSlice ⟨3, ![16384, 2 ^ d, 2]⟩ ![0, 2 ^ d - 1, 0] (res_main_v14 (F := Ideal) V0) hs) hc (ix2 b j)
      = SDT.lpR SDT.c1 (lgR V0 b) d j.val := by
  have hi := half_lt j
  have hN : 2 ^ d - 1 + 2 ^ d ≤ 1023 := hs.2 ⟨1, Nat.one_lt_succ_succ 1⟩
  refine (cast_pairs_apply _ hc (pow_succ' 2 d) b j ⟨j.val / 2, hi⟩ ⟨j.val % 2, Nat.mod_lt _ two_pos⟩
    (by show j.val = 2 * (j.val / 2) + j.val % 2; omega)).trans ?_
  exact (slice3_axis1_apply _ _ hs b _ _ ⟨2 ^ d - 1 + j.val / 2, by omega⟩ (by rfl)).trans (pairs_apply V0 b _ _)

-- One level down: a child's path probability is its parent's times the child's routing factor.
theorem path_apply (d : ℕ) {P : FVec Ideal ⟨2, ![16384, 2 ^ d]⟩ .f32}
    {hb : (⟨2, ![16384, 2 ^ d]⟩ : Shape).BroadcastsInDim ⟨3, ![16384, 2 ^ d, 2]⟩ ![0, 1]}
    {hs : (⟨3, ![16384, 1023, 2]⟩ : Shape).Slices ![0, 2 ^ d - 1, 0] ⟨3, ![16384, 2 ^ d, 2]⟩}
    {hc : (⟨3, ![16384, 2 ^ d, 2]⟩ : Shape).ShapeCasts ⟨2, ![16384, 2 ^ (d + 1)]⟩}
    (hP : ∀ b (i : Fin (2 ^ d)), P (ix2 b i) = SDT.pR SDT.c1 (lgR V0 b) d i.val) (b : Fin 16384) (j : Fin (2 ^ (d + 1))) :
    mulf (shapeCast ⟨2, ![16384, 2 ^ (d + 1)]⟩ (broadcastInDim ⟨3, ![16384, 2 ^ d, 2]⟩ ![0, 1] hb P) hc)
        (shapeCast ⟨2, ![16384, 2 ^ (d + 1)]⟩
          (extractStridedSlice ⟨3, ![16384, 2 ^ d, 2]⟩ ![0, 2 ^ d - 1, 0] (res_main_v14 (F := Ideal) V0) hs) hc) (ix2 b j)
      = SDT.pR SDT.c1 (lgR V0 b) (d + 1) j.val := by
  rw [mulf_apply, rep_pairs_apply P hb hc (pow_succ' 2 d) b j ⟨j.val / 2, half_lt j⟩ rfl, hP, lp_apply V0 d b j]
  rfl

-- The parent term of child j is the new path probability of child j / 2, one of the first 2^d.
theorem par_apply (d : ℕ) {Q : FVec Ideal ⟨2, ![16384, 2 ^ (d + 1)]⟩ .f32}
    {hs : (⟨2, ![16384, 2 ^ (d + 1)]⟩ : Shape).Slices ![0, 0] ⟨2, ![16384, 2 ^ d]⟩}
    {hb : (⟨2, ![16384, 2 ^ d]⟩ : Shape).BroadcastsInDim ⟨3, ![16384, 2 ^ d, 2]⟩ ![0, 1]}
    {hc : (⟨3, ![16384, 2 ^ d, 2]⟩ : Shape).ShapeCasts ⟨2, ![16384, 2 ^ (d + 1)]⟩}
    (hQ : ∀ b (i : Fin (2 ^ (d + 1))), Q (ix2 b i) = SDT.pR SDT.c1 (lgR V0 b) (d + 1) i.val) (b : Fin 16384)
    (j : Fin (2 ^ (d + 1))) :
    shapeCast ⟨2, ![16384, 2 ^ (d + 1)]⟩ (broadcastInDim ⟨3, ![16384, 2 ^ d, 2]⟩ ![0, 1] hb
        (extractStridedSlice ⟨2, ![16384, 2 ^ d]⟩ ![0, 0] Q hs)) hc (ix2 b j)
      = SDT.parR SDT.c1 (lgR V0 b) d j.val := by
  rw [rep_pairs_apply _ hb hc (pow_succ' 2 d) b j ⟨j.val / 2, half_lt j⟩ rfl]
  exact (slice2_axis1_apply 0 Q hs b _ ⟨j.val / 2, (Nat.div_le_self _ _).trans_lt j.isLt⟩ (Nat.zero_add _).symm).trans (hQ b _)

end Cert.ReferenceIdeal.Layers

end
-- ==== Proof.RefLayersB.lean ====
import proofs.«128224_j82489141887173_2_alg».proof.Proof.Gen.ReferenceIdeal.Run
import proofs.«128224_j82489141887173_2_alg».proof.Proof.Rows
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.LayersB

open Cert.ReferenceIdeal Cert.ReferenceIdeal.Gen Cert.ReferenceIdeal.Value
open Idealize.ShloMosaic Idealize.ShloMosaic.ValueIdx

variable (V0 : Valuation τ sig (Elt Ideal))

abbrev lgR (b : Fin 16384) : ℕ → EReal :=
  SDT.rowOf (A := 16384) (B := 1023) (res_main_v9 (F := Ideal) V0) b

end Cert.ReferenceIdeal.LayersB

end
-- ==== Proof.RefSums.lean ====
import proofs.«128224_j82489141887173_2_alg».proof.Proof.Gen.ReferenceIdeal.Run
import proofs.«128224_j82489141887173_2_alg».proof.Proof.Rows
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.Sums

open Cert.ReferenceIdeal Cert.ReferenceIdeal.Gen Cert.ReferenceIdeal.Value
open Idealize.ShloMosaic Idealize.ShloMosaic.ValueIdx Idealize.ShloMosaic.StackMember

-- The sum of a matrix down its rows, read at column j: the initial value plus the column's entries.
theorem reduce_rows_apply {A n : ℕ} (x : FVec Ideal ⟨2, ![A, n]⟩ .f32) (init : FVec Ideal ⟨0, ![]⟩ .f32)
    (h' : (⟨2, ![A, n]⟩ : Shape).ReducesTo [0] ⟨1, ![n]⟩) (hu : 0 < (⟨0, ![]⟩ : Shape).numel) (j : Fin n) :
    Host.reduceAdd (F := Ideal) x init h' hu (ix1 j) = init ix0 + ∑ b : Fin A, x (ix2 b j) := by
  have h : (⟨2, ![A, n]⟩ : Shape).Reduces [0] ⟨1, ![n]⟩ := ⟨h'.1, Nat.one_pos, h'.2⟩
  rw [hostReduceAdd_apply, Ideal.hostReduceAdd_single h' h, eq_ix0 (Shape.Idx.first hu)]
  refine congrArg (init ix0 + ·) (Finset.sum_congr rfl fun b _ => congrArg x ?_)
  funext c
  match c with
  | ⟨0, _⟩ => rfl
  | ⟨1, _⟩ => rfl

-- A level's ratio at child j: the column sum of lp * par over the column sum of par plus a constant.
theorem ratio_apply {A n : ℕ} {lp par : FVec Ideal ⟨2, ![A, n]⟩ .f32} {zb eb : BitVec 32}
    {h' : (⟨2, ![A, n]⟩ : Shape).ReducesTo [0] ⟨1, ![n]⟩} {hu : 0 < (⟨0, ![]⟩ : Shape).numel}
    {hb : (⟨0, ![]⟩ : Shape).BroadcastsInDim ⟨1, ![n]⟩ ![]} {f g : Fin A → Fin n → EReal}
    (hlp : ∀ b j, lp (ix2 b j) = f b j) (hpar : ∀ b j, par (ix2 b j) = g b j) (j : Fin n) :
    Host.divf (F := Ideal) (Host.reduceAdd (F := Ideal) (mulf lp par) (constant (F := Ideal) ⟨0, ![]⟩ .f32 zb) h' hu)
        (addf (Host.reduceAdd (F := Ideal) par (constant (F := Ideal) ⟨0, ![]⟩ .f32 zb) h' hu)
          (broadcastInDim ⟨1, ![n]⟩ ![] hb (constant (F := Ideal) ⟨0, ![]⟩ .f32 eb))) (ix1 j)
      = Ideal.div (Ideal.ofBits .f32 zb + ∑ b, f b j * g b j) ((Ideal.ofBits .f32 zb + ∑ b, g b j) + Ideal.ofBits .f32 eb) := by
  rw [hostDivf_apply, addf_apply, reduce_rows_apply, reduce_rows_apply, broadcastInDim_scalar_apply]
  simp only [mulf_apply, hlp, hpar]
  rfl

section Cat
variable {α : Type}

theorem cat_col_head {A K M : ℕ} (x₁ : (⟨2, ![A, 1]⟩ : Shape).Idx → α) (x₂ : (⟨2, ![A, K]⟩ : Shape).Idx → α)
    (h : Shape.Concatenates [(⟨2, ![A, 1]⟩ : Shape), ⟨2, ![A, K]⟩] ⟨2, ![A, M]⟩ 1) (b : Fin A) (k : Fin M) (hk : k.val = 0) :
    concatenate ⟨2, ![A, M]⟩ 1 [⟨⟨2, ![A, 1]⟩, x₁⟩, ⟨⟨2, ![A, K]⟩, x₂⟩] h (ix2 b k) = x₁ (ix2 b 0) :=
  concatenate_pair_apply_left 1 x₁ x₂ h _ rfl (ix2 b 0) fun c => match c with
    | ⟨0, _⟩ => rfl
    | ⟨1, _⟩ => hk.symm

theorem cat_col_tail {A K M : ℕ} (x₁ : (⟨2, ![A, 1]⟩ : Shape).Idx → α) (x₂ : (⟨2, ![A, K]⟩ : Shape).Idx → α)
    (h : Shape.Concatenates [(⟨2, ![A, 1]⟩ : Shape), ⟨2, ![A, K]⟩] ⟨2, ![A, M]⟩ 1) (b : Fin A) (k : Fin M) (k' : Fin K)
    (hk : k.val = k'.val + 1) :
    concatenate ⟨2, ![A, M]⟩ 1 [⟨⟨2, ![A, 1]⟩, x₁⟩, ⟨⟨2, ![A, K]⟩, x₂⟩] h (ix2 b k) = x₂ (ix2 b k') :=
  concatenate_pair_apply_right 1 x₁ x₂ h _ rfl rfl (ix2 b k')
    (fun c hc => match c, hc with
      | ⟨0, _⟩, _ => rfl
      | ⟨1, _⟩, hc => absurd rfl hc)
    (by show k'.val + 1 = k.val; omega)

end Cat

-- One over one plus the exponential of the negated argument is the logistic function, by its definition.
theorem sigmoid_apply {s : Shape} (hb : (⟨0, ![]⟩ : Shape).BroadcastsInDim s ![]) (x : FVec Ideal s .f32) (i : s.Idx) :
    Host.divf (F := Ideal) (broadcastInDim s ![] hb (constant (F := Ideal) ⟨0, ![]⟩ .f32 0x3F800000#32))
        (addf (broadcastInDim s ![] hb (constant (F := Ideal) ⟨0, ![]⟩ .f32 0x3F800000#32)) (Host.exp (Host.negf x))) i
      = Ideal.logistic (x i) := by
  rw [hostDivf_apply, addf_apply, broadcastInDim_scalar_apply, constant_apply, Ideal.ofBits_one_f32]
  rfl

variable (V0 : Valuation τ sig (Elt Ideal))

theorem logits_apply (b : Fin 16384) (node : Fin 1023) :
    res_main_v9 (F := Ideal) V0 (ix2 b node)
      = Ideal.logistic (@HAdd.hAdd EReal EReal EReal instHAdd (V0 (Proc.devRef .tc main_arg1) (ix2 node (0 : Fin 1025)))
          (@Finset.sum (Fin 1024) EReal _ Finset.univ fun k => @HMul.hMul EReal EReal EReal instHMul
            (V0 (Proc.devRef .tc main_arg0) (ix2 b k)) (V0 (Proc.devRef .tc main_arg1) (ix2 node ⟨k.val + 1, by omega⟩)))) := by
  unfold res_main_v9
  refine (sigmoid_apply bcast_S_S16384x1023 _ (ix2 b node)).trans (congrArg Ideal.logistic ?_)
  refine (dotGeneral_plain_apply none _ _ b node).trans ?_
  rw [Fin.sum_univ_succ]
  refine congrArg₂ (@HAdd.hAdd EReal EReal EReal instHAdd) ?_ (Finset.sum_congr rfl fun k _ => ?_)
  · rw [cat_col_head _ _ _ b 0 rfl, broadcastInDim_scalar_apply, constant_apply, Ideal.ofBits_one_f32,
      transpose_ix2_apply (a := 1023) (b := 1025)]
    exact one_mul _
  · rw [cat_col_tail _ _ _ b k.succ k rfl, transpose_ix2_apply (a := 1023) (b := 1025)]
    rfl

end Cert.ReferenceIdeal.Sums

end
-- ==== Proof.RefValue.lean ====
import proofs.«128224_j82489141887173_2_alg».proof.Proof.RefLayersA
import proofs.«128224_j82489141887173_2_alg».proof.Proof.RefLayersB
import proofs.«128224_j82489141887173_2_alg».proof.Proof.RefSums

noncomputable section

namespace Cert.ReferenceIdeal.RefValue

open Cert.ReferenceIdeal Cert.ReferenceIdeal.Gen Cert.ReferenceIdeal.Value Idealize.ShloMosaic Idealize.ShloMosaic.ValueIdx SDT

variable (V0 : Valuation τ sig (Elt Ideal))

abbrev lgR (b : Fin 16384) : ℕ → EReal := rowOf (A := 16384) (B := 1023) (res_main_v9 (F := Ideal) V0) b

theorem path1 (b : Fin 16384) (j : Fin 2) : res_main_v20 V0 (ix2 b j) = pR c1 (lgR V0 b) 1 j.val :=
  Layers.path_apply V0 0 (P := broadcastInDim S16384x1 ![] bcast_S_S16384x1 (constant S_ .f32 0x3F800000#32)) (fun _ _ => rfl) b j
theorem alpha0 (j : Fin 2) : res_main_v29 (F := Ideal) V0 (ix1 j)
    = Ideal.div (Ideal.ofBits .f32 0x00000000#32 + ∑ b : Fin 16384, lpR c1 (lgR V0 b) 0 j.val * parR c1 (lgR V0 b) 0 j.val)
        ((Ideal.ofBits .f32 0x00000000#32 + ∑ b : Fin 16384, parR c1 (lgR V0 b) 0 j.val) + Ideal.ofBits .f32 0x322BCC77#32) :=
  Sums.ratio_apply (Layers.lp_apply V0 0) (Layers.par_apply V0 0 (path1 V0)) j

theorem path2 (b : Fin 16384) (j : Fin 4) : res_main_v44 V0 (ix2 b j) = pR c1 (lgR V0 b) 2 j.val :=
  Layers.path_apply V0 1 (path1 V0) b j
theorem alpha1 (j : Fin 4) : res_main_v53 (F := Ideal) V0 (ix1 j)
    = Ideal.div (Ideal.ofBits .f32 0x00000000#32 + ∑ b : Fin 16384, lpR c1 (lgR V0 b) 1 j.val * parR c1 (lgR V0 b) 1 j.val)
        ((Ideal.ofBits .f32 0x00000000#32 + ∑ b : Fin 16384, parR c1 (lgR V0 b) 1 j.val) + Ideal.ofBits .f32 0x322BCC77#32) :=
  Sums.ratio_apply (Layers.lp_apply V0 1) (Layers.par_apply V0 1 (path2 V0)) j

theorem path3 (b : Fin 16384) (j : Fin 8) : res_main_v68 V0 (ix2 b j) = pR c1 (lgR V0 b) 3 j.val :=
  Layers.path_apply V0 2 (path2 V0) b j
theorem alpha2 (j : Fin 8) : res_main_v77 (F := Ideal) V0 (ix1 j)
    = Ideal.div (Ideal.ofBits .f32 0x00000000#32 + ∑ b : Fin 16384, lpR c1 (lgR V0 b) 2 j.val * parR c1 (lgR V0 b) 2 j.val)
        ((Ideal.ofBits .f32 0x00000000#32 + ∑ b : Fin 16384, parR c1 (lgR V0 b) 2 j.val) + Ideal.ofBits .f32 0x322BCC77#32) :=
  Sums.ratio_apply (Layers.lp_apply V0 2) (Layers.par_apply V0 2 (path3 V0)) j

theorem path4 (b : Fin 16384) (j : Fin 16) : res_main_v92 V0 (ix2 b j) = pR c1 (lgR V0 b) 4 j.val :=
  Layers.path_apply V0 3 (path3 V0) b j
theorem alpha3 (j : Fin 16) : res_main_v101 (F := Ideal) V0 (ix1 j)
    = Ideal.div (Ideal.ofBits .f32 0x00000000#32 + ∑ b : Fin 16384, lpR c1 (lgR V0 b) 3 j.val * parR c1 (lgR V0 b) 3 j.val)
        ((Ideal.ofBits .f32 0x00000000#32 + ∑ b : Fin 16384, parR c1 (lgR V0 b) 3 j.val) + Ideal.ofBits .f32 0x322BCC77#32) :=
  Sums.ratio_apply (Layers.lp_apply V0 3) (Layers.par_apply V0 3 (path4 V0)) j

theorem path5 (b : Fin 16384) (j : Fin 32) : res_main_v116 V0 (ix2 b j) = pR c1 (lgR V0 b) 5 j.val :=
  Layers.path_apply V0 4 (path4 V0) b j
theorem alpha4 (j : Fin 32) : res_main_v125 (F := Ideal) V0 (ix1 j)
    = Ideal.div (Ideal.ofBits .f32 0x00000000#32 + ∑ b : Fin 16384, lpR c1 (lgR V0 b) 4 j.val * parR c1 (lgR V0 b) 4 j.val)
        ((Ideal.ofBits .f32 0x00000000#32 + ∑ b : Fin 16384, parR c1 (lgR V0 b) 4 j.val) + Ideal.ofBits .f32 0x322BCC77#32) :=
  Sums.ratio_apply (Layers.lp_apply V0 4) (Layers.par_apply V0 4 (path5 V0)) j

theorem path6 (b : Fin 16384) (j : Fin 64) : res_main_v140 V0 (ix2 b j) = pR c1 (lgR V0 b) 6 j.val :=
  Layers.path_apply V0 5 (path5 V0) b j
theorem alpha5 (j : Fin 64) : res_main_v149 (F := Ideal) V0 (ix1 j)
    = Ideal.div (Ideal.ofBits .f32 0x00000000#32 + ∑ b : Fin 16384, lpR c1 (lgR V0 b) 5 j.val * parR c1 (lgR V0 b) 5 j.val)
        ((Ideal.ofBits .f32 0x00000000#32 + ∑ b : Fin 16384, parR c1 (lgR V0 b) 5 j.val) + Ideal.ofBits .f32 0x322BCC77#32) :=
  Sums.ratio_apply (Layers.lp_apply V0 5) (Layers.par_apply V0 5 (path6 V0)) j

theorem path7 (b : Fin 16384) (j : Fin 128) : res_main_v164 V0 (ix2 b j) = pR c1 (lgR V0 b) 7 j.val :=
  Layers.path_apply V0 6 (path6 V0) b j
theorem alpha6 (j : Fin 128) : res_main_v173 (F := Ideal) V0 (ix1 j)
    = Ideal.div (Ideal.ofBits .f32 0x00000000#32 + ∑ b : Fin 16384, lpR c1 (lgR V0 b) 6 j.val * parR c1 (lgR V0 b) 6 j.val)
        ((Ideal.ofBits .f32 0x00000000#32 + ∑ b : Fin 16384, parR c1 (lgR V0 b) 6 j.val) + Ideal.ofBits .f32 0x322BCC77#32) :=
  Sums.ratio_apply (Layers.lp_apply V0 6) (Layers.par_apply V0 6 (path7 V0)) j

theorem path8 (b : Fin 16384) (j : Fin 256) : res_main_v188 V0 (ix2 b j) = pR c1 (lgR V0 b) 8 j.val :=
  Layers.path_apply V0 7 (path7 V0) b j
theorem alpha7 (j : Fin 256) : res_main_v197 (F := Ideal) V0 (ix1 j)
    = Ideal.div (Ideal.ofBits .f32 0x00000000#32 + ∑ b : Fin 16384, lpR c1 (lgR V0 b) 7 j.val * parR c1 (lgR V0 b) 7 j.val)
        ((Ideal.ofBits .f32 0x00000000#32 + ∑ b : Fin 16384, parR c1 (lgR V0 b) 7 j.val) + Ideal.ofBits .f32 0x322BCC77#32) :=
  Sums.ratio_apply (Layers.lp_apply V0 7) (Layers.par_apply V0 7 (path8 V0)) j

theorem path9 (b : Fin 16384) (j : Fin 512) : res_main_v212 V0 (ix2 b j) = pR c1 (lgR V0 b) 9 j.val :=
  Layers.path_apply V0 8 (path8 V0) b j
theorem alpha8 (j : Fin 512) : res_main_v221 (F := Ideal) V0 (ix1 j)
    = Ideal.div (Ideal.ofBits .f32 0x00000000#32 + ∑ b : Fin 16384, lpR c1 (lgR V0 b) 8 j.val * parR c1 (lgR V0 b) 8 j.val)
        ((Ideal.ofBits .f32 0x00000000#32 + ∑ b : Fin 16384, parR c1 (lgR V0 b) 8 j.val) + Ideal.ofBits .f32 0x322BCC77#32) :=
  Sums.ratio_apply (Layers.lp_apply V0 8) (Layers.par_apply V0 8 (path9 V0)) j

theorem path10 (b : Fin 16384) (j : Fin 1024) : res_main_v236 V0 (ix2 b j) = pR c1 (lgR V0 b) 10 j.val :=
  Layers.path_apply V0 9 (path9 V0) b j
theorem alpha9 (j : Fin 1024) : res_main_v245 (F := Ideal) V0 (ix1 j)
    = Ideal.div (Ideal.ofBits .f32 0x00000000#32 + ∑ b : Fin 16384, lpR c1 (lgR V0 b) 9 j.val * parR c1 (lgR V0 b) 9 j.val)
        ((Ideal.ofBits .f32 0x00000000#32 + ∑ b : Fin 16384, parR c1 (lgR V0 b) 9 j.val) + Ideal.ofBits .f32 0x322BCC77#32) :=
  Sums.ratio_apply (Layers.lp_apply V0 9) (Layers.par_apply V0 9 (path10 V0)) j

theorem pred (b : Fin 16384) (o : Fin 1000) :
    Host.dotGeneral (F := Ideal) (φ₁ := .f32) (φ₂ := .f32) dot_S16384x1024_S1024x1000_S16384x1000_1_0_0_1_n_n none (res_main_v236 (F := Ideal) V0)
        (transpose S1024x1000 [1, 0] (V0 (Proc.devRef .tc main_arg2)) transposes_S1000x1024_S1024x1000_1_0) (ix2 b o)
      = ∑ j : Fin 1024, pR c1 (lgR V0 b) 10 j.val * ((V0 (Proc.devRef .tc main_arg2) : FVec Ideal S1000x1024 .f32) (ix2 o j) : EReal) :=
  (StackMember.dotGeneral_plain_apply none _ _ b o).trans (Finset.sum_congr rfl fun j _ =>
    congrArg₂ (fun x y : EReal => x * y) (path10 V0 b j) (transpose_ix2_apply (a := 1000) (b := 1024) _ _ j o))

end Cert.ReferenceIdeal.RefValue

end
-- ==== Proof.RegTerm.lean ====
import proofs.«128224_j82489141887173_2_alg».proof.Proof.Rows
import Idealize.ShloMosaic.Lib.IdealHost
import Idealize.ShloMosaic.PureOps.Ideal.Laws

noncomputable section

namespace SDT

open Idealize.ShloMosaic Idealize.ShloMosaic.ValueIdx

def idxEquiv1 (n : ℕ) : (⟨1, ![n]⟩ : Shape).Idx ≃ Fin n where
  toFun i := i 0
  invFun j := ix1 j
  left_inv i := (eq_ix1 i).symm
  right_inv _ := rfl

theorem sum_idx1 {M : Type*} [AddCommMonoid M] (n : ℕ) (f : (⟨1, ![n]⟩ : Shape).Idx → M) :
    ∑ i, f i = ∑ j : Fin n, f (ix1 j) := by
  rw [← Equiv.sum_comp (idxEquiv1 n).symm f]; rfl

def regBody (n : ℕ) (hb : (⟨0, ![]⟩ : Shape).BroadcastsInDim ⟨1, ![n]⟩ (![] : Fin 0 → Fin 1))
    (α : FVec Ideal ⟨1, ![n]⟩ .f32) : FVec Ideal ⟨1, ![n]⟩ .f32 :=
  mulf (broadcastInDim ⟨1, ![n]⟩ ![] hb (constant (F := Ideal) ⟨0, ![]⟩ .f32 0xBF000000#32))
    (addf (Host.log α) (Host.log (subf (broadcastInDim ⟨1, ![n]⟩ ![] hb (constant (F := Ideal) ⟨0, ![]⟩ .f32 0x3F800000#32)) α)))

theorem regBody_apply (n : ℕ) (hb : (⟨0, ![]⟩ : Shape).BroadcastsInDim ⟨1, ![n]⟩ (![] : Fin 0 → Fin 1))
    (α : FVec Ideal ⟨1, ![n]⟩ .f32) (i : (⟨1, ![n]⟩ : Shape).Idx) :
    regBody n hb α i = (Ideal.ofBits .f32 0xBF000000#32 : EReal) * (Ideal.log (α i) + Ideal.log ((Ideal.ofBits .f32 0x3F800000#32 : EReal) - α i)) := by
  show (broadcastInDim ⟨1, ![n]⟩ ![] hb (constant (F := Ideal) ⟨0, ![]⟩ .f32 0xBF000000#32) i : EReal)
      * (Ideal.log (α i) + Ideal.log ((broadcastInDim ⟨1, ![n]⟩ ![] hb (constant (F := Ideal) ⟨0, ![]⟩ .f32 0x3F800000#32) i : EReal) - α i)) = _
  rw [broadcastInDim_scalar_apply, broadcastInDim_scalar_apply]
  rfl

def regTerm (n : ℕ) (hb : (⟨0, ![]⟩ : Shape).BroadcastsInDim ⟨1, ![n]⟩ (![] : Fin 0 → Fin 1))
    (hr : (⟨1, ![n]⟩ : Shape).ReducesTo [0] ⟨0, ![]⟩) (hu : 0 < (⟨0, ![]⟩ : Shape).numel)
    (α : FVec Ideal ⟨1, ![n]⟩ .f32) : FVec Ideal ⟨0, ![]⟩ .f32 :=
  Host.reduceAdd (regBody n hb α) (constant (F := Ideal) ⟨0, ![]⟩ .f32 0x00000000#32) hr hu

theorem regTerm_perm (n : ℕ) (hb : (⟨0, ![]⟩ : Shape).BroadcastsInDim ⟨1, ![n]⟩ (![] : Fin 0 → Fin 1))
    (hr : (⟨1, ![n]⟩ : Shape).ReducesTo [0] ⟨0, ![]⟩) (hu : 0 < (⟨0, ![]⟩ : Shape).numel)
    (α α' : FVec Ideal ⟨1, ![n]⟩ .f32) (π : Fin n ≃ Fin n) (h : ∀ j : Fin n, α (ix1 j) = α' (ix1 (π j))) :
    regTerm n hb hr hu α = regTerm n hb hr hu α' := by
  funext i
  unfold regTerm
  rw [hostReduceAdd_apply, hostReduceAdd_apply,
    Ideal.hostReduceAdd_total hr (fun b => b.elim0), Ideal.hostReduceAdd_total hr (fun b => b.elim0),
    sum_idx1, sum_idx1]
  congr 1
  rw [← Equiv.sum_comp π (fun j => regBody n hb α' (ix1 j))]
  refine Finset.sum_congr rfl fun j _ => ?_
  rw [regBody_apply, regBody_apply, h j]

def regChain (T0 T1 T2 T3 T4 T5 T6 T7 T8 T9 : FVec Ideal ⟨0, ![]⟩ .f32) : FVec Ideal ⟨0, ![]⟩ .f32 :=
  addf (addf (addf (addf (addf (addf (addf (addf (addf (addf (constant (F := Ideal) ⟨0, ![]⟩ .f32 0x00000000#32)
    (mulf (constant (F := Ideal) ⟨0, ![]⟩ .f32 0x3A83126F#32) T0))
    (mulf (constant (F := Ideal) ⟨0, ![]⟩ .f32 0x3A03126F#32) T1))
    (mulf (constant (F := Ideal) ⟨0, ![]⟩ .f32 0x3983126F#32) T2))
    (mulf (constant (F := Ideal) ⟨0, ![]⟩ .f32 0x3903126F#32) T3))
    (mulf (constant (F := Ideal) ⟨0, ![]⟩ .f32 0x3883126F#32) T4))
    (mulf (constant (F := Ideal) ⟨0, ![]⟩ .f32 0x3803126F#32) T5))
    (mulf (constant (F := Ideal) ⟨0, ![]⟩ .f32 0x3783126F#32) T6))
    (mulf (constant (F := Ideal) ⟨0, ![]⟩ .f32 0x3703126F#32) T7))
    (mulf (constant (F := Ideal) ⟨0, ![]⟩ .f32 0x3683126F#32) T8))
    (mulf (constant (F := Ideal) ⟨0, ![]⟩ .f32 0x3603126F#32) T9)

end SDT

end
-- ==== Proof.KernelReg.lean ====
import proofs.«128224_j82489141887173_2_alg».proof.Proof.KITail
import proofs.«128224_j82489141887173_2_alg».proof.Proof.RefValue
import proofs.«128224_j82489141887173_2_alg».proof.Proof.LevelSums
import proofs.«128224_j82489141887173_2_alg».proof.Proof.RegTerm
import Idealize.ShloMosaic.Lib.IdealHost

noncomputable section

namespace Cert.Proof.KernelReg

open Idealize.ShloMosaic Idealize.ShloMosaic.ValueIdx SDT Cert.KernelIdeal.Tail

theorem kernel_chain (nt dt : FVec Ideal Cert.KernelIdeal.S2046 .f32) :
    reg (F := Ideal) nt dt = regChain
      (regTerm 2 Cert.KernelIdeal.Facts₀.bcast_S_S2 Cert.KernelIdeal.Facts₀.reducesTo_S2_S_d0 Cert.KernelIdeal.Facts₀.h_S_ (alphaK_0 (F := Ideal) nt dt))
      (regTerm 4 Cert.KernelIdeal.Facts₀.bcast_S_S4 Cert.KernelIdeal.Facts₀.reducesTo_S4_S_d0 Cert.KernelIdeal.Facts₀.h_S_ (alphaK_1 (F := Ideal) nt dt))
      (regTerm 8 Cert.KernelIdeal.Facts₀.bcast_S_S8 Cert.KernelIdeal.Facts₀.reducesTo_S8_S_d0 Cert.KernelIdeal.Facts₀.h_S_ (alphaK_2 (F := Ideal) nt dt))
      (regTerm 16 Cert.KernelIdeal.Facts₀.bcast_S_S16 Cert.KernelIdeal.Facts₀.reducesTo_S16_S_d0 Cert.KernelIdeal.Facts₀.h_S_ (alphaK_3 (F := Ideal) nt dt))
      (regTerm 32 Cert.KernelIdeal.Facts₀.bcast_S_S32 Cert.KernelIdeal.Facts₀.reducesTo_S32_S_d0 Cert.KernelIdeal.Facts₀.h_S_ (alphaK_4 (F := Ideal) nt dt))
      (regTerm 64 Cert.KernelIdeal.Facts₀.bcast_S_S64 Cert.KernelIdeal.Facts₀.reducesTo_S64_S_d0 Cert.KernelIdeal.Facts₀.h_S_ (alphaK_5 (F := Ideal) nt dt))
      (regTerm 128 Cert.KernelIdeal.Facts₀.bcast_S_S128 Cert.KernelIdeal.Facts₀.reducesTo_S128_S_d0 Cert.KernelIdeal.Facts₀.h_S_ (alphaK_6 (F := Ideal) nt dt))
      (regTerm 256 Cert.KernelIdeal.Facts₀.bcast_S_S256 Cert.KernelIdeal.Facts₀.reducesTo_S256_S_d0 Cert.KernelIdeal.Facts₀.h_S_ (alphaK_7 (F := Ideal) nt dt))
      (regTerm 512 Cert.KernelIdeal.Facts₀.bcast_S_S512 Cert.KernelIdeal.Facts₀.reducesTo_S512_S_d0 Cert.KernelIdeal.Facts₀.h_S_ (alphaK_8 (F := Ideal) nt dt))
      (regTerm 1024 Cert.KernelIdeal.Facts₀.bcast_S_S1024 Cert.KernelIdeal.Facts₀.reducesTo_S1024_S_d0 Cert.KernelIdeal.Facts₀.h_S_ (alphaK_9 (F := Ideal) nt dt)) := rfl

theorem regChain_congr {a0 a1 a2 a3 a4 a5 a6 a7 a8 a9 b0 b1 b2 b3 b4 b5 b6 b7 b8 b9 : FVec Ideal ⟨0, ![]⟩ .f32}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) : regChain a0 a1 a2 a3 a4 a5 a6 a7 a8 a9 = regChain b0 b1 b2 b3 b4 b5 b6 b7 b8 b9 := by
  subst h0 h1 h2 h3 h4 h5 h6 h7 h8 h9; rfl

/-- Child `j` of the kernel's ratio vector is child `brev (d+1) j` of the reference's, and a level's term sums over the children. -/
theorem term (NUM DEN : FVec Ideal Cert.KernelIdeal.S256x2046 .f32) (lgK : Fin 32 → Fin 512 → ℕ → EReal)
    (lgR : Fin 16384 → ℕ → EReal) (hL : LogitsAgree lgK lgR) (d : ℕ) (hd : d < 10) {n : ℕ} (hn : n = 2 ^ (d + 1)) (o : ℕ) (ho : o + n ≤ 2046)
    (hb hr hu hb' hr' hu') (aK aR : FVec Ideal ⟨1, ![n]⟩ .f32)
    (hK : ∀ j : Fin n, aK (ix1 j) = FloatOps.hostDivf (numTot NUM (ix1 ⟨o + j.val, by omega⟩)) (denTot DEN (ix1 ⟨o + j.val, by omega⟩)))
    (hR : ∀ j : Fin n, aR (ix1 j)
      = Ideal.div (Ideal.ofBits .f32 0x00000000#32 + ∑ b : Fin 16384, lpR c1 (lgR b) d j.val * parR c1 (lgR b) d j.val)
          ((Ideal.ofBits .f32 0x00000000#32 + ∑ b : Fin 16384, parR c1 (lgR b) d j.val) + Ideal.ofBits .f32 0x322BCC77#32))
    (hnum : ∀ (t : Fin 32) (j : Fin n), NUM (ix2 ⟨8 * t.val, by omega⟩ ⟨o + j.val, by omega⟩)
      = ∑ r : Fin 512, lpK c1 (lgK t r) d j.val * parK c1 (lgK t r) d j.val)
    (hden : ∀ (t : Fin 32) (j : Fin n), DEN (ix2 ⟨8 * t.val, by omega⟩ ⟨o + j.val, by omega⟩)
      = ∑ r : Fin 512, parK c1 (lgK t r) d j.val) :
    regTerm n hb hr hu aK = regTerm n hb' hr' hu' aR := by
  subst hn
  refine regTerm_perm _ hb hr hu aK aR (brevEquiv (d + 1)) fun j => ?_
  rw [hK, hR, numTot_apply, denTot_apply]
  simp only [hnum, hden]
  rw [num_level c1 lgK lgR hL d hd j.val j.isLt, den_level c1 lgK lgR hL d hd j.val j.isLt]
  rfl

end Cert.Proof.KernelReg

end
-- ==== Proof.Finite.lean ====
import proofs.«128224_j82489141887173_2_alg».proof.Pre_finite_inputs
import proofs.«128224_j82489141887173_2_alg».proof.Proof.Gen.Pre_finite_inputs
import proofs.«128224_j82489141887173_2_alg».proof.Proof.Spec
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Proof.Finite

open Idealize.ShloMosaic Cert.Pre_finite_inputs

theorem inf_word : Ideal.ofBits .f32 0x7F800000#32 = (⊤ : EReal) := by
  simp [Ideal.ofBits, Ideal.ieee]

theorem isFin_of_abs_lt_top (x : EReal) (h : max x (-x) < ⊤) : SDT.IsFin x := by
  induction x using EReal.rec with
  | bot => simp at h
  | coe r => exact ⟨r, rfl⟩
  | top => simp at h

theorem isFin_of_cmp (x : Ideal .f32)
    (h : FloatOps.cmpf .olt (FloatOps.hostAbsf x) (Ideal.ofBits .f32 0x7F800000#32) = 1#1) : SDT.IsFin x := by
  rw [Ideal.hostAbsf_def, Ideal.absf_def, Ideal.cmpf_def, inf_word] at h
  refine isFin_of_abs_lt_top x ?_
  simp only [Ideal.cmp] at h
  by_contra hn
  simp [hn] at h

instance : Subsingleton S_.Idx := ⟨fun a b => funext fun d => d.elim0⟩

theorem isFin_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1)
    (i : s.Idx) : SDT.IsFin (x i) := by
  have h1 := Host.reduce_andi_all _ init hr hu ValueIdx.ix0 e i
  exact isFin_of_cmp (x i) h1

theorem isFin_of_pre (X : FVec Ideal S16384x1024 .f32) (W1 : FVec Ideal S1023x1025 .f32) (W2 : FVec Ideal S1000x1024 .f32)
    (h : Cert.Pre_finite_inputs.fn (F := Ideal) X W1 W2 = (fun _ => 1#1)) :
    (∀ i, SDT.IsFin (X i)) ∧ (∀ i, SDT.IsFin (W1 i)) ∧ (∀ i, SDT.IsFin (W2 i)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => isFin_of_all X _ _ _ _ h1 i, fun i => isFin_of_all W1 _ _ _ _ h2 i,
    fun i => isFin_of_all W2 _ _ _ _ h3 i⟩

end Cert.Proof.Finite
-- ==== Proof.Algebraic.lean ====
import proofs.«128224_j82489141887173_2_alg».proof.Proof.KIFrame
import proofs.«128224_j82489141887173_2_alg».proof.Proof.KIArrays
import proofs.«128224_j82489141887173_2_alg».proof.Proof.KIPrefixL
import proofs.«128224_j82489141887173_2_alg».proof.Proof.KIPrefixI
import proofs.«128224_j82489141887173_2_alg».proof.Proof.KITail
import proofs.«128224_j82489141887173_2_alg».proof.Proof.KIValue
import proofs.«128224_j82489141887173_2_alg».proof.Proof.LogitsBridge
import proofs.«128224_j82489141887173_2_alg».proof.Proof.LevelSums
import proofs.«128224_j82489141887173_2_alg».proof.Proof.KernelPred
import proofs.«128224_j82489141887173_2_alg».proof.Proof.KernelReg
import proofs.«128224_j82489141887173_2_alg».proof.Proof.RefValue
import proofs.«128224_j82489141887173_2_alg».proof.Proof.RefSums
import proofs.«128224_j82489141887173_2_alg».proof.Proof.Finite
import proofs.«128224_j82489141887173_2_alg».proof.Proof.RefRun

noncomputable section

namespace Cert.Proof.Algebraic

open Idealize.ShloMosaic Idealize.ShloMosaic.TcCoe Idealize.SL.Sem Idealize.ShloMosaic.ValueIdx SDT
open Cert.KernelIdeal Cert.KernelIdeal.Gen

theorem node_decomp : ∀ (D node : ℕ), node < 2 ^ D - 1 → ∃ d, d < D ∧ ∃ i, i < 2 ^ d ∧ node = 2 ^ d - 1 + i
  | 0, node, h => by simp at h
  | D + 1, node, h => by
    have hp : 0 < 2 ^ D := by positivity
    by_cases hlt : node < 2 ^ D - 1
    · obtain ⟨d, hd, i, hi, e⟩ := node_decomp D node hlt
      exact ⟨d, by omega, i, hi, e⟩
    · refine ⟨D, by omega, node - (2 ^ D - 1), ?_, by omega⟩
      rw [pow_succ] at h; omega

variable (m : (ℓ : Loc nD τ sig) → Buf (Elt Ideal) ℓ) (c : Dev nD)

abbrev argX : FVec Ideal S16384x1024 .f32 := m ((c : Thread nD τ).loc main_arg0)
abbrev argW1 : FVec Ideal S1023x1025 .f32 := m ((c : Thread nD τ).loc main_arg1)
abbrev argW2 : FVec Ideal S1000x1024 .f32 := m ((c : Thread nD τ).loc main_arg2)

abbrev pt (t : Fin 32) : Fin cfg0.N := ⟨t.val, lt_of_lt_of_eq t.isLt N_0.symm⟩

abbrev xb0 (t : Fin cfg0.N) : Vec Ideal S512x1024 .f32 := Frame.iblk (F := Ideal) m c 0 t
abbrev xb1 (t : Fin cfg0.N) : Vec Ideal S1024x1024 .bf16 := Frame.iblk (F := Ideal) m c 1 t
abbrev xb2 (t : Fin cfg0.N) : Vec Ideal S1024x1024 .bf16 := Frame.iblk (F := Ideal) m c 2 t
abbrev xb3 (t : Fin cfg0.N) : Vec Ideal S1x1024 .f32 := Frame.iblk (F := Ideal) m c 3 t
abbrev xb4 (t : Fin cfg0.N) : Vec Ideal S1024x1000 .bf16 := Frame.iblk (F := Ideal) m c 4 t
abbrev xb5 (t : Fin cfg0.N) : Vec Ideal S1024x1000 .bf16 := Frame.iblk (F := Ideal) m c 5 t

theorem iblk1_eq (t : Fin cfg0.N) : xb1 m c t = PrefixI.pre (fun b => m (c, b)) (Proc.devRef .tc main_v28) := by
  unfold xb1 Frame.iblk; exact Arrays.blk1_read _ t
theorem iblk2_eq (t : Fin cfg0.N) : xb2 m c t = PrefixI.pre (fun b => m (c, b)) (Proc.devRef .tc main_v31) := by
  unfold xb2 Frame.iblk; exact Arrays.blk2_read _ t
theorem iblk3_eq (t : Fin cfg0.N) : xb3 m c t = PrefixI.pre (fun b => m (c, b)) (Proc.devRef .tc main_v26) := by
  unfold xb3 Frame.iblk; exact Arrays.blk3_read _ t
theorem iblk4_eq (t : Fin cfg0.N) : xb4 m c t = PrefixL.pre (fun b => m (c, b)) (Proc.devRef .tc main_v34) := by
  unfold xb4 Frame.iblk; exact Arrays.blk4_read _ t
theorem iblk5_eq (t : Fin cfg0.N) : xb5 m c t = PrefixL.pre (fun b => m (c, b)) (Proc.devRef .tc main_v37) := by
  unfold xb5 Frame.iblk; exact Arrays.blk5_read _ t

theorem blk0 (t : Fin cfg0.N) (r : Fin 512) (k : Fin 1024) :
    xb0 m c t (ix2 r k)
      = argX m c (ix2 ⟨512 * t.val + r.val, by have := Arrays.pt_lt t; have := r.isLt; omega⟩ k) := by
  unfold xb0 Frame.iblk
  rw [Arrays.blk0_read]
  show (Frame.V (F := Ideal) m c main_arg0 : FVec Ideal S16384x1024 .f32) _ = _
  rw [Frame.V_main_arg0]

theorem blk1 (t : Fin cfg0.N) (k : Fin 1024) (d : ℕ) (hd : d < 10) (i : ℕ) (hi : i < 2 ^ d) :
    xb1 m c t (ix2 k ⟨2 ^ d - 1 + i, Nat.lt_succ_of_lt (PrefixI.node_lt hd hi)⟩)
      = argW1 m c (ix2 ⟨2 ^ d - 1 + brev d i, PrefixI.node_lt hd (brev_lt d i hi)⟩ ⟨k.val + 1, Nat.succ_lt_succ k.isLt⟩) := by
  rw [iblk1_eq]; exact PrefixI.wihi_apply (fun b => m (c, b)) k d hd i hi

theorem blk2 (t : Fin cfg0.N) (k j : Fin 1024) :
    xb2 m c t (ix2 k j)
      = xb1 m c t (ix2 k j) - xb1 m c t (ix2 k j) := by
  exact PrefixI.wilo_apply (fun b => m (c, b)) k j _ _ (iblk2_eq m c t) (iblk1_eq m c t)

theorem blk3 (t : Fin cfg0.N) (d : ℕ) (hd : d < 10) (i : ℕ) (hi : i < 2 ^ d) :
    xb3 m c t (ix2 (0 : Fin 1) ⟨2 ^ d - 1 + i, Nat.lt_succ_of_lt (PrefixI.node_lt hd hi)⟩)
      = argW1 m c (ix2 ⟨2 ^ d - 1 + brev d i, PrefixI.node_lt hd (brev_lt d i hi)⟩ (0 : Fin 1025)) := by
  rw [iblk3_eq]; exact PrefixI.wib_apply (fun b => m (c, b)) d hd i hi

theorem blk4 (t : Fin cfg0.N) (j : Fin 1024) (o : Fin 1000) :
    xb4 m c t (ix2 j o)
      = argW2 m c (ix2 o ⟨brev 10 j.val, brev_lt 10 j.val j.isLt⟩) := by
  rw [iblk4_eq]; exact PrefixL.wlhi_apply (fun b => m (c, b)) j o

theorem blk5 (t : Fin cfg0.N) (j : Fin 1024) (o : Fin 1000) :
    xb5 m c t (ix2 j o)
      = xb4 m c t (ix2 j o) - xb4 m c t (ix2 j o) := by
  have h5 : xb5 m c t (ix2 j o)
      = (PrefixL.pre (fun b => m (c, b)) (Proc.devRef .tc main_v37) (ix2 j o) : EReal) := congrFun (iblk5_eq m c t) (ix2 j o)
  have h4 : xb4 m c t (ix2 j o)
      = (PrefixL.pre (fun b => m (c, b)) (Proc.devRef .tc main_v34) (ix2 j o) : EReal) := congrFun (iblk4_eq m c t) (ix2 j o)
  exact h5.trans ((PrefixL.wllo_apply (fun b => m (c, b)) j o).trans (congrArg (fun x : EReal => x - x) h4).symm)

section Logits

variable (hX : ∀ i, IsFin (argX m c i)) (hW1 : ∀ i, IsFin (argW1 m c i))

def routeP (b : Fin 16384) (node : Fin 1023) : EReal :=
  Ideal.logistic (argW1 m c (ix2 node (0 : Fin 1025)) + ∑ k : Fin 1024, argX m c (ix2 b k) * argW1 m c (ix2 node ⟨k.val + 1, by omega⟩))

include hX hW1 in
theorem lgK_eq (t : Fin cfg0.N) (r : Fin 512) (d : ℕ) (hd : d < 10) (i : ℕ) (hi : i < 2 ^ d) :
    KValue.lgK (xb0 m c t) (xb1 m c t) (xb2 m c t) (xb3 m c t) r (2 ^ d - 1 + i)
      = routeP m c ⟨512 * t.val + r.val, by have := Arrays.pt_lt t; have := r.isLt; omega⟩ ⟨2 ^ d - 1 + brev d i, PrefixI.node_lt hd (brev_lt d i hi)⟩ := by
  have hnode : 2 ^ d - 1 + i < 1024 := Nat.lt_succ_of_lt (PrefixI.node_lt hd hi)
  show rowOf (A := 512) (B := 1024) (k0_pay4 (xb0 m c t) (xb1 m c t) (xb2 m c t) (xb3 m c t)) r (2 ^ d - 1 + i) = _
  rw [rowOf_lt _ _ _ hnode]
  exact LogitsBridge.logits_col (argX m c) (argW1 m c) hX hW1 _ _ _ _ _ r (fun k => blk0 m c t r k) ⟨2 ^ d - 1 + i, hnode⟩
    ⟨2 ^ d - 1 + brev d i, PrefixI.node_lt hd (brev_lt d i hi)⟩ (fun k => blk1 m c t k d hd i hi) (fun k => blk2 m c t k _) (blk3 m c t d hd i hi)

include hX hW1 in
theorem lgK_fin (t : Fin cfg0.N) (r : Fin 512) (node : ℕ) (hnode : node < 2 ^ 10 - 1) :
    IsFin (KValue.lgK (xb0 m c t) (xb1 m c t) (xb2 m c t) (xb3 m c t) r node) := by
  obtain ⟨d, hd, i, hi, rfl⟩ := node_decomp 10 node hnode
  rw [lgK_eq m c hX hW1 t r d hd i hi]
  exact IsFin.logistic ((hW1 _).add (IsFin.sum _ _ fun k _ => (hX _).mul (hW1 _)))

theorem lgR_eq (V0' : Valuation Cert.ReferenceIdeal.τ Cert.ReferenceIdeal.sig (Elt Ideal))
    (h0 : V0' (Proc.devRef .tc Cert.ReferenceIdeal.main_arg0) = m ((c : Thread nD τ).loc main_arg0))
    (h1 : V0' (Proc.devRef .tc Cert.ReferenceIdeal.main_arg1) = m ((c : Thread nD τ).loc main_arg1))
    (b : Fin 16384) (node : Fin 1023) :
    Cert.ReferenceIdeal.RefValue.lgR V0' b node.val = routeP m c b node := by
  show rowOf (A := 16384) (B := 1023) (Cert.ReferenceIdeal.Value.res_main_v9 (F := Ideal) V0') b node.val = _
  rw [rowOf_val, Cert.ReferenceIdeal.Sums.logits_apply, h0, h1]
  rfl

include hX hW1 in
theorem logits_agree (V0' : Valuation Cert.ReferenceIdeal.τ Cert.ReferenceIdeal.sig (Elt Ideal))
    (h0 : V0' (Proc.devRef .tc Cert.ReferenceIdeal.main_arg0) = m ((c : Thread nD τ).loc main_arg0))
    (h1 : V0' (Proc.devRef .tc Cert.ReferenceIdeal.main_arg1) = m ((c : Thread nD τ).loc main_arg1)) :
    LogitsAgree (fun t r => KValue.lgK (xb0 m c (pt t)) (xb1 m c (pt t)) (xb2 m c (pt t)) (xb3 m c (pt t)) r)
      (fun b => Cert.ReferenceIdeal.RefValue.lgR V0' b) := by
  intro t r d hd i hi
  beta_reduce
  rw [lgK_eq m c hX hW1 (pt t) r d hd i hi]
  exact (lgR_eq m c V0' h0 h1 _ ⟨2 ^ d - 1 + brev d i, PrefixI.node_lt hd (brev_lt d i hi)⟩).symm

end Logits

section Pred

variable (hX : ∀ i, IsFin (argX m c i)) (hW1 : ∀ i, IsFin (argW1 m c i)) (hW2 : ∀ i, IsFin (argW2 m c i))

theorem hz2 : (![0, 0] : Fin 2 → Nat) = fun _ => 0 := funext fun a => by fin_cases a <;> rfl

include hX hW1 hW2 in
theorem pred_core (V0' : Valuation Cert.ReferenceIdeal.τ Cert.ReferenceIdeal.sig (Elt Ideal))
    (h0 : V0' (Proc.devRef .tc Cert.ReferenceIdeal.main_arg0) = m ((c : Thread nD τ).loc main_arg0))
    (h1 : V0' (Proc.devRef .tc Cert.ReferenceIdeal.main_arg1) = m ((c : Thread nD τ).loc main_arg1))
    (b : Fin 16384) (o : Fin 1000) :
    ((Frame.dats (F := Ideal) m 0 c).arrAt 6 cfg0.N : Vec Ideal S16384x1000 .f32) (ix2 b o)
      = ∑ j : Fin 1024, pR c1 (Cert.ReferenceIdeal.RefValue.lgR V0' b) 10 j.val * argW2 m c (ix2 o j) := by
  rw [Arrays.arr6_apply (Frame.dats (F := Ideal) m 0 c)
    (fun t => Frame.out0_6 (xb0 m c t) (xb1 m c t) (xb2 m c t) (xb3 m c t) (xb4 m c t) (xb5 m c t)) (Frame.after0_6 m c) b o]
  unfold Frame.out0_6
  rw [View.canon_unit_zero hz2]
  have hb : (⟨512 * (b.val / 512) + b.val % 512, by have := b.isLt; omega⟩ : Fin 16384) = b := Fin.ext (Nat.div_add_mod b.val 512)
  refine KernelPred.pred_eq _ _ _ _ _ _ (argW2 m c) hW2 (fun j o => blk4 m c _ j o) (fun j o => blk5 m c _ j o) _
    (Cert.ReferenceIdeal.RefValue.lgR V0' b) (fun node hnode => lgK_fin m c hX hW1 _ _ node hnode) ?_ o
  intro d hd i hi
  rw [lgK_eq m c hX hW1 _ _ d hd i hi]
  have := lgR_eq m c V0' h0 h1 b ⟨2 ^ d - 1 + brev d i, PrefixI.node_lt hd (brev_lt d i hi)⟩
  rw [this]
  exact congrArg (fun x => routeP m c x _) hb

end Pred

section Reg

variable (hX : ∀ i, IsFin (argX m c i)) (hW1 : ∀ i, IsFin (argW1 m c i))

theorem arr7_tile (t : Fin 32) (col : Fin 2046) :
    ((Frame.dats (F := Ideal) m 0 c).arrAt 7 cfg0.N : Vec Ideal S256x2046 .f32) (ix2 ⟨8 * t.val, by omega⟩ col)
      = Body.num (xb0 m c (pt t)) (xb1 m c (pt t)) (xb2 m c (pt t)) (xb3 m c (pt t)) (ix2 (0 : Fin 8) col) := by
  rw [Arrays.arr7_apply (Frame.dats (F := Ideal) m 0 c)
    (fun t => Frame.out0_7 (xb0 m c t) (xb1 m c t) (xb2 m c t) (xb3 m c t)) (Frame.after0_7 m c)]
  have key : ∀ (tt : Fin cfg0.N) (qq : Fin 8), tt.val = t.val → qq.val = 0 →
      Frame.out0_7 (xb0 m c tt) (xb1 m c tt) (xb2 m c tt) (xb3 m c tt) (ix2 qq col)
        = Body.num (xb0 m c (pt t)) (xb1 m c (pt t)) (xb2 m c (pt t)) (xb3 m c (pt t)) (ix2 (0 : Fin 8) col) := by
    intro tt qq h1 h2
    obtain rfl : tt = pt t := Fin.ext h1
    obtain rfl : qq = 0 := Fin.ext h2
    unfold Frame.out0_7
    rw [View.canon_unit_zero hz2]
  exact key _ _ (Nat.mul_div_cancel_left _ (by norm_num)) (Nat.mul_mod_right _ _)

theorem arr8_tile (t : Fin 32) (col : Fin 2046) :
    ((Frame.dats (F := Ideal) m 0 c).arrAt 8 cfg0.N : Vec Ideal S256x2046 .f32) (ix2 ⟨8 * t.val, by omega⟩ col)
      = Body.den (xb0 m c (pt t)) (xb1 m c (pt t)) (xb2 m c (pt t)) (xb3 m c (pt t)) (ix2 (0 : Fin 8) col) := by
  rw [Arrays.arr8_apply (Frame.dats (F := Ideal) m 0 c)
    (fun t => Frame.out0_8 (xb0 m c t) (xb1 m c t) (xb2 m c t) (xb3 m c t)) (Frame.after0_8 m c)]
  have key : ∀ (tt : Fin cfg0.N) (qq : Fin 8), tt.val = t.val → qq.val = 0 →
      Frame.out0_8 (xb0 m c tt) (xb1 m c tt) (xb2 m c tt) (xb3 m c tt) (ix2 qq col)
        = Body.den (xb0 m c (pt t)) (xb1 m c (pt t)) (xb2 m c (pt t)) (xb3 m c (pt t)) (ix2 (0 : Fin 8) col) := by
    intro tt qq h1 h2
    obtain rfl : tt = pt t := Fin.ext h1
    obtain rfl : qq = 0 := Fin.ext h2
    unfold Frame.out0_8
    rw [View.canon_unit_zero hz2]
  exact key _ _ (Nat.mul_div_cancel_left _ (by norm_num)) (Nat.mul_mod_right _ _)

abbrev lgKt (t : Fin 32) (r : Fin 512) : ℕ → EReal :=
  KValue.lgK (xb0 m c (pt t)) (xb1 m c (pt t)) (xb2 m c (pt t)) (xb3 m c (pt t)) r

include hX hW1 in
theorem reg_core (V0' : Valuation Cert.ReferenceIdeal.τ Cert.ReferenceIdeal.sig (Elt Ideal))
    (h0 : V0' (Proc.devRef .tc Cert.ReferenceIdeal.main_arg0) = m ((c : Thread nD τ).loc main_arg0))
    (h1 : V0' (Proc.devRef .tc Cert.ReferenceIdeal.main_arg1) = m ((c : Thread nD τ).loc main_arg1)) :
    Pipeline.afterTail₀ cfgs (Frame.dats (F := Ideal) m) 0 (Frame.V0 m) [hostOps1] c main_v178
      = regChain
      (regTerm 2 Cert.ReferenceIdeal.Facts₀.bcast_S_S2 Cert.ReferenceIdeal.Facts₀.reducesTo_S2_S_d0 Cert.ReferenceIdeal.Facts₀.h_S_ (Cert.ReferenceIdeal.Value.res_main_v29 (F := Ideal) V0'))
      (regTerm 4 Cert.ReferenceIdeal.Facts₀.bcast_S_S4 Cert.ReferenceIdeal.Facts₀.reducesTo_S4_S_d0 Cert.ReferenceIdeal.Facts₀.h_S_ (Cert.ReferenceIdeal.Value.res_main_v53 (F := Ideal) V0'))
      (regTerm 8 Cert.ReferenceIdeal.Facts₀.bcast_S_S8 Cert.ReferenceIdeal.Facts₀.reducesTo_S8_S_d0 Cert.ReferenceIdeal.Facts₀.h_S_ (Cert.ReferenceIdeal.Value.res_main_v77 (F := Ideal) V0'))
      (regTerm 16 Cert.ReferenceIdeal.Facts₀.bcast_S_S16 Cert.ReferenceIdeal.Facts₀.reducesTo_S16_S_d0 Cert.ReferenceIdeal.Facts₀.h_S_ (Cert.ReferenceIdeal.Value.res_main_v101 (F := Ideal) V0'))
      (regTerm 32 Cert.ReferenceIdeal.Facts₀.bcast_S_S32 Cert.ReferenceIdeal.Facts₀.reducesTo_S32_S_d0 Cert.ReferenceIdeal.Facts₀.h_S_ (Cert.ReferenceIdeal.Value.res_main_v125 (F := Ideal) V0'))
      (regTerm 64 Cert.ReferenceIdeal.Facts₀.bcast_S_S64 Cert.ReferenceIdeal.Facts₀.reducesTo_S64_S_d0 Cert.ReferenceIdeal.Facts₀.h_S_ (Cert.ReferenceIdeal.Value.res_main_v149 (F := Ideal) V0'))
      (regTerm 128 Cert.ReferenceIdeal.Facts₀.bcast_S_S128 Cert.ReferenceIdeal.Facts₀.reducesTo_S128_S_d0 Cert.ReferenceIdeal.Facts₀.h_S_ (Cert.ReferenceIdeal.Value.res_main_v173 (F := Ideal) V0'))
      (regTerm 256 Cert.ReferenceIdeal.Facts₀.bcast_S_S256 Cert.ReferenceIdeal.Facts₀.reducesTo_S256_S_d0 Cert.ReferenceIdeal.Facts₀.h_S_ (Cert.ReferenceIdeal.Value.res_main_v197 (F := Ideal) V0'))
      (regTerm 512 Cert.ReferenceIdeal.Facts₀.bcast_S_S512 Cert.ReferenceIdeal.Facts₀.reducesTo_S512_S_d0 Cert.ReferenceIdeal.Facts₀.h_S_ (Cert.ReferenceIdeal.Value.res_main_v221 (F := Ideal) V0'))
      (regTerm 1024 Cert.ReferenceIdeal.Facts₀.bcast_S_S1024 Cert.ReferenceIdeal.Facts₀.reducesTo_S1024_S_d0 Cert.ReferenceIdeal.Facts₀.h_S_ (Cert.ReferenceIdeal.Value.res_main_v245 (F := Ideal) V0')) := by
  have hL := logits_agree m c hX hW1 V0' h0 h1
  unfold Pipeline.afterTail₀
  simp only [List.flatten_cons, List.flatten_nil, List.append_nil]
  rw [Tail.reg_term]
  have e7 : Pipeline.withArrays (cfgs 0).spec c (Frame.V0 (F := Ideal) m c) (fun w => (Frame.dats (F := Ideal) m 0 c).arrAt w (cfgs 0).N) (Proc.devRef .tc main_v38_1)
      = (Frame.dats (F := Ideal) m 0 c).arrAt 7 cfg0.N :=
    Pipeline.withArrays_arr spec0 launch0.win.arr_inj c (Frame.V0 (F := Ideal) m c) (fun w => (Frame.dats (F := Ideal) m 0 c).arrAt w cfg0.N) 7
  have e8 : Pipeline.withArrays (cfgs 0).spec c (Frame.V0 (F := Ideal) m c) (fun w => (Frame.dats (F := Ideal) m 0 c).arrAt w (cfgs 0).N) (Proc.devRef .tc main_v38_2)
      = (Frame.dats (F := Ideal) m 0 c).arrAt 8 cfg0.N :=
    Pipeline.withArrays_arr spec0 launch0.win.arr_inj c (Frame.V0 (F := Ideal) m c) (fun w => (Frame.dats (F := Ideal) m 0 c).arrAt w cfg0.N) 8
  rw [e7, e8]
  exact (KernelReg.kernel_chain _ _).trans (KernelReg.regChain_congr
    (KernelReg.term _ _ (lgKt m c) _ hL 0 (by decide) (by decide) 0 (by decide) _ _ _ _ _ _ _ _ (Tail.alphaK_0_apply _ _) (Cert.ReferenceIdeal.RefValue.alpha0 V0')
      (fun t j => (arr7_tile m c t _).trans (KValue.num_0 _ _ _ _ 0 j)) (fun t j => (arr8_tile m c t _).trans (KValue.den_0 _ _ _ _ 0 j)))
    (KernelReg.term _ _ (lgKt m c) _ hL 1 (by decide) (by decide) 2 (by decide) _ _ _ _ _ _ _ _ (Tail.alphaK_1_apply _ _) (Cert.ReferenceIdeal.RefValue.alpha1 V0')
      (fun t j => (arr7_tile m c t _).trans (KValue.num_1 _ _ _ _ 0 j)) (fun t j => (arr8_tile m c t _).trans (KValue.den_1 _ _ _ _ 0 j)))
    (KernelReg.term _ _ (lgKt m c) _ hL 2 (by decide) (by decide) 6 (by decide) _ _ _ _ _ _ _ _ (Tail.alphaK_2_apply _ _) (Cert.ReferenceIdeal.RefValue.alpha2 V0')
      (fun t j => (arr7_tile m c t _).trans (KValue.num_2 _ _ _ _ 0 j)) (fun t j => (arr8_tile m c t _).trans (KValue.den_2 _ _ _ _ 0 j)))
    (KernelReg.term _ _ (lgKt m c) _ hL 3 (by decide) (by decide) 14 (by decide) _ _ _ _ _ _ _ _ (Tail.alphaK_3_apply _ _) (Cert.ReferenceIdeal.RefValue.alpha3 V0')
      (fun t j => (arr7_tile m c t _).trans (KValue.num_3 _ _ _ _ 0 j)) (fun t j => (arr8_tile m c t _).trans (KValue.den_3 _ _ _ _ 0 j)))
    (KernelReg.term _ _ (lgKt m c) _ hL 4 (by decide) (by decide) 30 (by decide) _ _ _ _ _ _ _ _ (Tail.alphaK_4_apply _ _) (Cert.ReferenceIdeal.RefValue.alpha4 V0')
      (fun t j => (arr7_tile m c t _).trans (KValue.num_4 _ _ _ _ 0 j)) (fun t j => (arr8_tile m c t _).trans (KValue.den_4 _ _ _ _ 0 j)))
    (KernelReg.term _ _ (lgKt m c) _ hL 5 (by decide) (by decide) 62 (by decide) _ _ _ _ _ _ _ _ (Tail.alphaK_5_apply _ _) (Cert.ReferenceIdeal.RefValue.alpha5 V0')
      (fun t j => (arr7_tile m c t _).trans (KValue.num_5 _ _ _ _ 0 j)) (fun t j => (arr8_tile m c t _).trans (KValue.den_5 _ _ _ _ 0 j)))
    (KernelReg.term _ _ (lgKt m c) _ hL 6 (by decide) (by decide) 126 (by decide) _ _ _ _ _ _ _ _ (Tail.alphaK_6_apply _ _) (Cert.ReferenceIdeal.RefValue.alpha6 V0')
      (fun t j => (arr7_tile m c t _).trans (KValue.num_6 _ _ _ _ 0 j)) (fun t j => (arr8_tile m c t _).trans (KValue.den_6 _ _ _ _ 0 j)))
    (KernelReg.term _ _ (lgKt m c) _ hL 7 (by decide) (by decide) 254 (by decide) _ _ _ _ _ _ _ _ (Tail.alphaK_7_apply _ _) (Cert.ReferenceIdeal.RefValue.alpha7 V0')
      (fun t j => (arr7_tile m c t _).trans (KValue.num_7 _ _ _ _ 0 j)) (fun t j => (arr8_tile m c t _).trans (KValue.den_7 _ _ _ _ 0 j)))
    (KernelReg.term _ _ (lgKt m c) _ hL 8 (by decide) (by decide) 510 (by decide) _ _ _ _ _ _ _ _ (Tail.alphaK_8_apply _ _) (Cert.ReferenceIdeal.RefValue.alpha8 V0')
      (fun t j => (arr7_tile m c t _).trans (KValue.num_8 _ _ _ _ 0 j)) (fun t j => (arr8_tile m c t _).trans (KValue.den_8 _ _ _ _ 0 j)))
    (KernelReg.term _ _ (lgKt m c) _ hL 9 (by decide) (by decide) 1022 (by decide) _ _ _ _ _ _ _ _ (Tail.alphaK_9_apply _ _) (Cert.ReferenceIdeal.RefValue.alpha9 V0')
      (fun t j => (arr7_tile m c t _).trans (KValue.num_9 _ _ _ _ 0 j)) (fun t j => (arr8_tile m c t _).trans (KValue.den_9 _ _ _ _ 0 j))))

end Reg

/-- Finite inputs make every low half `x - x` vanish; what is left is the reference's sums with nodes, leaves and children renumbered by the reversal of their bits. -/
theorem algebraic : Cert.algebraic_KernelIdeal_ReferenceIdeal := by
  intro m ρ m' ρ' hpre hagree
  refine ⟨_, _, ?_, Cert.ReferenceIdeal.Value.run (F := Ideal) m' ρ'⟩
  refine (θ_run Cert.KernelIdeal.defs _ _).mono (fun r h c => ?_) (Frame.run_main (F := Ideal) m ρ)
  obtain ⟨hX, hW1, hW2⟩ := Finite.isFin_of_pre (argX m c) (argW1 m c) (argW2 m c) (hpre c)
  have h0 : StableHlo.launchContents m' c (Proc.devRef .tc Cert.ReferenceIdeal.main_arg0) = m ((c : Thread nD τ).loc main_arg0) := (hagree c).1
  have h1 : StableHlo.launchContents m' c (Proc.devRef .tc Cert.ReferenceIdeal.main_arg1) = m ((c : Thread nD τ).loc main_arg1) := (hagree c).2.1
  have h2 : StableHlo.launchContents m' c (Proc.devRef .tc Cert.ReferenceIdeal.main_arg2) = m ((c : Thread nD τ).loc main_arg2) := (hagree c).2.2
  refine ⟨((h c).1 6).trans ?_, ((h c).2 main_v178 (Pipeline.mem_restRefs_of main_v178 (by decide) (by decide))).trans ?_,
    ((h c).1 0).trans (((Frame.dats (F := Ideal) m 0 c).arrAt_in 0 rfl _).trans ((Frame.A_eq m c 0).trans (Frame.V_main_arg0 m c))),
    ((h c).2 main_arg1 (Pipeline.mem_restRefs_of main_arg1 (by decide) (by decide))).trans (Frame.W_main_arg1 m (Frame.dats m) c),
    ((h c).2 main_arg2 (Pipeline.mem_restRefs_of main_arg2 (by decide) (by decide))).trans (Frame.W_main_arg2 m (Frame.dats m) c)⟩
  · funext idx
    obtain ⟨b, o, rfl⟩ : ∃ (b : Fin 16384) (o : Fin 1000), idx = ix2 b o := ⟨idx 0, idx 1, eq_ix2 idx⟩
    refine (pred_core m c hX hW1 hW2 (StableHlo.launchContents m' c) h0 h1 b o).trans ?_
    rw [Cert.ReferenceIdeal.RefValue.pred, h2]
  · exact reg_core m c hX hW1 (StableHlo.launchContents m' c) h0 h1

end Cert.Proof.Algebraic

end
-- ==== Proof.lean ====
import proofs.«128224_j82489141887173_2_alg».proof.Defs
import proofs.«128224_j82489141887173_2_alg».proof.Proof.Gen.Kernel
import proofs.«128224_j82489141887173_2_alg».proof.Proof.Gen.KernelIdeal
import proofs.«128224_j82489141887173_2_alg».proof.Proof.Gen.ReferenceIdeal
import proofs.«128224_j82489141887173_2_alg».proof.Proof.Gen.Pre_finite_inputs
import proofs.«128224_j82489141887173_2_alg».proof.Proof.KFrame
import proofs.«128224_j82489141887173_2_alg».proof.Proof.KIFrame
import proofs.«128224_j82489141887173_2_alg».proof.Proof.RefRun
import proofs.«128224_j82489141887173_2_alg».proof.Proof.Algebraic
import Idealize.ShloMosaic.Adequacy
import Idealize.ShloMosaic.Init

noncomputable section

namespace Cert.Proof

open Idealize.ShloMosaic Idealize.SL.Sem

/-- Three runs that end without a fault and leave the arguments as they were, the removed changes of float format, and equal results over the extended reals. -/
theorem claim : Cert.Claim :=
  ⟨Cert.Kernel.Gen.facts, Cert.KernelIdeal.Gen.facts, Cert.ReferenceIdeal.Gen.facts, Cert.Pre_finite_inputs.Gen.facts,
    fun m ρ _ => Cert.Kernel.Frame.frame m ρ,
    fun m ρ _ => Cert.KernelIdeal.Frame.frame m ρ,
    Cert.Proof.RefRun.frame_ri,
    Cert.Proof.RefRun.preserves,
    Cert.Proof.Algebraic.algebraic⟩

end Cert.Proof

end
